-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v76)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v76) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v166) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S50000 : Shape := ⟨1, ![50000]⟩
abbrev S64x64 : Shape := ⟨2, ![64, 64]⟩
abbrev S64 : Shape := ⟨1, ![64]⟩
abbrev S_ : Shape := ⟨0, ![]⟩
abbrev S1x800000 : Shape := ⟨2, ![1, 800000]⟩
abbrev S800000 : Shape := ⟨1, ![800000]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  slices_S2x800000_S1x800000_0_0 : S2x800000.Slices ![0, 0] S1x800000
  shapeCasts_S1x800000_S800000 : S1x800000.ShapeCasts S800000
  bcast_S_S800000 : S_.BroadcastsInDim S800000 (![] : Fin 0 → Fin S800000.rank)
  reducesTo_S800000_S_d0 : S800000.ReducesTo [0] S_

variable [Facts]

def fn_part4 {F : FTy → Type} [FloatOps F] (main_v63 : IVec S_ 1) (main_v67 : IVec S800000 1) (main_v68 : IVec S1x800000 32) : IVec S_ 1 :=
  let main_v69 : IVec S800000 32 := shapeCast S800000 main_v68 shapeCasts_S1x800000_S800000
  let main_c_25 : IVec S_ 32 := constantI S_ 32 50000#32
  let main_v70 : IVec S800000 32 := broadcastInDim S800000 ![] bcast_S_S800000 main_c_25
  let main_v71 : IVec S800000 1 := cmpi .slt main_v69 main_v70
  let main_v72 : IVec S800000 1 := andi main_v67 main_v71
  let main_c_26 : IVec S_ 1 := constantI S_ 1 1#1
  let main_v73 : IVec S_ 1 := (fun x v => Host.reduce IntOp.andi x v reducesTo_S800000_S_d0 h_S_) main_v72 main_c_26
  let main_v74 : IVec S_ 1 := andi main_v63 main_v73
  main_v74

def fn_part3 {F : FTy → Type} [FloatOps F] (main_arg1 : IVec S2x800000 32) (main_arg13 : FVec F S64 .f32) (main_arg14 : FVec F S64 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64 .f32 := Host.absf main_arg13
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64 .f32 := Host.absf main_arg14
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : IVec S1x800000 32 := (extractStridedSlice S1x800000 ![0, 0] · slices_S2x800000_S1x800000_0_0) main_arg1
  let main_v65 : IVec S800000 32 := shapeCast S800000 main_v64 shapeCasts_S1x800000_S800000
  let main_c_24 : IVec S_ 32 := constantI S_ 32 0#32
  let main_v66 : IVec S800000 32 := broadcastInDim S800000 ![] bcast_S_S800000 main_c_24
  let main_v67 : IVec S800000 1 := cmpi .sge main_v65 main_v66
  let main_v68 : IVec S1x800000 32 := (extractStridedSlice S1x800000 ![0, 0] · slices_S2x800000_S1x800000_0_0) main_arg1
  fn_part4 (F := F) main_v63 main_v67 main_v68

def fn_part2 {F : FTy → Type} [FloatOps F] (main_arg1 : IVec S2x800000 32) (main_arg9 : FVec F S64 .f32) (main_arg10 : FVec F S64 .f32) (main_arg11 : FVec F S64x64 .f32) (main_arg12 : FVec F S64 .f32) (main_arg13 : FVec F S64 .f32) (main_arg14 : FVec F S64 .f32) (main_v33 : IVec S_ 1) : IVec S_ 1 :=
  let main_v34 : FVec F S64 .f32 := Host.absf main_arg9
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x64 .f32 := Host.absf main_arg11
  let main_cst_16 : FVec F S_ .f32 := constant S_ .f32 0x7F800000#32
  let main_v45 : FVec F S64x64 .f32 := broadcastInDim S64x64 ![] bcast_S_S64x64 main_cst_16
  let main_v46 : IVec S64x64 1 := cmpf .olt main_v44 main_v45
  let main_c_17 : IVec S_ 1 := constantI S_ 1 1#1
  let main_v47 : IVec S_ 1 := (fun x v => Host.reduce IntOp.andi x v reducesTo_S64x64_S_d0_1 h_S_) main_v46 main_c_17
  let main_v48 : IVec S_ 1 := andi main_v43 main_v47
  let main_v49 : FVec F S64 .f32 := Host.absf main_arg12
  let main_cst_18 : FVec F S_ .f32 := constant S_ .f32 0x7F800000#32
  let main_v50 : FVec F S64 .f32 := broadcastInDim S64 ![] bcast_S_S64 main_cst_18
  fn_part3 (F := F) main_arg1 main_arg13 main_arg14 main_v48 main_v49 main_v50

def fn_part1 {F : FTy → Type} [FloatOps F] (main_arg1 : IVec S2x800000 32) (main_arg6 : FVec F S64 .f32) (main_arg7 : FVec F S64x64 .f32) (main_arg8 : FVec F S64 .f32) (main_arg9 : FVec F S64 .f32) (main_arg10 : FVec F S64 .f32) (main_arg11 : FVec F S64x64 .f32) (main_arg12 : FVec F S64 .f32) (main_arg13 : FVec F S64 .f32) (main_arg14 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg7
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg1 main_arg9 main_arg10 main_arg11 main_arg12 main_arg13 main_arg14 main_v33

def fn {F : FTy → Type} [FloatOps F] (main_arg0 : FVec F S50000x64 .f32) (main_arg1 : IVec S2x800000 32) (main_arg2 : IVec S50000 32) (main_arg3 : FVec F S64x64 .f32) (main_arg4 : FVec F S64 .f32) (main_arg5 : FVec F S64 .f32) (main_arg6 : FVec F S64 .f32) (main_arg7 : FVec F S64x64 .f32) (main_arg8 : FVec F S64 .f32) (main_arg9 : FVec F S64 .f32) (main_arg10 : FVec F S64 .f32) (main_arg11 : FVec F S64x64 .f32) (main_arg12 : FVec F S64 .f32) (main_arg13 : FVec F S64 .f32) (main_arg14 : FVec F S64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S64x64 .f32 := Host.absf main_arg3
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg1 main_arg6 main_arg7 main_arg8 main_arg9 main_arg10 main_arg11 main_arg12 main_arg13 main_arg14 main_v13 main_v16
-- ==== Kernel.lean ====
abbrev S50000x64 : Shape := ⟨2, ![50000, 64]⟩
abbrev S2x800000 : Shape := ⟨2, ![2, 800000]⟩
abbrev S50000 : Shape := ⟨1, ![50000]⟩
abbrev S64x64 : Shape := ⟨2, ![64, 64]⟩
abbrev S64 : Shape := ⟨1, ![64]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x1 : Shape := ⟨2, ![50000, 1]⟩
abbrev S5000x64 : Shape := ⟨2, ![5000, 64]⟩
abbrev S5000x1 : Shape := ⟨2, ![5000, 1]⟩
abbrev S1 : Shape := ⟨1, ![1]⟩
abbrev S1x1 : Shape := ⟨2, ![1, 1]⟩
abbrev S850000x64 : Shape := ⟨2, ![850000, 64]⟩
abbrev S1x64 : Shape := ⟨2, ![1, 64]⟩
abbrev S500x64 : Shape := ⟨2, ![500, 64]⟩
abbrev S500 : Shape := ⟨1, ![500]⟩
abbrev S500x1 : Shape := ⟨2, ![500, 1]⟩

abbrev nBuf : Space → Nat
  | .hbm => 179
  | .vmem => 63
  | .smem => 0
  | _ => 0

abbrev hbmTy0_0 (i : Nat) : BufTy := match i % 128 with
  | 0 => ⟨S50000x64, .f32⟩
  | 1 => ⟨S2x800000, .i32⟩
  | 2 => ⟨S50000, .i32⟩
  | 3 => ⟨S64x64, .f32⟩
  | 4 => ⟨S64, .f32⟩
  | 5 => ⟨S64, .f32⟩
  | 6 => ⟨S64, .f32⟩
  | 7 => ⟨S64x64, .f32⟩
  | 8 => ⟨S64, .f32⟩
  | 9 => ⟨S64, .f32⟩
  | 10 => ⟨S64, .f32⟩
  | 11 => ⟨S64x64, .f32⟩
  | 12 => ⟨S64, .f32⟩
  | 13 => ⟨S64, .f32⟩
  | 14 => ⟨S64, .f32⟩
  | 15 => ⟨S50000, .i32⟩
  | 16 => ⟨S1x800000, .i32⟩
  | 17 => ⟨S800000, .i32⟩
  | 18 => ⟨S850000, .i32⟩
  | 19 => ⟨S1x800000, .i32⟩
  | 20 => ⟨S800000, .i32⟩
  | 21 => ⟨S850000, .i32⟩
  | 22 => ⟨S_, .f32⟩
  | 23 => ⟨S850000, .f32⟩
  | 24 => ⟨S_, .f32⟩
  | 25 => ⟨S50000, .f32⟩
  | 26 => ⟨S850000x1, .i32⟩
  | 27 => ⟨S50000, .f32⟩
  | 28 => ⟨S50000, .f32⟩
  | 29 => ⟨S50000x1, .f32⟩
  | 30 => ⟨S50000x64, .f32⟩
  | 31 => ⟨S_, .i32⟩
  | 32 => ⟨S850000, .i32⟩
  | 33 => ⟨S850000, .i1⟩
  | 34 => ⟨S_, .i32⟩
  | 35 => ⟨S850000, .i32⟩
  | 36 => ⟨S850000, .i32⟩
  | 37 => ⟨S850000, .i32⟩
  | 38 => ⟨S850000x1, .i32⟩
  | 39 => ⟨S1, .i32⟩
  | 40 => ⟨S_, .i32⟩
  | 41 => ⟨S850000x1, .i32⟩
  | 42 => ⟨S850000x1, .i1⟩
  | 43 => ⟨S1x1, .i32⟩
  | 44 => ⟨S850000x1, .i32⟩
  | 45 => ⟨S850000x1, .i1⟩
  | 46 => ⟨S850000x1, .i1⟩
  | 47 => ⟨S_, .i1⟩
  | 48 => ⟨S850000, .i1⟩
  | 49 => ⟨S850000x64, .f32⟩
  | 50 => ⟨S850000x64, .i1⟩
  | 51 => ⟨S_, .f32⟩
  | 52 => ⟨S850000x64, .f32⟩
  | 53 => ⟨S850000x64, .f32⟩
  | 54 => ⟨S_, .f32⟩
  | 55 => ⟨S50000x64, .f32⟩
  | 56 => ⟨S850000x1, .i32⟩
  | 57 => ⟨S50000x64, .f32⟩
  | 58 => ⟨S1x64, .f32⟩
  | 59 => ⟨S1x64, .f32⟩
  | 60 => ⟨S1x64, .f32⟩
  | 61 => ⟨S1x64, .f32⟩
  | 62 => ⟨S1x64, .f32⟩
  | 63 => ⟨S_, .f32⟩
  | 64 => ⟨S1x64, .f32⟩
  | 65 => ⟨S1x64, .f32⟩
  | 66 => ⟨S_, .f32⟩
  | 67 => ⟨S1x64, .f32⟩
  | 68 => ⟨S1x64, .f32⟩
  | 69 => ⟨S1x64, .f32⟩
  | 70 => ⟨S1x64, .f32⟩
  | 71 => ⟨S_, .f32⟩
  | 72 => ⟨S1x64, .f32⟩
  | 73 => ⟨S1x64, .f32⟩
  | 74 => ⟨S50000x64, .f32⟩
  | 75 => ⟨S_, .i32⟩
  | 76 => ⟨S850000, .i32⟩
  | 77 => ⟨S850000, .i1⟩
  | 78 => ⟨S_, .i32⟩
  | 79 => ⟨S850000, .i32⟩
  | 80 => ⟨S850000, .i32⟩
  | 81 => ⟨S850000, .i32⟩
  | 82 => ⟨S850000x1, .i32⟩
  | 83 => ⟨S1, .i32⟩
  | 84 => ⟨S_, .i32⟩
  | 85 => ⟨S850000x1, .i32⟩
  | 86 => ⟨S850000x1, .i1⟩
  | 87 => ⟨S1x1, .i32⟩
  | 88 => ⟨S850000x1, .i32⟩
  | 89 => ⟨S850000x1, .i1⟩
  | 90 => ⟨S850000x1, .i1⟩
  | 91 => ⟨S_, .i1⟩
  | 92 => ⟨S850000, .i1⟩
  | 93 => ⟨S850000x64, .f32⟩
  | 94 => ⟨S850000x64, .i1⟩
  | 95 => ⟨S_, .f32⟩
  | 96 => ⟨S850000x64, .f32⟩
  | 97 => ⟨S850000x64, .f32⟩
  | 98 => ⟨S_, .f32⟩
  | 99 => ⟨S50000x64, .f32⟩
  | 100 => ⟨S850000x1, .i32⟩
  | 101 => ⟨S50000x64, .f32⟩
  | 102 => ⟨S1x64, .f32⟩
  | 103 => ⟨S1x64, .f32⟩
  | 104 => ⟨S1x64, .f32⟩
  | 105 => ⟨S1x64, .f32⟩
  | 106 => ⟨S1x64, .f32⟩
  | 107 => ⟨S_, .f32⟩
  | 108 => ⟨S1x64, .f32⟩
  | 109 => ⟨S1x64, .f32⟩
  | 110 => ⟨S_, .f32⟩
  | 111 => ⟨S1x64, .f32⟩
  | 112 => ⟨S1x64, .f32⟩
  | 113 => ⟨S1x64, .f32⟩
  | 114 => ⟨S1x64, .f32⟩
  | 115 => ⟨S_, .f32⟩
  | 116 => ⟨S1x64, .f32⟩
  | 117 => ⟨S1x64, .f32⟩
  | 118 => ⟨S50000x64, .f32⟩
  | 119 => ⟨S_, .i32⟩
  | 120 => ⟨S850000, .i32⟩
  | 121 => ⟨S850000, .i1⟩
  | 122 => ⟨S_, .i32⟩
  | 123 => ⟨S850000, .i32⟩
  | 124 => ⟨S850000, .i32⟩
  | 125 => ⟨S850000, .i32⟩
  | 126 => ⟨S850000x1, .i32⟩
  | 127 => ⟨S1, .i32⟩
  | _ => ⟨S50000x64, .f32⟩

abbrev hbmTy0_1 (i : Nat) : BufTy := match i % 128 with
  | 0 => ⟨S_, .i32⟩
  | 1 => ⟨S850000x1, .i32⟩
  | 2 => ⟨S850000x1, .i1⟩
  | 3 => ⟨S1x1, .i32⟩
  | 4 => ⟨S850000x1, .i32⟩
  | 5 => ⟨S850000x1, .i1⟩
  | 6 => ⟨S850000x1, .i1⟩
  | 7 => ⟨S_, .i1⟩
  | 8 => ⟨S850000, .i1⟩
  | 9 => ⟨S850000x64, .f32⟩
  | 10 => ⟨S850000x64, .i1⟩
  | 11 => ⟨S_, .f32⟩
  | 12 => ⟨S850000x64, .f32⟩
  | 13 => ⟨S850000x64, .f32⟩
  | 14 => ⟨S_, .f32⟩
  | 15 => ⟨S50000x64, .f32⟩
  | 16 => ⟨S850000x1, .i32⟩
  | 17 => ⟨S50000x64, .f32⟩
  | 18 => ⟨S1x64, .f32⟩
  | 19 => ⟨S1x64, .f32⟩
  | 20 => ⟨S1x64, .f32⟩
  | 21 => ⟨S1x64, .f32⟩
  | 22 => ⟨S1x64, .f32⟩
  | 23 => ⟨S_, .f32⟩
  | 24 => ⟨S1x64, .f32⟩
  | 25 => ⟨S1x64, .f32⟩
  | 26 => ⟨S_, .f32⟩
  | 27 => ⟨S1x64, .f32⟩
  | 28 => ⟨S1x64, .f32⟩
  | 29 => ⟨S1x64, .f32⟩
  | 30 => ⟨S1x64, .f32⟩
  | 31 => ⟨S_, .f32⟩
  | 32 => ⟨S1x64, .f32⟩
  | 33 => ⟨S1x64, .f32⟩
  | 34 => ⟨S50000x64, .f32⟩
  | 35 => ⟨S_, .f32⟩
  | 36 => ⟨S500x64, .f32⟩
  | 37 => ⟨S50000x1, .i32⟩
  | 38 => ⟨S500x64, .f32⟩
  | 39 => ⟨S_, .f32⟩
  | 40 => ⟨S50000, .f32⟩
  | 41 => ⟨S_, .f32⟩
  | 42 => ⟨S500, .f32⟩
  | 43 => ⟨S50000x1, .i32⟩
  | 44 => ⟨S500, .f32⟩
  | 45 => ⟨S_, .f32⟩
  | 46 => ⟨S500, .f32⟩
  | 47 => ⟨S500, .f32⟩
  | 48 => ⟨S500x1, .f32⟩
  | 49 => ⟨S500x64, .f32⟩
  | 50 => ⟨S500x64, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | .local _ .vmem, ⟨0, _⟩ => ⟨S5000x64, .f32⟩
  | .local _ .vmem, ⟨1, _⟩ => ⟨S5000x64, .f32⟩
  | .local _ .vmem, ⟨2, _⟩ => ⟨S64x64, .f32⟩
  | .local _ .vmem, ⟨3, _⟩ => ⟨S5000x1, .f32⟩
  | .local _ .vmem, ⟨4, _⟩ => ⟨S5000x1, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x1, .f32⟩
  | .local _ .vmem, ⟨10, _⟩ => ⟨S5000x1, .f32⟩
  | .local _ .vmem, ⟨11, _⟩ => ⟨S1x64, .f32⟩
  | .local _ .vmem, ⟨12, _⟩ => ⟨S1x64, .f32⟩
  | .local _ .vmem, ⟨13, _⟩ => ⟨S1x64, .f32⟩
  | .local _ .vmem, ⟨14, _⟩ => ⟨S5000x64, .f32⟩
  | .local _ .vmem, ⟨15, _⟩ => ⟨S5000x64, .f32⟩
  | .local _ .vmem, ⟨16, _⟩ => ⟨S5000x1, .f32⟩
  | .local _ .vmem, ⟨17, _⟩ => ⟨S5000x1, .f32⟩
  | .local _ .vmem, ⟨18, _⟩ => ⟨S1x64, .f32⟩
  | .local _ .vmem, ⟨19, _⟩ => ⟨S1x64, .f32⟩
  | .local _ .vmem, ⟨20, _⟩ => ⟨S1x64, .f32⟩
  | .local _ .vmem, ⟨21, _⟩ => ⟨S1x64, .f32⟩
  | .local _ .vmem, ⟨22, _⟩ => ⟨S1x64, .f32⟩
  | .local _ .vmem, ⟨23, _⟩ => ⟨S64x64, .f32⟩
  | .local _ .vmem, ⟨24, _⟩ => ⟨S5000x64, .f32⟩
  | .local _ .vmem, ⟨25, _⟩ => ⟨S5000x64, .f32⟩
  | .local _ .vmem, ⟨26, _⟩ => ⟨S5000x64, .f32⟩
  | .local _ .vmem, ⟨27, _⟩ => ⟨S5000x64, .f32⟩
  | .local _ .vmem, ⟨28, _⟩ => ⟨S5000x1, .f32⟩
  | .local _ .vmem, ⟨29, _⟩ => ⟨S5000x1, .f32⟩
  | .local _ .vmem, ⟨30, _⟩ => ⟨S1x64, .f32⟩
  | .local _ .vmem, ⟨31, _⟩ => ⟨S1x64, .f32⟩
  | .local _ .vmem, ⟨32, _⟩ => ⟨S1x64, .f32⟩
  | .local _ .vmem, ⟨33, _⟩ => ⟨S5000x64, .f32⟩
  | .local _ .vmem, ⟨34, _⟩ => ⟨S5000x64, .f32⟩
  | .local _ .vmem, ⟨35, _⟩ => ⟨S5000x1, .f32⟩
  | .local _ .vmem, ⟨36, _⟩ => ⟨S5000x1, .f32⟩
  | .local _ .vmem, ⟨37, _⟩ => ⟨S1x64, .f32⟩
  | .local _ .vmem, ⟨38, _⟩ => ⟨S1x64, .f32⟩
  | .local _ .vmem, ⟨39, _⟩ => ⟨S1x64, .f32⟩
  | .local _ .vmem, ⟨40, _⟩ => ⟨S1x64, .f32⟩
  | .local _ .vmem, ⟨41, _⟩ => ⟨S1x64, .f32⟩
  | .local _ .vmem, ⟨42, _⟩ => ⟨S64x64, .f32⟩
  | .local _ .vmem, ⟨43, _⟩ => ⟨S5000x64, .f32⟩
  | .local _ .vmem, ⟨44, _⟩ => ⟨S5000x64, .f32⟩
  | .local _ .vmem, ⟨45, _⟩ => ⟨S5000x64, .f32⟩
  | .local _ .vmem, ⟨46, _⟩ => ⟨S5000x64, .f32⟩
  | .local _ .vmem, ⟨47, _⟩ => ⟨S5000x1, .f32⟩
  | .local _ .vmem, ⟨48, _⟩ => ⟨S5000x1, .f32⟩
  | .local _ .vmem, ⟨49, _⟩ => ⟨S1x64, .f32⟩
  | .local _ .vmem, ⟨50, _⟩ => ⟨S1x64, .f32⟩
  | .local _ .vmem, ⟨51, _⟩ => ⟨S1x64, .f32⟩
  | .local _ .vmem, ⟨52, _⟩ => ⟨S5000x64, .f32⟩
  | .local _ .vmem, ⟨53, _⟩ => ⟨S5000x64, .f32⟩
  | .local _ .vmem, ⟨54, _⟩ => ⟨S5000x1, .f32⟩
  | .local _ .vmem, ⟨55, _⟩ => ⟨S5000x1, .f32⟩
  | .local _ .vmem, ⟨56, _⟩ => ⟨S1x64, .f32⟩
  | .local _ .vmem, ⟨57, _⟩ => ⟨S1x64, .f32⟩
  | .local _ .vmem, ⟨58, _⟩ => ⟨S1x64, .f32⟩
  | .local _ .vmem, ⟨59, _⟩ => ⟨S1x64, .f32⟩
  | .local _ .vmem, ⟨60, _⟩ => ⟨S1x64, .f32⟩
  | .local _ .vmem, ⟨61, _⟩ => ⟨S5000x64, .f32⟩
  | .local _ .vmem, ⟨62, _⟩ => ⟨S5000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | _, _ => false

abbrev semScoped : Fin 0 → Bool
  | ⟨_, h⟩ => absurd h (Nat.not_lt_zero _)

abbrev dmaSemScoped : Fin 63 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | _ => false

abbrev sig : RefSig :=
  ofTc nBuf bufTy 0 63 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst : Ref sig .tc := ⟨.hbm, 22, rfl⟩
abbrev main_v7 : Ref sig .tc := ⟨.hbm, 23, rfl⟩
abbrev main_cst_0 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_call0_c : Ref sig .tc := ⟨.hbm, 31, rfl⟩
abbrev main_call0_v0 : Ref sig .tc := ⟨.hbm, 32, rfl⟩
abbrev main_call0_v1 : Ref sig .tc := ⟨.hbm, 33, rfl⟩
abbrev main_call0_c_0 : Ref sig .tc := ⟨.hbm, 34, rfl⟩
abbrev main_call0_v2 : Ref sig .tc := ⟨.hbm, 35, rfl⟩
abbrev main_call0_v3 : Ref sig .tc := ⟨.hbm, 36, rfl⟩
abbrev main_call0_v4 : Ref sig .tc := ⟨.hbm, 37, rfl⟩
abbrev main_call0_v5 : Ref sig .tc := ⟨.hbm, 38, rfl⟩
abbrev main_call0_c_1 : Ref sig .tc := ⟨.hbm, 39, rfl⟩
abbrev main_call0_c_2 : Ref sig .tc := ⟨.hbm, 40, rfl⟩
abbrev main_call0_v6 : Ref sig .tc := ⟨.hbm, 41, rfl⟩
abbrev main_call0_v7 : Ref sig .tc := ⟨.hbm, 42, rfl⟩
abbrev main_call0_v8 : Ref sig .tc := ⟨.hbm, 43, rfl⟩
abbrev main_call0_v9 : Ref sig .tc := ⟨.hbm, 44, rfl⟩
abbrev main_call0_v10 : Ref sig .tc := ⟨.hbm, 45, rfl⟩
abbrev main_call0_v11 : Ref sig .tc := ⟨.hbm, 46, rfl⟩
abbrev main_call0_c_3 : Ref sig .tc := ⟨.hbm, 47, rfl⟩
abbrev main_call0_v12 : Ref sig .tc := ⟨.hbm, 48, rfl⟩
abbrev main_call0_v13 : Ref sig .tc := ⟨.hbm, 49, rfl⟩
abbrev main_call0_v14 : Ref sig .tc := ⟨.hbm, 50, rfl⟩
abbrev main_call0_cst : Ref sig .tc := ⟨.hbm, 51, rfl⟩
abbrev main_call0_v15 : Ref sig .tc := ⟨.hbm, 52, rfl⟩
abbrev main_v14 : Ref sig .tc := ⟨.hbm, 53, rfl⟩
abbrev main_cst_1 : Ref sig .tc := ⟨.hbm, 54, rfl⟩
abbrev main_v15 : Ref sig .tc := ⟨.hbm, 55, rfl⟩
abbrev main_v16 : Ref sig .tc := ⟨.hbm, 56, rfl⟩
abbrev main_v17 : Ref sig .tc := ⟨.hbm, 57, rfl⟩
abbrev main_v18 : Ref sig .tc := ⟨.hbm, 58, rfl⟩
abbrev main_v19 : Ref sig .tc := ⟨.hbm, 59, rfl⟩
abbrev main_v20 : Ref sig .tc := ⟨.hbm, 60, rfl⟩
abbrev main_v21_0 : Ref sig .tc := ⟨.hbm, 61, rfl⟩
abbrev main_v21_1 : Ref sig .tc := ⟨.hbm, 62, rfl⟩
abbrev main_cst_2 : Ref sig .tc := ⟨.hbm, 63, rfl⟩
abbrev main_v22 : Ref sig .tc := ⟨.hbm, 64, rfl⟩
abbrev main_v23 : Ref sig .tc := ⟨.hbm, 65, rfl⟩
abbrev main_cst_3 : Ref sig .tc := ⟨.hbm, 66, rfl⟩
abbrev main_v24 : Ref sig .tc := ⟨.hbm, 67, rfl⟩
abbrev main_v25 : Ref sig .tc := ⟨.hbm, 68, rfl⟩
abbrev main_v26 : Ref sig .tc := ⟨.hbm, 69, rfl⟩
abbrev main_v27 : Ref sig .tc := ⟨.hbm, 70, rfl⟩
abbrev main_cst_4 : Ref sig .tc := ⟨.hbm, 71, rfl⟩
abbrev main_v28 : Ref sig .tc := ⟨.hbm, 72, rfl⟩
abbrev main_v29 : Ref sig .tc := ⟨.hbm, 73, rfl⟩
abbrev main_v30 : Ref sig .tc := ⟨.hbm, 74, rfl⟩
abbrev main_call1_c : Ref sig .tc := ⟨.hbm, 75, rfl⟩
abbrev main_call1_v0 : Ref sig .tc := ⟨.hbm, 76, rfl⟩
abbrev main_call1_v1 : Ref sig .tc := ⟨.hbm, 77, rfl⟩
abbrev main_call1_c_0 : Ref sig .tc := ⟨.hbm, 78, rfl⟩
abbrev main_call1_v2 : Ref sig .tc := ⟨.hbm, 79, rfl⟩
abbrev main_call1_v3 : Ref sig .tc := ⟨.hbm, 80, rfl⟩
abbrev main_call1_v4 : Ref sig .tc := ⟨.hbm, 81, rfl⟩
abbrev main_call1_v5 : Ref sig .tc := ⟨.hbm, 82, rfl⟩
abbrev main_call1_c_1 : Ref sig .tc := ⟨.hbm, 83, rfl⟩
abbrev main_call1_c_2 : Ref sig .tc := ⟨.hbm, 84, rfl⟩
abbrev main_call1_v6 : Ref sig .tc := ⟨.hbm, 85, rfl⟩
abbrev main_call1_v7 : Ref sig .tc := ⟨.hbm, 86, rfl⟩
abbrev main_call1_v8 : Ref sig .tc := ⟨.hbm, 87, rfl⟩
abbrev main_call1_v9 : Ref sig .tc := ⟨.hbm, 88, rfl⟩
abbrev main_call1_v10 : Ref sig .tc := ⟨.hbm, 89, rfl⟩
abbrev main_call1_v11 : Ref sig .tc := ⟨.hbm, 90, rfl⟩
abbrev main_call1_c_3 : Ref sig .tc := ⟨.hbm, 91, rfl⟩
abbrev main_call1_v12 : Ref sig .tc := ⟨.hbm, 92, rfl⟩
abbrev main_call1_v13 : Ref sig .tc := ⟨.hbm, 93, rfl⟩
abbrev main_call1_v14 : Ref sig .tc := ⟨.hbm, 94, rfl⟩
abbrev main_call1_cst : Ref sig .tc := ⟨.hbm, 95, rfl⟩
abbrev main_call1_v15 : Ref sig .tc := ⟨.hbm, 96, rfl⟩
abbrev main_v31 : Ref sig .tc := ⟨.hbm, 97, rfl⟩
abbrev main_cst_5 : Ref sig .tc := ⟨.hbm, 98, rfl⟩
abbrev main_v32 : Ref sig .tc := ⟨.hbm, 99, rfl⟩
abbrev main_v33 : Ref sig .tc := ⟨.hbm, 100, rfl⟩
abbrev main_v34 : Ref sig .tc := ⟨.hbm, 101, rfl⟩
abbrev main_v35 : Ref sig .tc := ⟨.hbm, 102, rfl⟩
abbrev main_v36 : Ref sig .tc := ⟨.hbm, 103, rfl⟩
abbrev main_v37 : Ref sig .tc := ⟨.hbm, 104, rfl⟩
abbrev main_v38_0 : Ref sig .tc := ⟨.hbm, 105, rfl⟩
abbrev main_v38_1 : Ref sig .tc := ⟨.hbm, 106, rfl⟩
abbrev main_cst_6 : Ref sig .tc := ⟨.hbm, 107, rfl⟩
abbrev main_v39 : Ref sig .tc := ⟨.hbm, 108, rfl⟩
abbrev main_v40 : Ref sig .tc := ⟨.hbm, 109, rfl⟩
abbrev main_cst_7 : Ref sig .tc := ⟨.hbm, 110, rfl⟩
abbrev main_v41 : Ref sig .tc := ⟨.hbm, 111, rfl⟩
abbrev main_v42 : Ref sig .tc := ⟨.hbm, 112, rfl⟩
abbrev main_v43 : Ref sig .tc := ⟨.hbm, 113, rfl⟩
abbrev main_v44 : Ref sig .tc := ⟨.hbm, 114, rfl⟩
abbrev main_cst_8 : Ref sig .tc := ⟨.hbm, 115, rfl⟩
abbrev main_v45 : Ref sig .tc := ⟨.hbm, 116, rfl⟩
abbrev main_v46 : Ref sig .tc := ⟨.hbm, 117, rfl⟩
abbrev main_v47 : Ref sig .tc := ⟨.hbm, 118, rfl⟩
abbrev main_call2_c : Ref sig .tc := ⟨.hbm, 119, rfl⟩
abbrev main_call2_v0 : Ref sig .tc := ⟨.hbm, 120, rfl⟩
abbrev main_call2_v1 : Ref sig .tc := ⟨.hbm, 121, rfl⟩
abbrev main_call2_c_0 : Ref sig .tc := ⟨.hbm, 122, rfl⟩
abbrev main_call2_v2 : Ref sig .tc := ⟨.hbm, 123, rfl⟩
abbrev main_call2_v3 : Ref sig .tc := ⟨.hbm, 124, rfl⟩
abbrev main_call2_v4 : Ref sig .tc := ⟨.hbm, 125, rfl⟩
abbrev main_call2_v5 : Ref sig .tc := ⟨.hbm, 126, rfl⟩
abbrev main_call2_c_1 : Ref sig .tc := ⟨.hbm, 127, rfl⟩
abbrev main_call2_c_2 : Ref sig .tc := ⟨.hbm, 128, rfl⟩
abbrev main_call2_v6 : Ref sig .tc := ⟨.hbm, 129, rfl⟩
abbrev main_call2_v7 : Ref sig .tc := ⟨.hbm, 130, rfl⟩
abbrev main_call2_v8 : Ref sig .tc := ⟨.hbm, 131, rfl⟩
abbrev main_call2_v9 : Ref sig .tc := ⟨.hbm, 132, rfl⟩
abbrev main_call2_v10 : Ref sig .tc := ⟨.hbm, 133, rfl⟩
abbrev main_call2_v11 : Ref sig .tc := ⟨.hbm, 134, rfl⟩
abbrev main_call2_c_3 : Ref sig .tc := ⟨.hbm, 135, rfl⟩
abbrev main_call2_v12 : Ref sig .tc := ⟨.hbm, 136, rfl⟩
abbrev main_call2_v13 : Ref sig .tc := ⟨.hbm, 137, rfl⟩
abbrev main_call2_v14 : Ref sig .tc := ⟨.hbm, 138, rfl⟩
abbrev main_call2_cst : Ref sig .tc := ⟨.hbm, 139, rfl⟩
abbrev main_call2_v15 : Ref sig .tc := ⟨.hbm, 140, rfl⟩
abbrev main_v48 : Ref sig .tc := ⟨.hbm, 141, rfl⟩
abbrev main_cst_9 : Ref sig .tc := ⟨.hbm, 142, rfl⟩
abbrev main_v49 : Ref sig .tc := ⟨.hbm, 143, rfl⟩
abbrev main_v50 : Ref sig .tc := ⟨.hbm, 144, rfl⟩
abbrev main_v51 : Ref sig .tc := ⟨.hbm, 145, rfl⟩
abbrev main_v52 : Ref sig .tc := ⟨.hbm, 146, rfl⟩
abbrev main_v53 : Ref sig .tc := ⟨.hbm, 147, rfl⟩
abbrev main_v54 : Ref sig .tc := ⟨.hbm, 148, rfl⟩
abbrev main_v55_0 : Ref sig .tc := ⟨.hbm, 149, rfl⟩
abbrev main_v55_1 : Ref sig .tc := ⟨.hbm, 150, rfl⟩
abbrev main_cst_10 : Ref sig .tc := ⟨.hbm, 151, rfl⟩
abbrev main_v56 : Ref sig .tc := ⟨.hbm, 152, rfl⟩
abbrev main_v57 : Ref sig .tc := ⟨.hbm, 153, rfl⟩
abbrev main_cst_11 : Ref sig .tc := ⟨.hbm, 154, rfl⟩
abbrev main_v58 : Ref sig .tc := ⟨.hbm, 155, rfl⟩
abbrev main_v59 : Ref sig .tc := ⟨.hbm, 156, rfl⟩
abbrev main_v60 : Ref sig .tc := ⟨.hbm, 157, rfl⟩
abbrev main_v61 : Ref sig .tc := ⟨.hbm, 158, rfl⟩
abbrev main_cst_12 : Ref sig .tc := ⟨.hbm, 159, rfl⟩
abbrev main_v62 : Ref sig .tc := ⟨.hbm, 160, rfl⟩
abbrev main_v63 : Ref sig .tc := ⟨.hbm, 161, rfl⟩
abbrev main_v64 : Ref sig .tc := ⟨.hbm, 162, rfl⟩
abbrev main_cst_13 : Ref sig .tc := ⟨.hbm, 163, rfl⟩
abbrev main_v65 : Ref sig .tc := ⟨.hbm, 164, rfl⟩
abbrev main_v66 : Ref sig .tc := ⟨.hbm, 165, rfl⟩
abbrev main_v67 : Ref sig .tc := ⟨.hbm, 166, rfl⟩
abbrev main_cst_14 : Ref sig .tc := ⟨.hbm, 167, rfl⟩
abbrev main_v68 : Ref sig .tc := ⟨.hbm, 168, rfl⟩
abbrev main_cst_15 : Ref sig .tc := ⟨.hbm, 169, rfl⟩
abbrev main_v69 : Ref sig .tc := ⟨.hbm, 170, rfl⟩
abbrev main_v70 : Ref sig .tc := ⟨.hbm, 171, rfl⟩
abbrev main_v71 : Ref sig .tc := ⟨.hbm, 172, rfl⟩
abbrev main_cst_16 : Ref sig .tc := ⟨.hbm, 173, rfl⟩
abbrev main_v72 : Ref sig .tc := ⟨.hbm, 174, rfl⟩
abbrev main_v73 : Ref sig .tc := ⟨.hbm, 175, rfl⟩
abbrev main_v74 : Ref sig .tc := ⟨.hbm, 176, rfl⟩
abbrev main_v75 : Ref sig .tc := ⟨.hbm, 177, rfl⟩
abbrev main_v76 : Ref sig .tc := ⟨.hbm, 178, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg4_0 : Ref sig .tc := ⟨.vmem, 20, rfl⟩
abbrev cc2_stg5_0 : Ref sig .tc := ⟨.vmem, 21, rfl⟩
abbrev cc2_stg6_0 : Ref sig .tc := ⟨.vmem, 22, rfl⟩
abbrev cc2_stg7_0 : Ref sig .tc := ⟨.vmem, 23, rfl⟩
abbrev cc2_stg8_0 : Ref sig .tc := ⟨.vmem, 24, rfl⟩
abbrev cc2_stg8_1 : Ref sig .tc := ⟨.vmem, 25, rfl⟩
abbrev cc3_stg0_0 : Ref sig .tc := ⟨.vmem, 26, rfl⟩
abbrev cc3_stg0_1 : Ref sig .tc := ⟨.vmem, 27, rfl⟩
abbrev cc3_stg1_0 : Ref sig .tc := ⟨.vmem, 28, rfl⟩
abbrev cc3_stg1_1 : Ref sig .tc := ⟨.vmem, 29, rfl⟩
abbrev cc3_stg2_0 : Ref sig .tc := ⟨.vmem, 30, rfl⟩
abbrev cc3_stg3_0 : Ref sig .tc := ⟨.vmem, 31, rfl⟩
abbrev cc3_stg4_0 : Ref sig .tc := ⟨.vmem, 32, rfl⟩
abbrev cc4_stg0_0 : Ref sig .tc := ⟨.vmem, 33, rfl⟩
abbrev cc4_stg0_1 : Ref sig .tc := ⟨.vmem, 34, rfl⟩
abbrev cc4_stg1_0 : Ref sig .tc := ⟨.vmem, 35, rfl⟩
abbrev cc4_stg1_1 : Ref sig .tc := ⟨.vmem, 36, rfl⟩
abbrev cc4_stg2_0 : Ref sig .tc := ⟨.vmem, 37, rfl⟩
abbrev cc4_stg3_0 : Ref sig .tc := ⟨.vmem, 38, rfl⟩
abbrev cc4_stg4_0 : Ref sig .tc := ⟨.vmem, 39, rfl⟩
abbrev cc4_stg5_0 : Ref sig .tc := ⟨.vmem, 40, rfl⟩
abbrev cc4_stg6_0 : Ref sig .tc := ⟨.vmem, 41, rfl⟩
abbrev cc4_stg7_0 : Ref sig .tc := ⟨.vmem, 42, rfl⟩
abbrev cc4_stg8_0 : Ref sig .tc := ⟨.vmem, 43, rfl⟩
abbrev cc4_stg8_1 : Ref sig .tc := ⟨.vmem, 44, rfl⟩
abbrev cc5_stg0_0 : Ref sig .tc := ⟨.vmem, 45, rfl⟩
abbrev cc5_stg0_1 : Ref sig .tc := ⟨.vmem, 46, rfl⟩
abbrev cc5_stg1_0 : Ref sig .tc := ⟨.vmem, 47, rfl⟩
abbrev cc5_stg1_1 : Ref sig .tc := ⟨.vmem, 48, rfl⟩
abbrev cc5_stg2_0 : Ref sig .tc := ⟨.vmem, 49, rfl⟩
abbrev cc5_stg3_0 : Ref sig .tc := ⟨.vmem, 50, rfl⟩
abbrev cc5_stg4_0 : Ref sig .tc := ⟨.vmem, 51, rfl⟩
abbrev cc6_stg0_0 : Ref sig .tc := ⟨.vmem, 52, rfl⟩
abbrev cc6_stg0_1 : Ref sig .tc := ⟨.vmem, 53, rfl⟩
abbrev cc6_stg1_0 : Ref sig .tc := ⟨.vmem, 54, rfl⟩
abbrev cc6_stg1_1 : Ref sig .tc := ⟨.vmem, 55, rfl⟩
abbrev cc6_stg2_0 : Ref sig .tc := ⟨.vmem, 56, rfl⟩
abbrev cc6_stg3_0 : Ref sig .tc := ⟨.vmem, 57, rfl⟩
abbrev cc6_stg4_0 : Ref sig .tc := ⟨.vmem, 58, rfl⟩
abbrev cc6_stg5_0 : Ref sig .tc := ⟨.vmem, 59, rfl⟩
abbrev cc6_stg6_0 : Ref sig .tc := ⟨.vmem, 60, rfl⟩
abbrev cc6_stg7_0 : Ref sig .tc := ⟨.vmem, 61, rfl⟩
abbrev cc6_stg7_1 : Ref sig .tc := ⟨.vmem, 62, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem3_0 : DmaSem sig := 19
abbrev cc2_sem4_0 : DmaSem sig := 20
abbrev cc2_sem5_0 : DmaSem sig := 21
abbrev cc2_sem6_0 : DmaSem sig := 22
abbrev cc2_sem7_0 : DmaSem sig := 23
abbrev cc2_sem8_0 : DmaSem sig := 24
abbrev cc2_sem8_1 : DmaSem sig := 25
abbrev cc3_sem0_0 : DmaSem sig := 26
abbrev cc3_sem0_1 : DmaSem sig := 27
abbrev cc3_sem1_0 : DmaSem sig := 28
abbrev cc3_sem1_1 : DmaSem sig := 29
abbrev cc3_sem2_0 : DmaSem sig := 30
abbrev cc3_sem3_0 : DmaSem sig := 31
abbrev cc3_sem4_0 : DmaSem sig := 32
abbrev cc4_sem0_0 : DmaSem sig := 33
abbrev cc4_sem0_1 : DmaSem sig := 34
abbrev cc4_sem1_0 : DmaSem sig := 35
abbrev cc4_sem1_1 : DmaSem sig := 36
abbrev cc4_sem2_0 : DmaSem sig := 37
abbrev cc4_sem3_0 : DmaSem sig := 38
abbrev cc4_sem4_0 : DmaSem sig := 39
abbrev cc4_sem5_0 : DmaSem sig := 40
abbrev cc4_sem6_0 : DmaSem sig := 41
abbrev cc4_sem7_0 : DmaSem sig := 42
abbrev cc4_sem8_0 : DmaSem sig := 43
abbrev cc4_sem8_1 : DmaSem sig := 44
abbrev cc5_sem0_0 : DmaSem sig := 45
abbrev cc5_sem0_1 : DmaSem sig := 46
abbrev cc5_sem1_0 : DmaSem sig := 47
abbrev cc5_sem1_1 : DmaSem sig := 48
abbrev cc5_sem2_0 : DmaSem sig := 49
abbrev cc5_sem3_0 : DmaSem sig := 50
abbrev cc5_sem4_0 : DmaSem sig := 51
abbrev cc6_sem0_0 : DmaSem sig := 52
abbrev cc6_sem0_1 : DmaSem sig := 53
abbrev cc6_sem1_0 : DmaSem sig := 54
abbrev cc6_sem1_1 : DmaSem sig := 55
abbrev cc6_sem2_0 : DmaSem sig := 56
abbrev cc6_sem3_0 : DmaSem sig := 57
abbrev cc6_sem4_0 : DmaSem sig := 58
abbrev cc6_sem5_0 : DmaSem sig := 59
abbrev cc6_sem6_0 : DmaSem sig := 60
abbrev cc6_sem7_0 : DmaSem sig := 61
abbrev cc6_sem7_1 : DmaSem sig := 62

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S64x64 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 2 → Memref sig .tc .vmem S5000x64 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_8 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S1x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x64 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x64 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x64 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S64x64 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 2 → Memref sig .tc .vmem S5000x64 .f32 := fun | 0 => Memref.whole cc4_stg8_0 | 1 => Memref.whole cc4_stg8_1 | ⟨_ + 2, h⟩ => absurd h (Nat.not_lt.2 (Nat.le_add_left _ _))
abbrev sem4_8 : Fin 2 → DmaSem sig := fun | 0 => cc4_sem8_0 | 1 => cc4_sem8_1 | ⟨_ + 2, h⟩ => absurd h (Nat.not_lt.2 (Nat.le_add_left _ _))
abbrev reads4_8 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x1 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S1x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x64 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_7 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S5000x1 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S1x64 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x64 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x64 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S1x64 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 1 → Memref sig .tc .vmem S1x64 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false]

abbrev stage6_7 : Fin 2 → Memref sig .tc .vmem S5000x64 .f32 := fun | 0 => Memref.whole cc6_stg7_0 | 1 => Memref.whole cc6_stg7_1 | ⟨_ + 2, h⟩ => absurd h (Nat.not_lt.2 (Nat.le_add_left _ _))
abbrev sem6_7 : Fin 2 → DmaSem sig := fun | 0 => cc6_sem7_0 | 1 => cc6_sem7_1 | ⟨_ + 2, h⟩ => absurd h (Nat.not_lt.2 (Nat.le_add_left _ _))
abbrev reads6_7 : Fin grid6.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  shapeCasts_S50000_S50000x1 : S50000.ShapeCasts S50000x1
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  bcast_S_S850000x1 : S_.BroadcastsInDim S850000x1 (![] : Fin 0 → Fin S850000x1.rank)
  bcast_S1_S1x1_1 : S1.BroadcastsInDim S1x1 (![1] : Fin 1 → Fin S1x1.rank)
  bcast_S1x1_S850000x1_0_1 : S1x1.BroadcastsInDim S850000x1 (![0, 1] : Fin 2 → Fin S850000x1.rank)
  reducesTo_S850000x1_S850000_d1 : S850000x1.ReducesTo [1] S850000
  h_S_ : 0 < S_.numel
  bcast_S850000_S850000x64_0 : S850000.BroadcastsInDim S850000x64 (![0] : Fin 1 → Fin S850000x64.rank)
  bcast_S_S850000x64 : S_.BroadcastsInDim S850000x64 (![] : Fin 0 → Fin S850000x64.rank)
  bcast_S_S50000x64 : S_.BroadcastsInDim S50000x64 (![] : Fin 0 → Fin S50000x64.rank)
  shapeCasts_S64_S1x64 : S64.ShapeCasts S1x64
  inb_S1x64_S1x64_0_0 : ∀ a, (![0, 0] : Fin 2 → Nat) a + S1x64.size a ≤ S1x64.size a
  h_S1x64 : 0 < S1x64.numel
  shapeCasts_S5000x64_S5000x64 : S5000x64.ShapeCasts S5000x64
  shapeCasts_S1x64_S1x64 : S1x64.ShapeCasts S1x64
  broadcasts_S1x64_S5000x64 : S1x64.Broadcasts S5000x64
  reduces_S5000x64_S64 : S5000x64.Reduces [0] S64
  bcast_S_S1x64 : S_.BroadcastsInDim S1x64 (![] : Fin 0 → Fin S1x64.rank)
  bcast_S_S500x64 : S_.BroadcastsInDim S500x64 (![] : Fin 0 → Fin S500x64.rank)
  bcast_S50000_S50000x1_0 : S50000.BroadcastsInDim S50000x1 (![0] : Fin 1 → Fin S50000x1.rank)
  bcast_S_S500 : S_.BroadcastsInDim S500 (![] : Fin 0 → Fin S500.rank)
  bcast_S500_S500x1_0 : S500.BroadcastsInDim S500x1 (![0] : Fin 1 → Fin S500x1.rank)
  bcast_S500x1_S500x64_0_1 : S500x1.BroadcastsInDim S500x64 (![0, 1] : Fin 2 → Fin S500x64.rank)
  scatter_S50000_S850000x1_S850000_n_0_0_1_wf : ScatterDims.WF S50000 S850000x1 S850000 [] [0] [0] 1
  dot_S5000x64_S64x64_S5000x64_1_0_0_1_n_n_wf : DotDims.WF S5000x64 S64x64 S5000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  scatter_S500x64_S50000x1_S50000x64_1_0_0_1_wf : ScatterDims.WF S500x64 S50000x1 S50000x64 [1] [0] [0] 1
  scatter_S500_S50000x1_S50000_n_0_0_1_wf : ScatterDims.WF S500 S50000x1 S50000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S50000x1.size a
  hwx0_2 : ∀ i : grid0.Coords, EltTy.bits .f32 = 32 ∨ (Rect.block (s := S50000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S50000x64.size a
  hwx0_3 : ∀ i : grid0.Coords, EltTy.bits .f32 = 32 ∨ (Rect.block (s := S50000x64) S5000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S50000x1.size a
  hwx1_1 : ∀ i : grid1.Coords, EltTy.bits .f32 = 32 ∨ (Rect.block (s := S50000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S50000x1.size a
  hwx2_1 : ∀ i : grid2.Coords, EltTy.bits .f32 = 32 ∨ (Rect.block (s := S50000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x64.size a ≤ S1x64.size a
  hwx2_5 : ∀ i : grid2.Coords, EltTy.bits .f32 = 32 ∨ (Rect.block (s := S1x64) S1x64.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x64.size a ≤ S1x64.size a
  hwx2_6 : ∀ i : grid2.Coords, EltTy.bits .f32 = 32 ∨ (Rect.block (s := S1x64) S1x64.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S64x64.size a ≤ S64x64.size a
  hwx2_7 : ∀ i : grid2.Coords, EltTy.bits .f32 = 32 ∨ (Rect.block (s := S64x64) S64x64.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S5000x64.size a ≤ S50000x64.size a
  hwx2_8 : ∀ i : grid2.Coords, EltTy.bits .f32 = 32 ∨ (Rect.block (s := S50000x64) S5000x64.size (cc2_transform_8 i) (hinb2_8 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S50000x64.size a
  hwx3_0 : ∀ i : grid3.Coords, EltTy.bits .f32 = 32 ∨ (Rect.block (s := S50000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S50000x1.size a
  hwx3_1 : ∀ i : grid3.Coords, EltTy.bits .f32 = 32 ∨ (Rect.block (s := S50000x1) S5000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S50000x64.size a
  hwx4_0 : ∀ i : grid4.Coords, EltTy.bits .f32 = 32 ∨ (Rect.block (s := S50000x64) S5000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x1.size a ≤ S50000x1.size a
  hwx4_1 : ∀ i : grid4.Coords, EltTy.bits .f32 = 32 ∨ (Rect.block (s := S50000x1) S5000x1.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x64.size a ≤ S1x64.size a
  hwx4_2 : ∀ i : grid4.Coords, EltTy.bits .f32 = 32 ∨ (Rect.block (s := S1x64) S1x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x64.size a ≤ S1x64.size a
  hwx4_3 : ∀ i : grid4.Coords, EltTy.bits .f32 = 32 ∨ (Rect.block (s := S1x64) S1x64.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x64.size a ≤ S1x64.size a
  hwx4_4 : ∀ i : grid4.Coords, EltTy.bits .f32 = 32 ∨ (Rect.block (s := S1x64) S1x64.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x64.size a ≤ S1x64.size a
  hwx4_5 : ∀ i : grid4.Coords, EltTy.bits .f32 = 32 ∨ (Rect.block (s := S1x64) S1x64.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x64.size a ≤ S1x64.size a
  hwx4_6 : ∀ i : grid4.Coords, EltTy.bits .f32 = 32 ∨ (Rect.block (s := S1x64) S1x64.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S64x64.size a ≤ S64x64.size a
  hwx4_7 : ∀ i : grid4.Coords, EltTy.bits .f32 = 32 ∨ (Rect.block (s := S64x64) S64x64.size (cc4_transform_7 i) (hinb4_7 i)).WholeWords (EltTy.packing .f32)
  hstage4_8 : ∀ j, (stage4_8 j).IsWhole
  nbuf4_8 : grid4.bufCount reads4_8 false = 2
  hreads4_8 : ∀ i i' : grid4.Coords, (∀ a, reads4_8 a = true → i a = i' a) → cc4_transform_8 i = cc4_transform_8 i'
  hinb4_8 : ∀ (i : grid4.Coords) a, (cc4_transform_8 i a + 1) * S5000x64.size a ≤ S50000x64.size a
  hwx4_8 : ∀ i : grid4.Coords, EltTy.bits .f32 = 32 ∨ (Rect.block (s := S50000x64) S5000x64.size (cc4_transform_8 i) (hinb4_8 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S50000x64.size a
  hwx5_0 : ∀ i : grid5.Coords, EltTy.bits .f32 = 32 ∨ (Rect.block (s := S50000x64) S5000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x1.size a ≤ S50000x1.size a
  hwx5_1 : ∀ i : grid5.Coords, EltTy.bits .f32 = 32 ∨ (Rect.block (s := S50000x1) S5000x1.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x64.size a ≤ S1x64.size a
  hwx5_2 : ∀ i : grid5.Coords, EltTy.bits .f32 = 32 ∨ (Rect.block (s := S1x64) S1x64.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x64.size a ≤ S1x64.size a
  hwx5_3 : ∀ i : grid5.Coords, EltTy.bits .f32 = 32 ∨ (Rect.block (s := S1x64) S1x64.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x64.size a ≤ S1x64.size a
  hwx5_4 : ∀ i : grid5.Coords, EltTy.bits .f32 = 32 ∨ (Rect.block (s := S1x64) S1x64.size (cc5_transform_4 i) (hinb5_4 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x64.size a ≤ S50000x64.size a
  hwx6_0 : ∀ i : grid6.Coords, EltTy.bits .f32 = 32 ∨ (Rect.block (s := S50000x64) S5000x64.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S5000x1.size a ≤ S50000x1.size a
  hwx6_1 : ∀ i : grid6.Coords, EltTy.bits .f32 = 32 ∨ (Rect.block (s := S50000x1) S5000x1.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x64.size a ≤ S1x64.size a
  hwx6_2 : ∀ i : grid6.Coords, EltTy.bits .f32 = 32 ∨ (Rect.block (s := S1x64) S1x64.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x64.size a ≤ S1x64.size a
  hwx6_3 : ∀ i : grid6.Coords, EltTy.bits .f32 = 32 ∨ (Rect.block (s := S1x64) S1x64.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x64.size a ≤ S1x64.size a
  hwx6_4 : ∀ i : grid6.Coords, EltTy.bits .f32 = 32 ∨ (Rect.block (s := S1x64) S1x64.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S1x64.size a ≤ S1x64.size a
  hwx6_5 : ∀ i : grid6.Coords, EltTy.bits .f32 = 32 ∨ (Rect.block (s := S1x64) S1x64.size (cc6_transform_5 i) (hinb6_5 i)).WholeWords (EltTy.packing .f32)
  hstage6_6 : ∀ j, (stage6_6 j).IsWhole
  nbuf6_6 : grid6.bufCount reads6_6 true = 1
  hreads6_6 : ∀ i i' : grid6.Coords, (∀ a, reads6_6 a = true → i a = i' a) → cc6_transform_6 i = cc6_transform_6 i'
  hinb6_6 : ∀ (i : grid6.Coords) a, (cc6_transform_6 i a + 1) * S1x64.size a ≤ S1x64.size a
  hwx6_6 : ∀ i : grid6.Coords, EltTy.bits .f32 = 32 ∨ (Rect.block (s := S1x64) S1x64.size (cc6_transform_6 i) (hinb6_6 i)).WholeWords (EltTy.packing .f32)
  hstage6_7 : ∀ j, (stage6_7 j).IsWhole
  nbuf6_7 : grid6.bufCount reads6_7 false = 2
  hreads6_7 : ∀ i i' : grid6.Coords, (∀ a, reads6_7 a = true → i a = i' a) → cc6_transform_7 i = cc6_transform_7 i'
  hinb6_7 : ∀ (i : grid6.Coords) a, (cc6_transform_7 i a + 1) * S5000x64.size a ≤ S50000x64.size a
  hwx6_7 : ∀ i : grid6.Coords, EltTy.bits .f32 = 32 ∨ (Rect.block (s := S50000x64) S5000x64.size (cc6_transform_7 i) (hinb6_7 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def scatter_S500x64_S50000x1_S50000x64_1_0_0_1 : ScatterDims S500x64 S50000x1 S50000x64 where
  updateWindowDims := [1]
  insertedWindowDims := [0]
  scatterDimsToOperandDims := [0]
  indexVectorDim := 1
  wf := scatter_S500x64_S50000x1_S50000x64_1_0_0_1_wf
def scatter_S500_S50000x1_S50000_n_0_0_1 : ScatterDims S500 S50000x1 S50000 where
  updateWindowDims := []
  insertedWindowDims := [0]
  scatterDimsToOperandDims := [0]
  indexVectorDim := 1
  wf := scatter_S500_S50000x1_S50000_n_0_0_1_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v12) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v13) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v17) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v18) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v21_0) S1x64.size cc1_transform_3 reads1_3 true true 1 stage1_3 sem1_3
    hrank1 hreads1_3 hinb1_3 nbuf1_3 (Memref.isWhole_whole _) hwx1_3 hstage1_3

abbrev win1_4 : Pipeline.Window sig grid1 :=
  Pipeline.Window.ofSpec (Memref.whole main_v21_1) S1x64.size cc1_transform_4 reads1_4 true true 1 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v17) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v12) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v18) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v19) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v20) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v23) S1x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v29) S1x64.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_arg7) S64x64.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v30) S5000x64.size cc2_transform_8 reads2_8 true false 2 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

abbrev win3_0 : Pipeline.Window sig grid3 :=
  Pipeline.Window.ofSpec (Memref.whole main_v34) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v12) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v35) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v38_0) S1x64.size cc3_transform_3 reads3_3 true true 1 stage3_3 sem3_3
    hrank3 hreads3_3 hinb3_3 nbuf3_3 (Memref.isWhole_whole _) hwx3_3 hstage3_3

abbrev win3_4 : Pipeline.Window sig grid3 :=
  Pipeline.Window.ofSpec (Memref.whole main_v38_1) S1x64.size cc3_transform_4 reads3_4 true true 1 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v34) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v12) S5000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v35) S1x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v36) S1x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v37) S1x64.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v40) S1x64.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v46) S1x64.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_arg11) S64x64.size cc4_transform_7 reads4_7 false true 1 stage4_7 sem4_7
    hrank4 hreads4_7 hinb4_7 nbuf4_7 (Memref.isWhole_whole _) hwx4_7 hstage4_7

abbrev win4_8 : Pipeline.Window sig grid4 :=
  Pipeline.Window.ofSpec (Memref.whole main_v47) S5000x64.size cc4_transform_8 reads4_8 true false 2 stage4_8 sem4_8
    hrank4 hreads4_8 hinb4_8 nbuf4_8 (Memref.isWhole_whole _) hwx4_8 hstage4_8

abbrev win4 : Fin 9 → Pipeline.Window sig grid4 := fun | 0 => win4_0 | 1 => win4_1 | 2 => win4_2 | 3 => win4_3 | 4 => win4_4 | 5 => win4_5 | 6 => win4_6 | 7 => win4_7 | 8 => win4_8 | ⟨_ + 9, h⟩ => absurd h (Nat.not_lt.2 (Nat.le_add_left _ _))
abbrev spec4 : Fin 9 → Pipeline.WinSpec sig grid4.rank := fun w => (win4 w).toWinSpec

abbrev win5_0 : Pipeline.Window sig grid5 :=
  Pipeline.Window.ofSpec (Memref.whole main_v51) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v12) S5000x1.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v52) S1x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v55_0) S1x64.size cc5_transform_3 reads5_3 true true 1 stage5_3 sem5_3
    hrank5 hreads5_3 hinb5_3 nbuf5_3 (Memref.isWhole_whole _) hwx5_3 hstage5_3

abbrev win5_4 : Pipeline.Window sig grid5 :=
  Pipeline.Window.ofSpec (Memref.whole main_v55_1) S1x64.size cc5_transform_4 reads5_4 true true 1 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev win6_0 : Pipeline.Window sig grid6 :=
  Pipeline.Window.ofSpec (Memref.whole main_v51) S5000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v12) S5000x1.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v52) S1x64.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v53) S1x64.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v54) S1x64.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v57) S1x64.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v63) S1x64.size cc6_transform_6 reads6_6 false true 1 stage6_6 sem6_6
    hrank6 hreads6_6 hinb6_6 nbuf6_6 (Memref.isWhole_whole _) hwx6_6 hstage6_6

abbrev win6_7 : Pipeline.Window sig grid6 :=
  Pipeline.Window.ofSpec (Memref.whole main_v64) S5000x64.size cc6_transform_7 reads6_7 true false 2 stage6_7 sem6_7
    hrank6 hreads6_7 hinb6_7 nbuf6_7 (Memref.isWhole_whole _) hwx6_7 hstage6_7

abbrev win6 : Fin 8 → Pipeline.Window sig grid6 := fun | 0 => win6_0 | 1 => win6_1 | 2 => win6_2 | 3 => win6_3 | 4 => win6_4 | 5 => win6_5 | 6 => win6_6 | 7 => win6_7 | ⟨_ + 8, h⟩ => absurd h (Nat.not_lt.2 (Nat.le_add_left _ _))
abbrev spec6 : Fin 8 → Pipeline.WinSpec sig grid6.rank := fun w => (win6 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S50000 : Shape := ⟨1, ![50000]⟩
abbrev S64x64 : Shape := ⟨2, ![64, 64]⟩
abbrev S64 : Shape := ⟨1, ![64]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x64 : Shape := ⟨2, ![850000, 64]⟩
abbrev S1x64 : Shape := ⟨2, ![1, 64]⟩
abbrev S500x64 : Shape := ⟨2, ![500, 64]⟩
abbrev S50000x1 : Shape := ⟨2, ![50000, 1]⟩
abbrev S500 : Shape := ⟨1, ![500]⟩
abbrev S500x1 : Shape := ⟨2, ![500, 1]⟩

abbrev nBuf : Space → Nat
  | .hbm => 220
  | .vmem => 0
  | .smem => 0
  | _ => 0

abbrev hbmTy0_0 (i : Nat) : BufTy := match i % 128 with
  | 0 => ⟨S50000x64, .f32⟩
  | 1 => ⟨S2x800000, .i32⟩
  | 2 => ⟨S50000, .i32⟩
  | 3 => ⟨S64x64, .f32⟩
  | 4 => ⟨S64, .f32⟩
  | 5 => ⟨S64, .f32⟩
  | 6 => ⟨S64, .f32⟩
  | 7 => ⟨S64x64, .f32⟩
  | 8 => ⟨S64, .f32⟩
  | 9 => ⟨S64, .f32⟩
  | 10 => ⟨S64, .f32⟩
  | 11 => ⟨S64x64, .f32⟩
  | 12 => ⟨S64, .f32⟩
  | 13 => ⟨S64, .f32⟩
  | 14 => ⟨S64, .f32⟩
  | 15 => ⟨S50000, .i32⟩
  | 16 => ⟨S1x800000, .i32⟩
  | 17 => ⟨S800000, .i32⟩
  | 18 => ⟨S850000, .i32⟩
  | 19 => ⟨S1x800000, .i32⟩
  | 20 => ⟨S800000, .i32⟩
  | 21 => ⟨S850000, .i32⟩
  | 22 => ⟨S_, .f32⟩
  | 23 => ⟨S850000, .f32⟩
  | 24 => ⟨S_, .f32⟩
  | 25 => ⟨S50000, .f32⟩
  | 26 => ⟨S850000x1, .i32⟩
  | 27 => ⟨S50000, .f32⟩
  | 28 => ⟨S50000, .f32⟩
  | 29 => ⟨S_, .i32⟩
  | 30 => ⟨S850000, .i32⟩
  | 31 => ⟨S850000, .i1⟩
  | 32 => ⟨S_, .i32⟩
  | 33 => ⟨S850000, .i32⟩
  | 34 => ⟨S850000, .i32⟩
  | 35 => ⟨S850000, .i32⟩
  | 36 => ⟨S850000x1, .i32⟩
  | 37 => ⟨S850000, .f32⟩
  | 38 => ⟨S_, .i32⟩
  | 39 => ⟨S850000, .i32⟩
  | 40 => ⟨S850000, .i1⟩
  | 41 => ⟨S_, .i32⟩
  | 42 => ⟨S850000, .i32⟩
  | 43 => ⟨S850000, .i32⟩
  | 44 => ⟨S850000, .i32⟩
  | 45 => ⟨S850000x1, .i32⟩
  | 46 => ⟨S850000, .f32⟩
  | 47 => ⟨S850000, .f32⟩
  | 48 => ⟨S50000x64, .f32⟩
  | 49 => ⟨S_, .i32⟩
  | 50 => ⟨S850000, .i32⟩
  | 51 => ⟨S850000, .i1⟩
  | 52 => ⟨S_, .i32⟩
  | 53 => ⟨S850000, .i32⟩
  | 54 => ⟨S850000, .i32⟩
  | 55 => ⟨S850000, .i32⟩
  | 56 => ⟨S850000x1, .i32⟩
  | 57 => ⟨S850000x64, .f32⟩
  | 58 => ⟨S850000x1, .f32⟩
  | 59 => ⟨S850000x64, .f32⟩
  | 60 => ⟨S850000x64, .f32⟩
  | 61 => ⟨S_, .f32⟩
  | 62 => ⟨S50000x64, .f32⟩
  | 63 => ⟨S850000x1, .i32⟩
  | 64 => ⟨S50000x64, .f32⟩
  | 65 => ⟨S1x64, .f32⟩
  | 66 => ⟨S50000x64, .f32⟩
  | 67 => ⟨S50000x64, .f32⟩
  | 68 => ⟨S_, .f32⟩
  | 69 => ⟨S64, .f32⟩
  | 70 => ⟨S_, .f32⟩
  | 71 => ⟨S64, .f32⟩
  | 72 => ⟨S64, .f32⟩
  | 73 => ⟨S1x64, .f32⟩
  | 74 => ⟨S50000x64, .f32⟩
  | 75 => ⟨S50000x64, .f32⟩
  | 76 => ⟨S50000x64, .f32⟩
  | 77 => ⟨S_, .f32⟩
  | 78 => ⟨S64, .f32⟩
  | 79 => ⟨S_, .f32⟩
  | 80 => ⟨S64, .f32⟩
  | 81 => ⟨S64, .f32⟩
  | 82 => ⟨S1x64, .f32⟩
  | 83 => ⟨S50000x64, .f32⟩
  | 84 => ⟨S50000x64, .f32⟩
  | 85 => ⟨S1x64, .f32⟩
  | 86 => ⟨S50000x64, .f32⟩
  | 87 => ⟨S50000x64, .f32⟩
  | 88 => ⟨S_, .f32⟩
  | 89 => ⟨S64, .f32⟩
  | 90 => ⟨S64, .f32⟩
  | 91 => ⟨S64, .f32⟩
  | 92 => ⟨S1x64, .f32⟩
  | 93 => ⟨S50000x64, .f32⟩
  | 94 => ⟨S50000x64, .f32⟩
  | 95 => ⟨S1x64, .f32⟩
  | 96 => ⟨S50000x64, .f32⟩
  | 97 => ⟨S50000x64, .f32⟩
  | 98 => ⟨S_, .f32⟩
  | 99 => ⟨S50000x64, .f32⟩
  | 100 => ⟨S50000x64, .f32⟩
  | 101 => ⟨S50000x64, .f32⟩
  | 102 => ⟨S_, .i32⟩
  | 103 => ⟨S850000, .i32⟩
  | 104 => ⟨S850000, .i1⟩
  | 105 => ⟨S_, .i32⟩
  | 106 => ⟨S850000, .i32⟩
  | 107 => ⟨S850000, .i32⟩
  | 108 => ⟨S850000, .i32⟩
  | 109 => ⟨S850000x1, .i32⟩
  | 110 => ⟨S850000x64, .f32⟩
  | 111 => ⟨S850000x1, .f32⟩
  | 112 => ⟨S850000x64, .f32⟩
  | 113 => ⟨S850000x64, .f32⟩
  | 114 => ⟨S_, .f32⟩
  | 115 => ⟨S50000x64, .f32⟩
  | 116 => ⟨S850000x1, .i32⟩
  | 117 => ⟨S50000x64, .f32⟩
  | 118 => ⟨S1x64, .f32⟩
  | 119 => ⟨S50000x64, .f32⟩
  | 120 => ⟨S50000x64, .f32⟩
  | 121 => ⟨S_, .f32⟩
  | 122 => ⟨S64, .f32⟩
  | 123 => ⟨S_, .f32⟩
  | 124 => ⟨S64, .f32⟩
  | 125 => ⟨S64, .f32⟩
  | 126 => ⟨S1x64, .f32⟩
  | 127 => ⟨S50000x64, .f32⟩
  | _ => ⟨S50000x64, .f32⟩

abbrev hbmTy0_1 (i : Nat) : BufTy := match i % 128 with
  | 0 => ⟨S50000x64, .f32⟩
  | 1 => ⟨S50000x64, .f32⟩
  | 2 => ⟨S_, .f32⟩
  | 3 => ⟨S64, .f32⟩
  | 4 => ⟨S_, .f32⟩
  | 5 => ⟨S64, .f32⟩
  | 6 => ⟨S64, .f32⟩
  | 7 => ⟨S1x64, .f32⟩
  | 8 => ⟨S50000x64, .f32⟩
  | 9 => ⟨S50000x64, .f32⟩
  | 10 => ⟨S1x64, .f32⟩
  | 11 => ⟨S50000x64, .f32⟩
  | 12 => ⟨S50000x64, .f32⟩
  | 13 => ⟨S_, .f32⟩
  | 14 => ⟨S64, .f32⟩
  | 15 => ⟨S64, .f32⟩
  | 16 => ⟨S64, .f32⟩
  | 17 => ⟨S1x64, .f32⟩
  | 18 => ⟨S50000x64, .f32⟩
  | 19 => ⟨S50000x64, .f32⟩
  | 20 => ⟨S1x64, .f32⟩
  | 21 => ⟨S50000x64, .f32⟩
  | 22 => ⟨S50000x64, .f32⟩
  | 23 => ⟨S_, .f32⟩
  | 24 => ⟨S50000x64, .f32⟩
  | 25 => ⟨S50000x64, .f32⟩
  | 26 => ⟨S50000x64, .f32⟩
  | 27 => ⟨S_, .i32⟩
  | 28 => ⟨S850000, .i32⟩
  | 29 => ⟨S850000, .i1⟩
  | 30 => ⟨S_, .i32⟩
  | 31 => ⟨S850000, .i32⟩
  | 32 => ⟨S850000, .i32⟩
  | 33 => ⟨S850000, .i32⟩
  | 34 => ⟨S850000x1, .i32⟩
  | 35 => ⟨S850000x64, .f32⟩
  | 36 => ⟨S850000x1, .f32⟩
  | 37 => ⟨S850000x64, .f32⟩
  | 38 => ⟨S850000x64, .f32⟩
  | 39 => ⟨S_, .f32⟩
  | 40 => ⟨S50000x64, .f32⟩
  | 41 => ⟨S850000x1, .i32⟩
  | 42 => ⟨S50000x64, .f32⟩
  | 43 => ⟨S1x64, .f32⟩
  | 44 => ⟨S50000x64, .f32⟩
  | 45 => ⟨S50000x64, .f32⟩
  | 46 => ⟨S_, .f32⟩
  | 47 => ⟨S64, .f32⟩
  | 48 => ⟨S_, .f32⟩
  | 49 => ⟨S64, .f32⟩
  | 50 => ⟨S64, .f32⟩
  | 51 => ⟨S1x64, .f32⟩
  | 52 => ⟨S50000x64, .f32⟩
  | 53 => ⟨S50000x64, .f32⟩
  | 54 => ⟨S50000x64, .f32⟩
  | 55 => ⟨S_, .f32⟩
  | 56 => ⟨S64, .f32⟩
  | 57 => ⟨S_, .f32⟩
  | 58 => ⟨S64, .f32⟩
  | 59 => ⟨S64, .f32⟩
  | 60 => ⟨S1x64, .f32⟩
  | 61 => ⟨S50000x64, .f32⟩
  | 62 => ⟨S50000x64, .f32⟩
  | 63 => ⟨S1x64, .f32⟩
  | 64 => ⟨S50000x64, .f32⟩
  | 65 => ⟨S50000x64, .f32⟩
  | 66 => ⟨S_, .f32⟩
  | 67 => ⟨S64, .f32⟩
  | 68 => ⟨S64, .f32⟩
  | 69 => ⟨S64, .f32⟩
  | 70 => ⟨S1x64, .f32⟩
  | 71 => ⟨S50000x64, .f32⟩
  | 72 => ⟨S50000x64, .f32⟩
  | 73 => ⟨S1x64, .f32⟩
  | 74 => ⟨S50000x64, .f32⟩
  | 75 => ⟨S50000x64, .f32⟩
  | 76 => ⟨S_, .f32⟩
  | 77 => ⟨S500x64, .f32⟩
  | 78 => ⟨S50000x1, .i32⟩
  | 79 => ⟨S500x64, .f32⟩
  | 80 => ⟨S_, .f32⟩
  | 81 => ⟨S50000, .f32⟩
  | 82 => ⟨S_, .f32⟩
  | 83 => ⟨S500, .f32⟩
  | 84 => ⟨S50000x1, .i32⟩
  | 85 => ⟨S500, .f32⟩
  | 86 => ⟨S_, .f32⟩
  | 87 => ⟨S500, .f32⟩
  | 88 => ⟨S500, .f32⟩
  | 89 => ⟨S500x1, .f32⟩
  | 90 => ⟨S500x64, .f32⟩
  | 91 => ⟨S500x64, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst : Ref sig .tc := ⟨.hbm, 22, rfl⟩
abbrev main_v7 : Ref sig .tc := ⟨.hbm, 23, rfl⟩
abbrev main_cst_0 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_c : Ref sig .tc := ⟨.hbm, 29, rfl⟩
abbrev main_v12 : Ref sig .tc := ⟨.hbm, 30, rfl⟩
abbrev main_v13 : Ref sig .tc := ⟨.hbm, 31, rfl⟩
abbrev main_c_1 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_c_2 : Ref sig .tc := ⟨.hbm, 38, rfl⟩
abbrev main_v19 : Ref sig .tc := ⟨.hbm, 39, rfl⟩
abbrev main_v20 : Ref sig .tc := ⟨.hbm, 40, rfl⟩
abbrev main_c_3 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_c_4 : Ref sig .tc := ⟨.hbm, 49, rfl⟩
abbrev main_v28 : Ref sig .tc := ⟨.hbm, 50, rfl⟩
abbrev main_v29 : Ref sig .tc := ⟨.hbm, 51, rfl⟩
abbrev main_c_5 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_cst_6 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_cst_7 : Ref sig .tc := ⟨.hbm, 68, rfl⟩
abbrev main_v44 : Ref sig .tc := ⟨.hbm, 69, rfl⟩
abbrev main_cst_8 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_cst_9 : Ref sig .tc := ⟨.hbm, 77, rfl⟩
abbrev main_v51 : Ref sig .tc := ⟨.hbm, 78, rfl⟩
abbrev main_cst_10 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_cst_11 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_call0_cst : Ref sig .tc := ⟨.hbm, 98, rfl⟩
abbrev main_call0_v0 : Ref sig .tc := ⟨.hbm, 99, rfl⟩
abbrev main_v69 : Ref sig .tc := ⟨.hbm, 100, rfl⟩
abbrev main_v70 : Ref sig .tc := ⟨.hbm, 101, rfl⟩
abbrev main_c_12 : Ref sig .tc := ⟨.hbm, 102, rfl⟩
abbrev main_v71 : Ref sig .tc := ⟨.hbm, 103, rfl⟩
abbrev main_v72 : Ref sig .tc := ⟨.hbm, 104, rfl⟩
abbrev main_c_13 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_cst_14 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_cst_15 : Ref sig .tc := ⟨.hbm, 121, rfl⟩
abbrev main_v87 : Ref sig .tc := ⟨.hbm, 122, rfl⟩
abbrev main_cst_16 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_cst_17 : Ref sig .tc := ⟨.hbm, 130, rfl⟩
abbrev main_v94 : Ref sig .tc := ⟨.hbm, 131, rfl⟩
abbrev main_cst_18 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_cst_19 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_call1_cst : Ref sig .tc := ⟨.hbm, 151, rfl⟩
abbrev main_call1_v0 : Ref sig .tc := ⟨.hbm, 152, rfl⟩
abbrev main_v112 : Ref sig .tc := ⟨.hbm, 153, rfl⟩
abbrev main_v113 : Ref sig .tc := ⟨.hbm, 154, rfl⟩
abbrev main_c_20 : Ref sig .tc := ⟨.hbm, 155, rfl⟩
abbrev main_v114 : Ref sig .tc := ⟨.hbm, 156, rfl⟩
abbrev main_v115 : Ref sig .tc := ⟨.hbm, 157, rfl⟩
abbrev main_c_21 : Ref sig .tc := ⟨.hbm, 158, rfl⟩
abbrev main_v116 : Ref sig .tc := ⟨.hbm, 159, rfl⟩
abbrev main_v117 : Ref sig .tc := ⟨.hbm, 160, rfl⟩
abbrev main_v118 : Ref sig .tc := ⟨.hbm, 161, rfl⟩
abbrev main_v119 : Ref sig .tc := ⟨.hbm, 162, rfl⟩
abbrev main_v120 : Ref sig .tc := ⟨.hbm, 163, rfl⟩
abbrev main_v121 : Ref sig .tc := ⟨.hbm, 164, rfl⟩
abbrev main_v122 : Ref sig .tc := ⟨.hbm, 165, rfl⟩
abbrev main_v123 : Ref sig .tc := ⟨.hbm, 166, rfl⟩
abbrev main_cst_22 : Ref sig .tc := ⟨.hbm, 167, rfl⟩
abbrev main_v124 : Ref sig .tc := ⟨.hbm, 168, rfl⟩
abbrev main_v125 : Ref sig .tc := ⟨.hbm, 169, rfl⟩
abbrev main_v126 : Ref sig .tc := ⟨.hbm, 170, rfl⟩
abbrev main_v127 : Ref sig .tc := ⟨.hbm, 171, rfl⟩
abbrev main_v128 : Ref sig .tc := ⟨.hbm, 172, rfl⟩
abbrev main_v129 : Ref sig .tc := ⟨.hbm, 173, rfl⟩
abbrev main_cst_23 : Ref sig .tc := ⟨.hbm, 174, rfl⟩
abbrev main_v130 : Ref sig .tc := ⟨.hbm, 175, rfl⟩
abbrev main_cst_24 : Ref sig .tc := ⟨.hbm, 176, rfl⟩
abbrev main_v131 : Ref sig .tc := ⟨.hbm, 177, rfl⟩
abbrev main_v132 : Ref sig .tc := ⟨.hbm, 178, rfl⟩
abbrev main_v133 : Ref sig .tc := ⟨.hbm, 179, rfl⟩
abbrev main_v134 : Ref sig .tc := ⟨.hbm, 180, rfl⟩
abbrev main_v135 : Ref sig .tc := ⟨.hbm, 181, rfl⟩
abbrev main_v136 : Ref sig .tc := ⟨.hbm, 182, rfl⟩
abbrev main_cst_25 : Ref sig .tc := ⟨.hbm, 183, rfl⟩
abbrev main_v137 : Ref sig .tc := ⟨.hbm, 184, rfl⟩
abbrev main_cst_26 : Ref sig .tc := ⟨.hbm, 185, rfl⟩
abbrev main_v138 : Ref sig .tc := ⟨.hbm, 186, rfl⟩
abbrev main_v139 : Ref sig .tc := ⟨.hbm, 187, rfl⟩
abbrev main_v140 : Ref sig .tc := ⟨.hbm, 188, rfl⟩
abbrev main_v141 : Ref sig .tc := ⟨.hbm, 189, rfl⟩
abbrev main_v142 : Ref sig .tc := ⟨.hbm, 190, rfl⟩
abbrev main_v143 : Ref sig .tc := ⟨.hbm, 191, rfl⟩
abbrev main_v144 : Ref sig .tc := ⟨.hbm, 192, rfl⟩
abbrev main_v145 : Ref sig .tc := ⟨.hbm, 193, rfl⟩
abbrev main_cst_27 : Ref sig .tc := ⟨.hbm, 194, rfl⟩
abbrev main_v146 : Ref sig .tc := ⟨.hbm, 195, rfl⟩
abbrev main_v147 : Ref sig .tc := ⟨.hbm, 196, rfl⟩
abbrev main_v148 : Ref sig .tc := ⟨.hbm, 197, rfl⟩
abbrev main_v149 : Ref sig .tc := ⟨.hbm, 198, rfl⟩
abbrev main_v150 : Ref sig .tc := ⟨.hbm, 199, rfl⟩
abbrev main_v151 : Ref sig .tc := ⟨.hbm, 200, rfl⟩
abbrev main_v152 : Ref sig .tc := ⟨.hbm, 201, rfl⟩
abbrev main_v153 : Ref sig .tc := ⟨.hbm, 202, rfl⟩
abbrev main_v154 : Ref sig .tc := ⟨.hbm, 203, rfl⟩
abbrev main_cst_28 : Ref sig .tc := ⟨.hbm, 204, rfl⟩
abbrev main_v155 : Ref sig .tc := ⟨.hbm, 205, rfl⟩
abbrev main_v156 : Ref sig .tc := ⟨.hbm, 206, rfl⟩
abbrev main_v157 : Ref sig .tc := ⟨.hbm, 207, rfl⟩
abbrev main_cst_29 : Ref sig .tc := ⟨.hbm, 208, rfl⟩
abbrev main_v158 : Ref sig .tc := ⟨.hbm, 209, rfl⟩
abbrev main_cst_30 : Ref sig .tc := ⟨.hbm, 210, rfl⟩
abbrev main_v159 : Ref sig .tc := ⟨.hbm, 211, rfl⟩
abbrev main_v160 : Ref sig .tc := ⟨.hbm, 212, rfl⟩
abbrev main_v161 : Ref sig .tc := ⟨.hbm, 213, rfl⟩
abbrev main_cst_31 : Ref sig .tc := ⟨.hbm, 214, rfl⟩
abbrev main_v162 : Ref sig .tc := ⟨.hbm, 215, rfl⟩
abbrev main_v163 : Ref sig .tc := ⟨.hbm, 216, rfl⟩
abbrev main_v164 : Ref sig .tc := ⟨.hbm, 217, rfl⟩
abbrev main_v165 : Ref sig .tc := ⟨.hbm, 218, rfl⟩
abbrev main_v166 : Ref sig .tc := ⟨.hbm, 219, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  reducesTo_S50000x64_S64_d0 : S50000x64.ReducesTo [0] S64
  h_S_ : 0 < S_.numel
  bcast_S_S64 : S_.BroadcastsInDim S64 (![] : Fin 0 → Fin S64.rank)
  bcast_S_S500x64 : S_.BroadcastsInDim S500x64 (![] : Fin 0 → Fin S500x64.rank)
  bcast_S50000_S50000x1_0 : S50000.BroadcastsInDim S50000x1 (![0] : Fin 1 → Fin S50000x1.rank)
  bcast_S_S500 : S_.BroadcastsInDim S500 (![] : Fin 0 → Fin S500.rank)
  bcast_S500_S500x1_0 : S500.BroadcastsInDim S500x1 (![0] : Fin 1 → Fin S500x1.rank)
  bcast_S500x1_S500x64_0_1 : S500x1.BroadcastsInDim S500x64 (![0, 1] : Fin 2 → Fin S500x64.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x64_S64x64_S50000x64_1_0_0_1_n_n_wf : DotDims.WF S50000x64 S64x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  scatter_S500x64_S50000x1_S50000x64_1_0_0_1_wf : ScatterDims.WF S500x64 S50000x1 S50000x64 [1] [0] [0] 1
  scatter_S500_S50000x1_S50000_n_0_0_1_wf : ScatterDims.WF S500 S50000x1 S50000 [] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def scatter_S500x64_S50000x1_S50000x64_1_0_0_1 : ScatterDims S500x64 S50000x1 S50000x64 where
  updateWindowDims := [1]
  insertedWindowDims := [0]
  scatterDimsToOperandDims := [0]
  indexVectorDim := 1
  wf := scatter_S500x64_S50000x1_S50000x64_1_0_0_1_wf
def scatter_S500_S50000x1_S50000_n_0_0_1 : ScatterDims S500 S50000x1 S50000 where
  updateWindowDims := []
  insertedWindowDims := [0]
  scatterDimsToOperandDims := [0]
  indexVectorDim := 1
  wf := scatter_S500_S50000x1_S50000_n_0_0_1_wf

class Facts : Prop extends Facts₀ where

variable [Facts]
-- ==== Proof.RefStages.lean ====
import proofs.«420888_j18519898980762_3_alg».proof.Proof.RefRun
import proofs.«420888_j18519898980762_3_alg».proof.Proof.RefRead

noncomputable section

namespace Cert.ReferenceIdeal.Stages

open Cert.ReferenceIdeal Cert.ReferenceIdeal.Gen Idealize.ShloMosaic Idealize.ShloMosaic.TcCoe Idealize.SL.Sem Idealize.ShloMosaic.StableHlo

variable {F : FTy → Type} [FloatOps F]

structure Args (F : FTy → Type) [FloatOps F] where
  x0 : (⟨S50000x64, .f32⟩ : BufTy).Contents (Elt F)
  x1 : (⟨S2x800000, .i32⟩ : BufTy).Contents (Elt F)
  x2 : (⟨S50000, .i32⟩ : BufTy).Contents (Elt F)
  x3 : (⟨S64x64, .f32⟩ : BufTy).Contents (Elt F)
  x4 : (⟨S64, .f32⟩ : BufTy).Contents (Elt F)
  x5 : (⟨S64, .f32⟩ : BufTy).Contents (Elt F)
  x6 : (⟨S64, .f32⟩ : BufTy).Contents (Elt F)
  x7 : (⟨S64x64, .f32⟩ : BufTy).Contents (Elt F)
  x8 : (⟨S64, .f32⟩ : BufTy).Contents (Elt F)
  x9 : (⟨S64, .f32⟩ : BufTy).Contents (Elt F)
  x10 : (⟨S64, .f32⟩ : BufTy).Contents (Elt F)
  x11 : (⟨S64x64, .f32⟩ : BufTy).Contents (Elt F)
  x12 : (⟨S64, .f32⟩ : BufTy).Contents (Elt F)
  x13 : (⟨S64, .f32⟩ : BufTy).Contents (Elt F)
  x14 : (⟨S64, .f32⟩ : BufTy).Contents (Elt F)

variable {a : Args F} {V : Valuation τ sig (Elt F)}

-- The arguments' buffers hold the arguments.
structure ArgsAt (a : Args F) (V : Valuation τ sig (Elt F)) : Prop where
  arg0 : V (Proc.devRef .tc main_arg0) = a.x0
  arg1 : V (Proc.devRef .tc main_arg1) = a.x1
  arg2 : V (Proc.devRef .tc main_arg2) = a.x2
  arg3 : V (Proc.devRef .tc main_arg3) = a.x3
  arg4 : V (Proc.devRef .tc main_arg4) = a.x4
  arg5 : V (Proc.devRef .tc main_arg5) = a.x5
  arg6 : V (Proc.devRef .tc main_arg6) = a.x6
  arg7 : V (Proc.devRef .tc main_arg7) = a.x7
  arg8 : V (Proc.devRef .tc main_arg8) = a.x8
  arg9 : V (Proc.devRef .tc main_arg9) = a.x9
  arg10 : V (Proc.devRef .tc main_arg10) = a.x10
  arg11 : V (Proc.devRef .tc main_arg11) = a.x11
  arg12 : V (Proc.devRef .tc main_arg12) = a.x12
  arg13 : V (Proc.devRef .tc main_arg13) = a.x13
  arg14 : V (Proc.devRef .tc main_arg14) = a.x14

def argRefs : List (Ref sig .tc) := [main_arg0, main_arg1, main_arg2, main_arg3, main_arg4, main_arg5, main_arg6, main_arg7, main_arg8, main_arg9, main_arg10, main_arg11, main_arg12, main_arg13, main_arg14]

-- The operation writes one buffer, not an argument's, and determines it.
def Good (op : HloOp τ sig (Elt F)) : Prop :=
  ∃ y : Ref sig .tc, y ∉ argRefs ∧ op.writes = {Proc.devRef .tc y} ∧ op.fresh = ∅

theorem ops_good : ∀ op ∈ (Value.ops : List (HloOp τ sig (Elt F))), Good op :=
  List.forall_iff_forall_mem.mp (by repeat' (first | exact ⟨_, by decide, rfl, rfl⟩ | apply And.intro))

theorem good_drop (n : Nat) : ∀ op ∈ (Value.ops.drop n : List (HloOp τ sig (Elt F))), Good op :=
  fun op ho => ops_good op (List.mem_of_mem_drop ho)

-- Operations that write no argument's buffer keep the arguments.
theorem ArgsAt.kept {l : List (HloOp τ sig (Elt F))} (hg : ∀ op ∈ l, Good op) (h : ArgsAt a V) : ArgsAt a (after l V) :=
  have k : ∀ r ∈ argRefs, after l V (Proc.devRef .tc r) = V (Proc.devRef .tc r) := fun r hr =>
    after_of_forall_not_mem l V fun op ho hw => by
      obtain ⟨y, hy, hw', -⟩ := hg op ho
      rw [hw', Finset.mem_singleton] at hw
      exact hy (Proc.devRef_injective _ hw ▸ hr)
  ⟨(k _ (by decide)).trans h.arg0,
   (k _ (by decide)).trans h.arg1,
   (k _ (by decide)).trans h.arg2,
   (k _ (by decide)).trans h.arg3,
   (k _ (by decide)).trans h.arg4,
   (k _ (by decide)).trans h.arg5,
   (k _ (by decide)).trans h.arg6,
   (k _ (by decide)).trans h.arg7,
   (k _ (by decide)).trans h.arg8,
   (k _ (by decide)).trans h.arg9,
   (k _ (by decide)).trans h.arg10,
   (k _ (by decide)).trans h.arg11,
   (k _ (by decide)).trans h.arg12,
   (k _ (by decide)).trans h.arg13,
   (k _ (by decide)).trans h.arg14⟩

-- A line is run a chunk at a time: the chunk carries P to Q, the rest carries Q to R.
theorem chain {o1 o2 o3 o4 o5 o6 o7 o8 o9 o10 o11 o12 o13 o14 o15 o16 : HloOp τ sig (Elt F)} {r : List (HloOp τ sig (Elt F))}
    {P Q R : Valuation τ sig (Elt F) → Prop} (hg : ∀ op ∈ o1 :: o2 :: o3 :: o4 :: o5 :: o6 :: o7 :: o8 :: o9 :: o10 :: o11 :: o12 :: o13 :: o14 :: o15 :: o16 :: r, Good op) (h : P V)
    (s : (∀ op ∈ [o1, o2, o3, o4, o5, o6, o7, o8, o9, o10, o11, o12, o13, o14, o15, o16], Good op) → ∀ V, P V → Q (after [o1, o2, o3, o4, o5, o6, o7, o8, o9, o10, o11, o12, o13, o14, o15, o16] V))
    (t : ∀ V, Q V → R (after r V)) : R (after (o1 :: o2 :: o3 :: o4 :: o5 :: o6 :: o7 :: o8 :: o9 :: o10 :: o11 :: o12 :: o13 :: o14 :: o15 :: o16 :: r) V) :=
  t _ (s (fun op ho => hg op (List.mem_append_left r ho)) V h)

structure Inv16 (a : Args F) (V : Valuation τ sig (Elt F)) : Prop where
  args : ArgsAt a V
  v3 : V (Proc.devRef .tc main_v3) = Read.val_main_v3 a.x1
  v6 : V (Proc.devRef .tc main_v6) = Read.val_main_v6 a.x1
  v11 : V (Proc.devRef .tc main_v11) = Read.val_main_v11 a.x1
  v12 : V (Proc.devRef .tc main_v12) = Read.val_main_v12

structure Inv32 (a : Args F) (V : Valuation τ sig (Elt F)) : Prop where
  args : ArgsAt a V
  v3 : V (Proc.devRef .tc main_v3) = Read.val_main_v3 a.x1
  v6 : V (Proc.devRef .tc main_v6) = Read.val_main_v6 a.x1
  v18 : V (Proc.devRef .tc main_v18) = Read.val_main_v18 a.x1
  v25 : V (Proc.devRef .tc main_v25) = Read.val_main_v25 a.x1

structure Inv48 (a : Args F) (V : Valuation τ sig (Elt F)) : Prop where
  args : ArgsAt a V
  v3 : V (Proc.devRef .tc main_v3) = Read.val_main_v3 a.x1
  v6 : V (Proc.devRef .tc main_v6) = Read.val_main_v6 a.x1
  v26 : V (Proc.devRef .tc main_v26) = Read.val_main_v26 a.x1
  v37 : V (Proc.devRef .tc main_v37) = Read.val_main_v37 a.x0 a.x1 a.x3
  v38 : V (Proc.devRef .tc main_v38) = Read.val_main_v38

structure Inv64 (a : Args F) (V : Valuation τ sig (Elt F)) : Prop where
  args : ArgsAt a V
  v3 : V (Proc.devRef .tc main_v3) = Read.val_main_v3 a.x1
  v6 : V (Proc.devRef .tc main_v6) = Read.val_main_v6 a.x1
  v26 : V (Proc.devRef .tc main_v26) = Read.val_main_v26 a.x1
  v43 : V (Proc.devRef .tc main_v43) = Read.val_main_v43 a.x0 a.x1 a.x3 a.x4
  v46 : V (Proc.devRef .tc main_v46) = Read.val_main_v46 a.x0 a.x1 a.x3 a.x4
  v51 : V (Proc.devRef .tc main_v51) = Read.val_main_v51 a.x0 a.x1 a.x3 a.x4

structure Inv80 (a : Args F) (V : Valuation τ sig (Elt F)) : Prop where
  args : ArgsAt a V
  v3 : V (Proc.devRef .tc main_v3) = Read.val_main_v3 a.x1
  v6 : V (Proc.devRef .tc main_v6) = Read.val_main_v6 a.x1
  v26 : V (Proc.devRef .tc main_v26) = Read.val_main_v26 a.x1
  v65 : V (Proc.devRef .tc main_v65) = Read.val_main_v65 a.x0 a.x1 a.x3 a.x4 a.x5

structure Inv96 (a : Args F) (V : Valuation τ sig (Elt F)) : Prop where
  args : ArgsAt a V
  v3 : V (Proc.devRef .tc main_v3) = Read.val_main_v3 a.x1
  v6 : V (Proc.devRef .tc main_v6) = Read.val_main_v6 a.x1
  v26 : V (Proc.devRef .tc main_v26) = Read.val_main_v26 a.x1
  v77 : V (Proc.devRef .tc main_v77) = Read.val_main_v77 a.x0 a.x1 a.x3 a.x4 a.x5 a.x6 a.x7

structure Inv112 (a : Args F) (V : Valuation τ sig (Elt F)) : Prop where
  args : ArgsAt a V
  v3 : V (Proc.devRef .tc main_v3) = Read.val_main_v3 a.x1
  v6 : V (Proc.devRef .tc main_v6) = Read.val_main_v6 a.x1
  v26 : V (Proc.devRef .tc main_v26) = Read.val_main_v26 a.x1
  v86 : V (Proc.devRef .tc main_v86) = Read.val_main_v86 a.x0 a.x1 a.x3 a.x4 a.x5 a.x6 a.x7 a.x8
  v89 : V (Proc.devRef .tc main_v89) = Read.val_main_v89 a.x0 a.x1 a.x3 a.x4 a.x5 a.x6 a.x7 a.x8
  v90 : V (Proc.devRef .tc main_v90) = Read.val_main_v90 a.x0 a.x1 a.x3 a.x4 a.x5 a.x6 a.x7 a.x8

structure Inv128 (a : Args F) (V : Valuation τ sig (Elt F)) : Prop where
  args : ArgsAt a V
  v3 : V (Proc.devRef .tc main_v3) = Read.val_main_v3 a.x1
  v6 : V (Proc.devRef .tc main_v6) = Read.val_main_v6 a.x1
  v26 : V (Proc.devRef .tc main_v26) = Read.val_main_v26 a.x1
  v96 : V (Proc.devRef .tc main_v96) = Read.val_main_v96 a.x0 a.x1 a.x3 a.x4 a.x5 a.x6 a.x7 a.x8
  v102 : V (Proc.devRef .tc main_v102) = Read.val_main_v102 a.x0 a.x1 a.x3 a.x4 a.x5 a.x6 a.x7 a.x8 a.x9
  v103 : V (Proc.devRef .tc main_v103) = Read.val_main_v103

structure Inv144 (a : Args F) (V : Valuation τ sig (Elt F)) : Prop where
  args : ArgsAt a V
  v3 : V (Proc.devRef .tc main_v3) = Read.val_main_v3 a.x1
  v6 : V (Proc.devRef .tc main_v6) = Read.val_main_v6 a.x1
  v26 : V (Proc.devRef .tc main_v26) = Read.val_main_v26 a.x1
  v113 : V (Proc.devRef .tc main_v113) = Read.val_main_v113 a.x0 a.x1 a.x3 a.x4 a.x5 a.x6 a.x7 a.x8 a.x9 a.x10 a.x11
  v115 : V (Proc.devRef .tc main_v115) = Read.val_main_v115 a.x1
  c_21 : V (Proc.devRef .tc main_c_21) = Read.val_main_c_21

structure Inv160 (a : Args F) (V : Valuation τ sig (Elt F)) : Prop where
  args : ArgsAt a V
  v129 : V (Proc.devRef .tc main_v129) = Read.val_main_v129 a.x0 a.x1 a.x3 a.x4 a.x5 a.x6 a.x7 a.x8 a.x9 a.x10 a.x11 a.x12
  cst_23 : V (Proc.devRef .tc main_cst_23) = Read.val_main_cst_23

structure Inv176 (a : Args F) (V : Valuation τ sig (Elt F)) : Prop where
  args : ArgsAt a V
  v139 : V (Proc.devRef .tc main_v139) = Read.val_main_v139 a.x0 a.x1 a.x3 a.x4 a.x5 a.x6 a.x7 a.x8 a.x9 a.x10 a.x11 a.x12
  v142 : V (Proc.devRef .tc main_v142) = Read.val_main_v142 a.x0 a.x1 a.x3 a.x4 a.x5 a.x6 a.x7 a.x8 a.x9 a.x10 a.x11 a.x12

structure Inv192 (a : Args F) (V : Valuation τ sig (Elt F)) : Prop where
  args : ArgsAt a V
  v154 : V (Proc.devRef .tc main_v154) = Read.val_main_v154 a.x0 a.x1 a.x3 a.x4 a.x5 a.x6 a.x7 a.x8 a.x9 a.x10 a.x11 a.x12 a.x13 a.x14
  v155 : V (Proc.devRef .tc main_v155) = Read.val_main_v155
  v156 : V (Proc.devRef .tc main_v156) = Read.val_main_v156 a.x2

structure Inv205 (a : Args F) (V : Valuation τ sig (Elt F)) : Prop where
  args : ArgsAt a V
  v166 : V (Proc.devRef .tc main_v166) = Read.val_main_v166 a.x0 a.x1 a.x2 a.x3 a.x4 a.x5 a.x6 a.x7 a.x8 a.x9 a.x10 a.x11 a.x12 a.x13 a.x14

theorem step192 (h : Inv192 a V) : Inv205 a (after (Value.ops.drop 192) V) :=
  have hg := good_drop (F := F) 192
  by conv in List.drop _ _ => whnf
     exact ⟨h.args.kept hg,
      by after_results; rw [h.v155, h.v156, h.v154, h.args.arg2]; rfl⟩

theorem step176 (h : Inv176 a V) : Inv205 a (after (Value.ops.drop 176) V) :=
  chain (Q := Inv192 a) (good_drop 176) h
    (fun hg V h => ⟨h.args.kept hg,
      by after_results; rw [h.args.arg13, h.v142, h.v139, h.args.arg14]; rfl,
      by after_results; rfl,
      by after_results; rw [h.args.arg2]; rfl⟩)
    (fun V h => step192 h)

theorem step160 (h : Inv160 a V) : Inv205 a (after (Value.ops.drop 160) V) :=
  chain (Q := Inv176 a) (good_drop 160) h
    (fun hg V h => ⟨h.args.kept hg,
      by after_results; rw [h.v129, h.cst_23]; rfl,
      by after_results; rw [h.v129, h.cst_23]; rfl⟩)
    (fun V h => step176 h)

theorem step144 (h : Inv144 a V) : Inv205 a (after (Value.ops.drop 144) V) :=
  chain (Q := Inv160 a) (good_drop 144) h
    (fun hg V h => ⟨h.args.kept hg,
      by after_results; rw [h.v6, h.v113, h.v115, h.v3, h.c_21, h.v26, h.args.arg12]; rfl,
      by after_results; rfl⟩)
    (fun V h => step160 h)

theorem step128 (h : Inv128 a V) : Inv205 a (after (Value.ops.drop 128) V) :=
  chain (Q := Inv144 a) (good_drop 128) h
    (fun hg V h => ⟨h.args.kept hg,
      by after_results; exact h.v3,
      by after_results; exact h.v6,
      by after_results; exact h.v26,
      by after_results; rw [h.v102, h.v96, h.v103, h.args.arg10, h.args.arg11]; rfl,
      by after_results; rw [h.v3]; rfl,
      by after_results; rfl⟩)
    (fun V h => step144 h)

theorem step112 (h : Inv112 a V) : Inv205 a (after (Value.ops.drop 112) V) :=
  chain (Q := Inv128 a) (good_drop 112) h
    (fun hg V h => ⟨h.args.kept hg,
      by after_results; exact h.v3,
      by after_results; exact h.v6,
      by after_results; exact h.v26,
      by after_results; rw [h.v86, h.v90]; rfl,
      by after_results; rw [h.args.arg9, h.v86, h.v89]; rfl,
      by after_results; rfl⟩)
    (fun V h => step128 h)

theorem step96 (h : Inv96 a V) : Inv205 a (after (Value.ops.drop 96) V) :=
  chain (Q := Inv112 a) (good_drop 96) h
    (fun hg V h => ⟨h.args.kept hg,
      by after_results; exact h.v3,
      by after_results; exact h.v6,
      by after_results; exact h.v26,
      by after_results; rw [h.v6, h.v77, h.v26, h.args.arg8]; rfl,
      by after_results; rw [h.v6, h.v77, h.v26, h.args.arg8]; rfl,
      by after_results; rw [h.v6, h.v77, h.v26, h.args.arg8]; rfl⟩)
    (fun V h => step112 h)

theorem step80 (h : Inv80 a V) : Inv205 a (after (Value.ops.drop 80) V) :=
  chain (Q := Inv96 a) (good_drop 80) h
    (fun hg V h => ⟨h.args.kept hg,
      by after_results; exact h.v3,
      by after_results; exact h.v6,
      by after_results; exact h.v26,
      by after_results; rw [h.v65, h.args.arg6, h.args.arg7, h.v3]; rfl⟩)
    (fun V h => step96 h)

theorem step64 (h : Inv64 a V) : Inv205 a (after (Value.ops.drop 64) V) :=
  chain (Q := Inv80 a) (good_drop 64) h
    (fun hg V h => ⟨h.args.kept hg,
      by after_results; exact h.v3,
      by after_results; exact h.v6,
      by after_results; exact h.v26,
      by after_results; rw [h.args.arg5, h.v43, h.v46, h.v51]; rfl⟩)
    (fun V h => step80 h)

theorem step48 (h : Inv48 a V) : Inv205 a (after (Value.ops.drop 48) V) :=
  chain (Q := Inv64 a) (good_drop 48) h
    (fun hg V h => ⟨h.args.kept hg,
      by after_results; exact h.v3,
      by after_results; exact h.v6,
      by after_results; exact h.v26,
      by after_results; rw [h.v38, h.v6, h.v37, h.args.arg4]; rfl,
      by after_results; rw [h.v38, h.v6, h.v37, h.args.arg4]; rfl,
      by after_results; rw [h.v38, h.v6, h.v37, h.args.arg4]; rfl⟩)
    (fun V h => step64 h)

theorem step32 (h : Inv32 a V) : Inv205 a (after (Value.ops.drop 32) V) :=
  chain (Q := Inv48 a) (good_drop 32) h
    (fun hg V h => ⟨h.args.kept hg,
      by after_results; exact h.v3,
      by after_results; exact h.v6,
      by after_results; rw [h.v18, h.v25]; rfl,
      by after_results; rw [h.args.arg0, h.args.arg3, h.v3, h.v18, h.v25]; rfl,
      by after_results; rfl⟩)
    (fun V h => step48 h)

theorem step16 (h : Inv16 a V) : Inv205 a (after (Value.ops.drop 16) V) :=
  chain (Q := Inv32 a) (good_drop 16) h
    (fun hg V h => ⟨h.args.kept hg,
      by after_results; exact h.v3,
      by after_results; exact h.v6,
      by after_results; rw [h.v11, h.v3, h.v12]; rfl,
      by after_results; rw [h.v11, h.v6]; rfl⟩)
    (fun V h => step32 h)

theorem step0 (h : ArgsAt a V) : Inv205 a (after Value.ops V) :=
  chain (Q := Inv16 a) ops_good h
    (fun hg V h => ⟨h.kept hg,
      by after_results; rw [h.arg1]; rfl,
      by after_results; rw [h.arg1]; rfl,
      by after_results; rw [h.arg1]; rfl,
      by after_results; rfl⟩)
    (fun V h => step16 h)

def argsOf (m : (ℓ : Loc nD τ sig) → Buf (Elt F) ℓ) (c : Dev nD) : Args F where
  x0 := m ((c.tc : Thread nD τ).loc main_arg0)
  x1 := m ((c.tc : Thread nD τ).loc main_arg1)
  x2 := m ((c.tc : Thread nD τ).loc main_arg2)
  x3 := m ((c.tc : Thread nD τ).loc main_arg3)
  x4 := m ((c.tc : Thread nD τ).loc main_arg4)
  x5 := m ((c.tc : Thread nD τ).loc main_arg5)
  x6 := m ((c.tc : Thread nD τ).loc main_arg6)
  x7 := m ((c.tc : Thread nD τ).loc main_arg7)
  x8 := m ((c.tc : Thread nD τ).loc main_arg8)
  x9 := m ((c.tc : Thread nD τ).loc main_arg9)
  x10 := m ((c.tc : Thread nD τ).loc main_arg10)
  x11 := m ((c.tc : Thread nD τ).loc main_arg11)
  x12 := m ((c.tc : Thread nD τ).loc main_arg12)
  x13 := m ((c.tc : Thread nD τ).loc main_arg13)
  x14 := m ((c.tc : Thread nD τ).loc main_arg14)

theorem run_stages (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v166) = Read.val_main_v166 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  (θ_run defs _ _).mono (fun _ h c =>
      have I := step0 (a := argsOf m c) (V := launchContents m c) ⟨rfl, rfl, rfl, rfl, rfl, rfl, rfl, rfl, rfl, rfl, rfl, rfl, rfl, rfl, rfl⟩
      ⟨(h c main_v166).trans I.v166,
       (h c main_arg0).trans I.args.arg0,
       (h c main_arg1).trans I.args.arg1,
       (h c main_arg2).trans I.args.arg2,
       (h c main_arg3).trans I.args.arg3,
       (h c main_arg4).trans I.args.arg4,
       (h c main_arg5).trans I.args.arg5,
       (h c main_arg6).trans I.args.arg6,
       (h c main_arg7).trans I.args.arg7,
       (h c main_arg8).trans I.args.arg8,
       (h c main_arg9).trans I.args.arg9,
       (h c main_arg10).trans I.args.arg10,
       (h c main_arg11).trans I.args.arg11,
       (h c main_arg12).trans I.args.arg12,
       (h c main_arg13).trans I.args.arg13,
       (h c main_arg14).trans I.args.arg14⟩)
    (run_seq Value.scopedRefs_eq Value.scopedSems_eq defs main (fun _ => Value.ops) Value.main_eq (fun _ => Value.ops_sub) m ρ
      (fun _ op ho => (ops_good op ho).elim fun _ h => h.2.2))

end Cert.ReferenceIdeal.Stages

end
-- ==== Proof.Model.lean ====
import Idealize.ShloMosaic.PureOps.Ideal

noncomputable section

namespace Cert.Gcn

open Idealize.ShloMosaic

abbrev Act := Fin 50000 → Fin 64 → EReal

abbrev Wt := Fin 64 → Fin 64 → EReal

abbrev Row := Fin 64 → EReal

abbrev NodeVec := Fin 50000 → EReal

abbrev Msg := Fin 850000 → Fin 64 → EReal

def IsR (x : EReal) : Prop := ∃ r : ℝ, x = (r : EReal)

section Defs

variable (srcRow dstRow : Fin 850000 → Fin 50000) (hit : Fin 850000 → Fin 50000 → Prop) [∀ e n, Decidable (hit e n)]
variable (one d50k eps : EReal)

def deg (n : Fin 50000) : EReal := ∑ e ∈ Finset.univ.filter (fun e => hit e n), one

def dinv : NodeVec := fun n => Ideal.rsqrt (deg hit one n)

def mm (a : Act) (W : Wt) : Act := fun n c => ∑ k : Fin 64, a n k * W k c

def agg (t : Msg) : Act := fun n c => ∑ e ∈ Finset.univ.filter (fun e => hit e n), t e c

def meanOf (z : Act) : Row := fun c => Ideal.div (∑ n : Fin 50000, z n c) d50k

def bn (g beta mean var : Row) (z : Act) : Act :=
  fun n c => g c * (z n c - mean c) * Ideal.rsqrt (var c + eps) + beta c

def relu (y : Act) : Act := fun n c => max (y n c) 0

def zK (dv : NodeVec) (a : Act) (W : Wt) (b : Row) : Act :=
  fun n c => agg hit (fun e c' => mm a W (srcRow e) c' * dv (srcRow e)) n c * dv n + b c

def varK (z : Act) : Row :=
  fun c => max (Ideal.div (∑ n : Fin 50000, z n c * z n c) d50k - meanOf d50k z c * meanOf d50k z c) 0

def bnK (g beta : Row) (z : Act) : Act := bn eps g beta (meanOf d50k z) (varK d50k z) z

def zR (dv : NodeVec) (a : Act) (W : Wt) (b : Row) : Act :=
  fun n c => agg hit (fun e c' => mm a W (srcRow e) c' * (dv (srcRow e) * dv (dstRow e))) n c + b c

def varR (z : Act) : Row :=
  fun c => Ideal.div (∑ n : Fin 50000, (z n c - meanOf d50k z c) * (z n c - meanOf d50k z c)) d50k

def bnR (g beta : Row) (z : Act) : Act := bn eps g beta (meanOf d50k z) (varR d50k z) z

def outK (x : Act) (W1 : Wt) (b1 g1 be1 : Row) (W2 : Wt) (b2 g2 be2 : Row) (W3 : Wt) (b3 g3 be3 : Row) : Act :=
  bnK d50k eps g3 be3 (zK srcRow hit (dinv hit one)
    (relu (bnK d50k eps g2 be2 (zK srcRow hit (dinv hit one)
      (relu (bnK d50k eps g1 be1 (zK srcRow hit (dinv hit one) x W1 b1))) W2 b2))) W3 b3)

def outR (x : Act) (W1 : Wt) (b1 g1 be1 : Row) (W2 : Wt) (b2 g2 be2 : Row) (W3 : Wt) (b3 g3 be3 : Row) : Act :=
  bnR d50k eps g3 be3 (zR srcRow dstRow hit (dinv hit one)
    (relu (bnR d50k eps g2 be2 (zR srcRow dstRow hit (dinv hit one)
      (relu (bnR d50k eps g1 be1 (zR srcRow dstRow hit (dinv hit one) x W1 b1))) W2 b2))) W3 b3)

end Defs

end Cert.Gcn

end
-- ==== Proof.Index.lean ====
import Idealize.ShloMosaic.PureOps.Ideal
import Idealize.ShloMosaic.Lib.ValueIdx

noncomputable section

namespace Cert.Gcn

open Idealize.ShloMosaic Idealize.ShloMosaic.ValueIdx

abbrev EdgeIx := IVec (⟨2, ![2, 800000]⟩ : Shape) 32

def srcI (ei : EdgeIx) (e : Fin 850000) : BitVec 32 :=
  if h : e.val < 800000 then ei (ix2 (0 : Fin 2) (⟨e.val, h⟩ : Fin 800000)) else BitVec.ofNat 32 (e.val - 800000)

def dstI (ei : EdgeIx) (e : Fin 850000) : BitVec 32 :=
  if h : e.val < 800000 then ei (ix2 (1 : Fin 2) (⟨e.val, h⟩ : Fin 800000)) else BitVec.ofNat 32 (e.val - 800000)

def wrapI (v : BitVec 32) : BitVec 32 := Scalar.select (IntOp.cmpi .slt v 0#32) (IntOp.addi v 50000#32) v

def rowOf (v : BitVec 32) : Fin 50000 := ⟨min (wrapI v).toInt.toNat (50000 - 1), by omega⟩

def srcRow (ei : EdgeIx) (e : Fin 850000) : Fin 50000 := rowOf (srcI ei e)

def dstRow (ei : EdgeIx) (e : Fin 850000) : Fin 50000 := rowOf (dstI ei e)

def hit (ei : EdgeIx) (e : Fin 850000) (n : Fin 50000) : Prop := (dstI ei e).toInt = (n.val : ℤ)

instance (ei : EdgeIx) (e : Fin 850000) (n : Fin 50000) : Decidable (hit ei e n) := by unfold hit; infer_instance

def SrcInRange (ei : EdgeIx) : Prop :=
  ∀ e : Fin 850000, 0 ≤ (wrapI (srcI ei e)).toInt ∧ (wrapI (srcI ei e)).toInt ≤ 49999

end Cert.Gcn

end
-- ==== Proof.Views.lean ====
import proofs.«420888_j18519898980762_3_alg».proof.Proof.Model
import proofs.«420888_j18519898980762_3_alg».proof.Proof.Index

noncomputable section

namespace Cert.Gcn

open Idealize.ShloMosaic Idealize.ShloMosaic.ValueIdx

def actOf (a : (⟨2, ![50000, 64]⟩ : Shape).Idx → EReal) : Act := fun n k => a (ix2 n k)

def wtOf (w : (⟨2, ![64, 64]⟩ : Shape).Idx → EReal) : Wt := fun k c => w (ix2 k c)

def rowVec (r : (⟨1, ![64]⟩ : Shape).Idx → EReal) : Row := fun c => r (ix1 c)

def oneLit : EReal := Ideal.ofBits .f32 0x3F800000#32

def d50kLit : EReal := Ideal.ofBits .f32 0x47435000#32

def epsLit : EReal := Ideal.ofBits .f32 0x3727C5AC#32

def dv (ei : EdgeIx) : NodeVec := dinv (hit ei) oneLit

end Cert.Gcn

end
-- ==== Proof.KArgs.lean ====
import proofs.«420888_j18519898980762_3_alg».proof.Proof.Gen.KernelIdeal.Frame
import proofs.«420888_j18519898980762_3_alg».proof.Proof.Views

noncomputable section

namespace Cert.KernelIdeal.KArgs

open Cert.KernelIdeal Cert.KernelIdeal.Gen Idealize.ShloMosaic Idealize.ShloMosaic.TcCoe Idealize.SL.Sem

variable (m : (ℓ : Loc nD τ sig) → Buf (Elt Ideal) ℓ) (c : Dev nD)

def ei : Cert.Gcn.EdgeIx := m ((c : Thread nD τ).loc main_arg1)

def batch : IVec S50000 32 := m ((c : Thread nD τ).loc main_arg2)

def x : Cert.Gcn.Act := Cert.Gcn.actOf (m ((c : Thread nD τ).loc main_arg0))
def w1 : Cert.Gcn.Wt := Cert.Gcn.wtOf (m ((c : Thread nD τ).loc main_arg3))
def b1 : Cert.Gcn.Row := Cert.Gcn.rowVec (m ((c : Thread nD τ).loc main_arg4))
def g1 : Cert.Gcn.Row := Cert.Gcn.rowVec (m ((c : Thread nD τ).loc main_arg5))
def be1 : Cert.Gcn.Row := Cert.Gcn.rowVec (m ((c : Thread nD τ).loc main_arg6))
def w2 : Cert.Gcn.Wt := Cert.Gcn.wtOf (m ((c : Thread nD τ).loc main_arg7))
def b2 : Cert.Gcn.Row := Cert.Gcn.rowVec (m ((c : Thread nD τ).loc main_arg8))
def g2 : Cert.Gcn.Row := Cert.Gcn.rowVec (m ((c : Thread nD τ).loc main_arg9))
def be2 : Cert.Gcn.Row := Cert.Gcn.rowVec (m ((c : Thread nD τ).loc main_arg10))
def w3 : Cert.Gcn.Wt := Cert.Gcn.wtOf (m ((c : Thread nD τ).loc main_arg11))
def b3 : Cert.Gcn.Row := Cert.Gcn.rowVec (m ((c : Thread nD τ).loc main_arg12))
def g3 : Cert.Gcn.Row := Cert.Gcn.rowVec (m ((c : Thread nD τ).loc main_arg13))
def be3 : Cert.Gcn.Row := Cert.Gcn.rowVec (m ((c : Thread nD τ).loc main_arg14))

def dv : Cert.Gcn.NodeVec := Cert.Gcn.dv (ei m c)

end Cert.KernelIdeal.KArgs

end
-- ==== Proof.KWalk.lean ====
import proofs.«420888_j18519898980762_3_alg».proof.Proof.KArgs

noncomputable section

namespace Cert.KernelIdeal.KWalk

open Cert.KernelIdeal Cert.KernelIdeal.Gen Cert.KernelIdeal.KArgs Idealize.ShloMosaic Idealize.ShloMosaic.TcCoe
  Idealize.ShloMosaic.ValueIdx Idealize.SL.Sem

/-- A line whose every operation writes one buffer of a list leaves every buffer outside the list alone. -/
theorem keep_of {ops : List (HloOp τ sig (Elt Ideal))} {W : List (Ref sig .tc)}
    (h : ops.Forall fun op => ∃ y ∈ W, op.writes = {Proc.devRef .tc y}) (V : Valuation τ sig (Elt Ideal))
    (b : Ref sig .tc) (hb : b ∉ W) : StableHlo.after ops V (Proc.devRef .tc b) = V (Proc.devRef .tc b) :=
  StableHlo.after_of_forall_not_mem ops V fun op ho hw => by
    obtain ⟨y, hy, e⟩ := List.forall_iff_forall_mem.mp h op ho
    rw [e, Finset.mem_singleton] at hw
    exact hb (Proc.devRef_injective _ hw ▸ hy)

abbrev res0 : List (Ref sig .tc) :=
  [main_v0, main_v1, main_v2, main_v3, main_v4, main_v5, main_v6, main_cst, main_v7, main_cst_0, main_v8, main_v9, main_v10, main_v11, main_v12]
theorem keep_hostOps0 (V : Valuation τ sig (Elt Ideal)) (b : Ref sig .tc) (hb : b ∉ res0) :
    StableHlo.after hostOps0 V (Proc.devRef .tc b) = V (Proc.devRef .tc b) :=
  keep_of (by repeat' (first | exact ⟨_, by decide, rfl⟩ | apply And.intro)) V b hb

abbrev res1 : List (Ref sig .tc) :=
  [main_call0_c, main_call0_v0, main_call0_v1, main_call0_c_0, main_call0_v2, main_call0_v3, main_call0_v4, main_call0_v5, main_call0_c_1, main_call0_c_2, main_call0_v6, main_call0_v7, main_call0_v8, main_call0_v9, main_call0_v10, main_call0_v11, main_call0_c_3, main_call0_v12, main_call0_v13, main_call0_v14, main_call0_cst, main_call0_v15, main_v14]
theorem keep_hostOps1 (V : Valuation τ sig (Elt Ideal)) (b : Ref sig .tc) (hb : b ∉ res1) :
    StableHlo.after hostOps1 V (Proc.devRef .tc b) = V (Proc.devRef .tc b) :=
  keep_of (by repeat' (first | exact ⟨_, by decide, rfl⟩ | apply And.intro)) V b hb

abbrev res1_1 : List (Ref sig .tc) :=
  [main_cst_1, main_v15, main_v16, main_v17, main_v18, main_v19, main_v20]
theorem keep_hostOps1_1 (V : Valuation τ sig (Elt Ideal)) (b : Ref sig .tc) (hb : b ∉ res1_1) :
    StableHlo.after hostOps1_1 V (Proc.devRef .tc b) = V (Proc.devRef .tc b) :=
  keep_of (by repeat' (first | exact ⟨_, by decide, rfl⟩ | apply And.intro)) V b hb

abbrev res2 : List (Ref sig .tc) :=
  [main_cst_2, main_v22, main_v23, main_cst_3, main_v24, main_v25, main_v26, main_v27, main_cst_4, main_v28, main_v29]
theorem keep_hostOps2 (V : Valuation τ sig (Elt Ideal)) (b : Ref sig .tc) (hb : b ∉ res2) :
    StableHlo.after hostOps2 V (Proc.devRef .tc b) = V (Proc.devRef .tc b) :=
  keep_of (by repeat' (first | exact ⟨_, by decide, rfl⟩ | apply And.intro)) V b hb

abbrev res3 : List (Ref sig .tc) :=
  [main_call1_c, main_call1_v0, main_call1_v1, main_call1_c_0, main_call1_v2, main_call1_v3, main_call1_v4, main_call1_v5, main_call1_c_1, main_call1_c_2, main_call1_v6, main_call1_v7, main_call1_v8, main_call1_v9, main_call1_v10, main_call1_v11, main_call1_c_3, main_call1_v12, main_call1_v13, main_call1_v14, main_call1_cst, main_call1_v15, main_v31]
theorem keep_hostOps3 (V : Valuation τ sig (Elt Ideal)) (b : Ref sig .tc) (hb : b ∉ res3) :
    StableHlo.after hostOps3 V (Proc.devRef .tc b) = V (Proc.devRef .tc b) :=
  keep_of (by repeat' (first | exact ⟨_, by decide, rfl⟩ | apply And.intro)) V b hb

abbrev res3_1 : List (Ref sig .tc) :=
  [main_cst_5, main_v32, main_v33, main_v34, main_v35, main_v36, main_v37]
theorem keep_hostOps3_1 (V : Valuation τ sig (Elt Ideal)) (b : Ref sig .tc) (hb : b ∉ res3_1) :
    StableHlo.after hostOps3_1 V (Proc.devRef .tc b) = V (Proc.devRef .tc b) :=
  keep_of (by repeat' (first | exact ⟨_, by decide, rfl⟩ | apply And.intro)) V b hb

abbrev res4 : List (Ref sig .tc) :=
  [main_cst_6, main_v39, main_v40, main_cst_7, main_v41, main_v42, main_v43, main_v44, main_cst_8, main_v45, main_v46]
theorem keep_hostOps4 (V : Valuation τ sig (Elt Ideal)) (b : Ref sig .tc) (hb : b ∉ res4) :
    StableHlo.after hostOps4 V (Proc.devRef .tc b) = V (Proc.devRef .tc b) :=
  keep_of (by repeat' (first | exact ⟨_, by decide, rfl⟩ | apply And.intro)) V b hb

abbrev res5 : List (Ref sig .tc) :=
  [main_call2_c, main_call2_v0, main_call2_v1, main_call2_c_0, main_call2_v2, main_call2_v3, main_call2_v4, main_call2_v5, main_call2_c_1, main_call2_c_2, main_call2_v6, main_call2_v7, main_call2_v8, main_call2_v9, main_call2_v10, main_call2_v11, main_call2_c_3, main_call2_v12, main_call2_v13, main_call2_v14, main_call2_cst, main_call2_v15, main_v48]
theorem keep_hostOps5 (V : Valuation τ sig (Elt Ideal)) (b : Ref sig .tc) (hb : b ∉ res5) :
    StableHlo.after hostOps5 V (Proc.devRef .tc b) = V (Proc.devRef .tc b) :=
  keep_of (by repeat' (first | exact ⟨_, by decide, rfl⟩ | apply And.intro)) V b hb

abbrev res5_1 : List (Ref sig .tc) :=
  [main_cst_9, main_v49, main_v50, main_v51, main_v52, main_v53, main_v54]
theorem keep_hostOps5_1 (V : Valuation τ sig (Elt Ideal)) (b : Ref sig .tc) (hb : b ∉ res5_1) :
    StableHlo.after hostOps5_1 V (Proc.devRef .tc b) = V (Proc.devRef .tc b) :=
  keep_of (by repeat' (first | exact ⟨_, by decide, rfl⟩ | apply And.intro)) V b hb

abbrev res6 : List (Ref sig .tc) :=
  [main_cst_10, main_v56, main_v57, main_cst_11, main_v58, main_v59, main_v60, main_v61, main_cst_12, main_v62, main_v63]
theorem keep_hostOps6 (V : Valuation τ sig (Elt Ideal)) (b : Ref sig .tc) (hb : b ∉ res6) :
    StableHlo.after hostOps6 V (Proc.devRef .tc b) = V (Proc.devRef .tc b) :=
  keep_of (by repeat' (first | exact ⟨_, by decide, rfl⟩ | apply And.intro)) V b hb

variable (m : (ℓ : Loc nD τ sig) → Buf (Elt Ideal) ℓ) (ρ : Dev nD → PrngReg) (c : Dev nD)

theorem W2_in (w : Fin cfg0.W) (hin : (cfg0.win w).isOut = false) :
    W2 (F := Ideal) m ρ c (Proc.devRef .tc (Pipeline.arrRef spec0 w)) = W1 (F := Ideal) m ρ c (Proc.devRef .tc (Pipeline.arrRef spec0 w)) :=
  (W2_arr m ρ c w).trans (((dat0 (V1 m ρ) c).arrAt_in w hin _).trans (A_eq0 (V1 m ρ) c w))

theorem W5_in (w : Fin cfg1.W) (hin : (cfg1.win w).isOut = false) :
    W5 (F := Ideal) m ρ c (Proc.devRef .tc (Pipeline.arrRef spec1 w)) = W4 (F := Ideal) m ρ c (Proc.devRef .tc (Pipeline.arrRef spec1 w)) :=
  (W5_arr m ρ c w).trans (((dat1 (V4 m ρ) c).arrAt_in w hin _).trans (A_eq1 (V4 m ρ) c w))

theorem W7_in (w : Fin cfg2.W) (hin : (cfg2.win w).isOut = false) :
    W7 (F := Ideal) m ρ c (Proc.devRef .tc (Pipeline.arrRef spec2 w)) = W6 (F := Ideal) m ρ c (Proc.devRef .tc (Pipeline.arrRef spec2 w)) :=
  (W7_arr m ρ c w).trans (((dat2 (V6 m ρ) c).arrAt_in w hin _).trans (A_eq2 (V6 m ρ) c w))

theorem W10_in (w : Fin cfg3.W) (hin : (cfg3.win w).isOut = false) :
    W10 (F := Ideal) m ρ c (Proc.devRef .tc (Pipeline.arrRef spec3 w)) = W9 (F := Ideal) m ρ c (Proc.devRef .tc (Pipeline.arrRef spec3 w)) :=
  (W10_arr m ρ c w).trans (((dat3 (V9 m ρ) c).arrAt_in w hin _).trans (A_eq3 (V9 m ρ) c w))

theorem W12_in (w : Fin cfg4.W) (hin : (cfg4.win w).isOut = false) :
    W12 (F := Ideal) m ρ c (Proc.devRef .tc (Pipeline.arrRef spec4 w)) = W11 (F := Ideal) m ρ c (Proc.devRef .tc (Pipeline.arrRef spec4 w)) :=
  (W12_arr m ρ c w).trans (((dat4 (V11 m ρ) c).arrAt_in w hin _).trans (A_eq4 (V11 m ρ) c w))

theorem W15_in (w : Fin cfg5.W) (hin : (cfg5.win w).isOut = false) :
    W15 (F := Ideal) m ρ c (Proc.devRef .tc (Pipeline.arrRef spec5 w)) = W14 (F := Ideal) m ρ c (Proc.devRef .tc (Pipeline.arrRef spec5 w)) :=
  (W15_arr m ρ c w).trans (((dat5 (V14 m ρ) c).arrAt_in w hin _).trans (A_eq5 (V14 m ρ) c w))

theorem W1_W0 (b : Ref sig .tc) (hb : b ∉ res0) : W1 (F := Ideal) m ρ c (Proc.devRef .tc b) = W0 (F := Ideal) m ρ c (Proc.devRef .tc b) :=
  keep_hostOps0 _ b hb

theorem W3_W2 (b : Ref sig .tc) (hb : b ∉ res1) : W3 (F := Ideal) m ρ c (Proc.devRef .tc b) = W2 (F := Ideal) m ρ c (Proc.devRef .tc b) :=
  keep_hostOps1 _ b hb

theorem W6_W5 (b : Ref sig .tc) (hb : b ∉ res2) : W6 (F := Ideal) m ρ c (Proc.devRef .tc b) = W5 (F := Ideal) m ρ c (Proc.devRef .tc b) :=
  keep_hostOps2 _ b hb

theorem W8_W7 (b : Ref sig .tc) (hb : b ∉ res3) : W8 (F := Ideal) m ρ c (Proc.devRef .tc b) = W7 (F := Ideal) m ρ c (Proc.devRef .tc b) :=
  keep_hostOps3 _ b hb

theorem W11_W10 (b : Ref sig .tc) (hb : b ∉ res4) : W11 (F := Ideal) m ρ c (Proc.devRef .tc b) = W10 (F := Ideal) m ρ c (Proc.devRef .tc b) :=
  keep_hostOps4 _ b hb

theorem W13_W12 (b : Ref sig .tc) (hb : b ∉ res5) : W13 (F := Ideal) m ρ c (Proc.devRef .tc b) = W12 (F := Ideal) m ρ c (Proc.devRef .tc b) :=
  keep_hostOps5 _ b hb

theorem W16_W15 (b : Ref sig .tc) (hb : b ∉ res6) : W16 (F := Ideal) m ρ c (Proc.devRef .tc b) = W15 (F := Ideal) m ρ c (Proc.devRef .tc b) :=
  keep_hostOps6 _ b hb

theorem W4_W3 (b : Ref sig .tc) (hb : b ∉ res1_1) : W4 (F := Ideal) m ρ c (Proc.devRef .tc b) = W3 (F := Ideal) m ρ c (Proc.devRef .tc b) :=
  keep_hostOps1_1 _ b hb

theorem W9_W8 (b : Ref sig .tc) (hb : b ∉ res3_1) : W9 (F := Ideal) m ρ c (Proc.devRef .tc b) = W8 (F := Ideal) m ρ c (Proc.devRef .tc b) :=
  keep_hostOps3_1 _ b hb

theorem W14_W13 (b : Ref sig .tc) (hb : b ∉ res5_1) : W14 (F := Ideal) m ρ c (Proc.devRef .tc b) = W13 (F := Ideal) m ρ c (Proc.devRef .tc b) :=
  keep_hostOps5_1 _ b hb

theorem v3_W2 : (W2 (F := Ideal) m ρ c (Proc.devRef .tc main_v3) : S850000.Idx → BitVec 32) = (W1 (F := Ideal) m ρ c (Proc.devRef .tc main_v3) : S850000.Idx → BitVec 32) :=
  W2_of_ne m ρ c main_v3 (by decide)

theorem v3_W7 : (W7 (F := Ideal) m ρ c (Proc.devRef .tc main_v3) : S850000.Idx → BitVec 32) = (W1 (F := Ideal) m ρ c (Proc.devRef .tc main_v3) : S850000.Idx → BitVec 32) :=
  (W7_of_ne m ρ c main_v3 (by decide)).trans <| (W6_W5 m ρ c main_v3 (by decide)).trans <|
  (W5_of_ne m ρ c main_v3 (by decide)).trans <| (W4_W3 m ρ c main_v3 (by decide)).trans <|
  (W3_W2 m ρ c main_v3 (by decide)).trans (v3_W2 m ρ c)
theorem v3_W12 : (W12 (F := Ideal) m ρ c (Proc.devRef .tc main_v3) : S850000.Idx → BitVec 32) = (W1 (F := Ideal) m ρ c (Proc.devRef .tc main_v3) : S850000.Idx → BitVec 32) :=
  (W12_of_ne m ρ c main_v3 (by decide)).trans <| (W11_W10 m ρ c main_v3 (by decide)).trans <|
  (W10_of_ne m ρ c main_v3 (by decide)).trans <| (W9_W8 m ρ c main_v3 (by decide)).trans <|
  (W8_W7 m ρ c main_v3 (by decide)).trans (v3_W7 m ρ c)

theorem v6_W3 : (W3 (F := Ideal) m ρ c (Proc.devRef .tc main_v6) : S850000.Idx → BitVec 32) = (W1 (F := Ideal) m ρ c (Proc.devRef .tc main_v6) : S850000.Idx → BitVec 32) :=
  (W3_W2 m ρ c main_v6 (by decide)).trans (W2_of_ne m ρ c main_v6 (by decide))
theorem v6_W8 : (W8 (F := Ideal) m ρ c (Proc.devRef .tc main_v6) : S850000.Idx → BitVec 32) = (W1 (F := Ideal) m ρ c (Proc.devRef .tc main_v6) : S850000.Idx → BitVec 32) :=
  (W8_W7 m ρ c main_v6 (by decide)).trans <| (W7_of_ne m ρ c main_v6 (by decide)).trans <|
  (W6_W5 m ρ c main_v6 (by decide)).trans <| (W5_of_ne m ρ c main_v6 (by decide)).trans <|
  (W4_W3 m ρ c main_v6 (by decide)).trans (v6_W3 m ρ c)
theorem v6_W13 : (W13 (F := Ideal) m ρ c (Proc.devRef .tc main_v6) : S850000.Idx → BitVec 32) = (W1 (F := Ideal) m ρ c (Proc.devRef .tc main_v6) : S850000.Idx → BitVec 32) :=
  (W13_W12 m ρ c main_v6 (by decide)).trans <| (W12_of_ne m ρ c main_v6 (by decide)).trans <|
  (W11_W10 m ρ c main_v6 (by decide)).trans <| (W10_of_ne m ρ c main_v6 (by decide)).trans <|
  (W9_W8 m ρ c main_v6 (by decide)).trans (v6_W8 m ρ c)

theorem v12_W4 : (W4 (F := Ideal) m ρ c (Proc.devRef .tc main_v12) : S50000x1.Idx → EReal) = (W1 (F := Ideal) m ρ c (Proc.devRef .tc main_v12) : S50000x1.Idx → EReal) :=
  (W4_W3 m ρ c main_v12 (by decide)).trans <| (W3_W2 m ρ c main_v12 (by decide)).trans (W2_in m ρ c 2 rfl)
theorem v12_W9 : (W9 (F := Ideal) m ρ c (Proc.devRef .tc main_v12) : S50000x1.Idx → EReal) = (W1 (F := Ideal) m ρ c (Proc.devRef .tc main_v12) : S50000x1.Idx → EReal) :=
  (W9_W8 m ρ c main_v12 (by decide)).trans <| (W8_W7 m ρ c main_v12 (by decide)).trans <|
  (W7_in m ρ c 1 rfl).trans <| (W6_W5 m ρ c main_v12 (by decide)).trans <|
  (W5_in m ρ c 1 rfl).trans (v12_W4 m ρ c)
theorem v12_W14 : (W14 (F := Ideal) m ρ c (Proc.devRef .tc main_v12) : S50000x1.Idx → EReal) = (W1 (F := Ideal) m ρ c (Proc.devRef .tc main_v12) : S50000x1.Idx → EReal) :=
  (W14_W13 m ρ c main_v12 (by decide)).trans <| (W13_W12 m ρ c main_v12 (by decide)).trans <|
  (W12_in m ρ c 1 rfl).trans <| (W11_W10 m ρ c main_v12 (by decide)).trans <|
  (W10_in m ρ c 1 rfl).trans (v12_W9 m ρ c)

theorem W6_W3 (b : Ref sig .tc) (h : b ∉ res2 ∧ (∀ w, Pipeline.arrRef spec1 w ≠ b) ∧ b ∉ res1_1) : W6 (F := Ideal) m ρ c (Proc.devRef .tc b) = W3 (F := Ideal) m ρ c (Proc.devRef .tc b) :=
  (W6_W5 m ρ c b h.1).trans <| (W5_of_ne m ρ c b h.2.1).trans (W4_W3 m ρ c b h.2.2)
theorem W8_W6 (b : Ref sig .tc) (h : b ∉ res3 ∧ (∀ w, Pipeline.arrRef spec2 w ≠ b)) : W8 (F := Ideal) m ρ c (Proc.devRef .tc b) = W6 (F := Ideal) m ρ c (Proc.devRef .tc b) :=
  (W8_W7 m ρ c b h.1).trans (W7_of_ne m ρ c b h.2)
theorem W11_W8 (b : Ref sig .tc) (h : b ∉ res4 ∧ (∀ w, Pipeline.arrRef spec3 w ≠ b) ∧ b ∉ res3_1) : W11 (F := Ideal) m ρ c (Proc.devRef .tc b) = W8 (F := Ideal) m ρ c (Proc.devRef .tc b) :=
  (W11_W10 m ρ c b h.1).trans <| (W10_of_ne m ρ c b h.2.1).trans (W9_W8 m ρ c b h.2.2)
theorem W13_W11 (b : Ref sig .tc) (h : b ∉ res5 ∧ (∀ w, Pipeline.arrRef spec4 w ≠ b)) : W13 (F := Ideal) m ρ c (Proc.devRef .tc b) = W11 (F := Ideal) m ρ c (Proc.devRef .tc b) :=
  (W13_W12 m ρ c b h.1).trans (W12_of_ne m ρ c b h.2)
theorem W17_W13 (b : Ref sig .tc) (h : (∀ w, Pipeline.arrRef spec6 w ≠ b) ∧ b ∉ res6 ∧ (∀ w, Pipeline.arrRef spec5 w ≠ b) ∧ b ∉ res5_1) : W17 (F := Ideal) m ρ c (Proc.devRef .tc b) = W13 (F := Ideal) m ρ c (Proc.devRef .tc b) :=
  (W17_of_ne m ρ c b h.1).trans <| (W16_W15 m ρ c b h.2.1).trans <| (W15_of_ne m ρ c b h.2.2.1).trans
    (W14_W13 m ρ c b h.2.2.2)

theorem W1_launch (b : Ref sig .tc) (h : b ∉ res0) : W1 (F := Ideal) m ρ c (Proc.devRef .tc b) = m ((c : Thread nD τ).loc b) :=
  W1_W0 m ρ c b h
theorem W3_launch (b : Ref sig .tc) (h : b ∉ res1 ∧ (∀ w, Pipeline.arrRef spec0 w ≠ b) ∧ b ∉ res0) : W3 (F := Ideal) m ρ c (Proc.devRef .tc b) = m ((c : Thread nD τ).loc b) :=
  (W3_W2 m ρ c b h.1).trans <| (W2_of_ne m ρ c b h.2.1).trans (W1_launch m ρ c b h.2.2)
theorem W6_launch (b : Ref sig .tc) (h6 : b ∉ res2 ∧ (∀ w, Pipeline.arrRef spec1 w ≠ b) ∧ b ∉ res1_1)
    (h3 : b ∉ res1 ∧ (∀ w, Pipeline.arrRef spec0 w ≠ b) ∧ b ∉ res0) : W6 (F := Ideal) m ρ c (Proc.devRef .tc b) = m ((c : Thread nD τ).loc b) :=
  (W6_W3 m ρ c b h6).trans (W3_launch m ρ c b h3)
theorem W8_launch (b : Ref sig .tc) (h8 : b ∉ res3 ∧ (∀ w, Pipeline.arrRef spec2 w ≠ b)) (h6 : b ∉ res2 ∧ (∀ w, Pipeline.arrRef spec1 w ≠ b) ∧ b ∉ res1_1)
    (h3 : b ∉ res1 ∧ (∀ w, Pipeline.arrRef spec0 w ≠ b) ∧ b ∉ res0) : W8 (F := Ideal) m ρ c (Proc.devRef .tc b) = m ((c : Thread nD τ).loc b) :=
  (W8_W6 m ρ c b h8).trans (W6_launch m ρ c b h6 h3)
theorem W11_launch (b : Ref sig .tc) (h11 : b ∉ res4 ∧ (∀ w, Pipeline.arrRef spec3 w ≠ b) ∧ b ∉ res3_1) (h8 : b ∉ res3 ∧ (∀ w, Pipeline.arrRef spec2 w ≠ b))
    (h6 : b ∉ res2 ∧ (∀ w, Pipeline.arrRef spec1 w ≠ b) ∧ b ∉ res1_1) (h3 : b ∉ res1 ∧ (∀ w, Pipeline.arrRef spec0 w ≠ b) ∧ b ∉ res0) : W11 (F := Ideal) m ρ c (Proc.devRef .tc b) = m ((c : Thread nD τ).loc b) :=
  (W11_W8 m ρ c b h11).trans (W8_launch m ρ c b h8 h6 h3)
theorem W13_launch (b : Ref sig .tc) (h13 : b ∉ res5 ∧ (∀ w, Pipeline.arrRef spec4 w ≠ b)) (h11 : b ∉ res4 ∧ (∀ w, Pipeline.arrRef spec3 w ≠ b) ∧ b ∉ res3_1)
    (h8 : b ∉ res3 ∧ (∀ w, Pipeline.arrRef spec2 w ≠ b)) (h6 : b ∉ res2 ∧ (∀ w, Pipeline.arrRef spec1 w ≠ b) ∧ b ∉ res1_1)
    (h3 : b ∉ res1 ∧ (∀ w, Pipeline.arrRef spec0 w ≠ b) ∧ b ∉ res0) : W13 (F := Ideal) m ρ c (Proc.devRef .tc b) = m ((c : Thread nD τ).loc b) :=
  (W13_W11 m ρ c b h13).trans (W11_launch m ρ c b h11 h8 h6 h3)
theorem W17_launch (b : Ref sig .tc) (h17 : (∀ w, Pipeline.arrRef spec6 w ≠ b) ∧ b ∉ res6 ∧ (∀ w, Pipeline.arrRef spec5 w ≠ b) ∧ b ∉ res5_1)
    (h13 : b ∉ res5 ∧ (∀ w, Pipeline.arrRef spec4 w ≠ b)) (h11 : b ∉ res4 ∧ (∀ w, Pipeline.arrRef spec3 w ≠ b) ∧ b ∉ res3_1)
    (h8 : b ∉ res3 ∧ (∀ w, Pipeline.arrRef spec2 w ≠ b)) (h6 : b ∉ res2 ∧ (∀ w, Pipeline.arrRef spec1 w ≠ b) ∧ b ∉ res1_1)
    (h3 : b ∉ res1 ∧ (∀ w, Pipeline.arrRef spec0 w ≠ b) ∧ b ∉ res0) : W17 (F := Ideal) m ρ c (Proc.devRef .tc b) = m ((c : Thread nD τ).loc b) :=
  (W17_W13 m ρ c b h17).trans (W13_launch m ρ c b h13 h11 h8 h6 h3)

theorem arg4_W3 : (W3 (F := Ideal) m ρ c (Proc.devRef .tc main_arg4) : S64.Idx → EReal) = m ((c : Thread nD τ).loc main_arg4) :=
  W3_launch m ρ c main_arg4 (by decide)
theorem arg5_W3 : (W3 (F := Ideal) m ρ c (Proc.devRef .tc main_arg5) : S64.Idx → EReal) = m ((c : Thread nD τ).loc main_arg5) :=
  W3_launch m ρ c main_arg5 (by decide)
theorem arg6_W3 : (W3 (F := Ideal) m ρ c (Proc.devRef .tc main_arg6) : S64.Idx → EReal) = m ((c : Thread nD τ).loc main_arg6) :=
  W3_launch m ρ c main_arg6 (by decide)
theorem arg8_W8 : (W8 (F := Ideal) m ρ c (Proc.devRef .tc main_arg8) : S64.Idx → EReal) = m ((c : Thread nD τ).loc main_arg8) :=
  W8_launch m ρ c main_arg8 (by decide) (by decide) (by decide)
theorem arg9_W8 : (W8 (F := Ideal) m ρ c (Proc.devRef .tc main_arg9) : S64.Idx → EReal) = m ((c : Thread nD τ).loc main_arg9) :=
  W8_launch m ρ c main_arg9 (by decide) (by decide) (by decide)
theorem arg10_W8 : (W8 (F := Ideal) m ρ c (Proc.devRef .tc main_arg10) : S64.Idx → EReal) = m ((c : Thread nD τ).loc main_arg10) :=
  W8_launch m ρ c main_arg10 (by decide) (by decide) (by decide)
theorem arg12_W13 : (W13 (F := Ideal) m ρ c (Proc.devRef .tc main_arg12) : S64.Idx → EReal) = m ((c : Thread nD τ).loc main_arg12) :=
  W13_launch m ρ c main_arg12 (by decide) (by decide) (by decide) (by decide) (by decide)
theorem arg13_W13 : (W13 (F := Ideal) m ρ c (Proc.devRef .tc main_arg13) : S64.Idx → EReal) = m ((c : Thread nD τ).loc main_arg13) :=
  W13_launch m ρ c main_arg13 (by decide) (by decide) (by decide) (by decide) (by decide)
theorem arg14_W13 : (W13 (F := Ideal) m ρ c (Proc.devRef .tc main_arg14) : S64.Idx → EReal) = m ((c : Thread nD τ).loc main_arg14) :=
  W13_launch m ρ c main_arg14 (by decide) (by decide) (by decide) (by decide) (by decide)

theorem arg7_W6 : (W6 (F := Ideal) m ρ c (Proc.devRef .tc main_arg7) : S64x64.Idx → EReal) = m ((c : Thread nD τ).loc main_arg7) :=
  W6_launch m ρ c main_arg7 (by decide) (by decide)
theorem arg11_W11 : (W11 (F := Ideal) m ρ c (Proc.devRef .tc main_arg11) : S64x64.Idx → EReal) = m ((c : Thread nD τ).loc main_arg11) :=
  W11_launch m ρ c main_arg11 (by decide) (by decide) (by decide) (by decide)
theorem arg2_W17 : (W17 (F := Ideal) m ρ c (Proc.devRef .tc main_arg2) : S50000.Idx → BitVec 32) = m ((c : Thread nD τ).loc main_arg2) :=
  W17_launch m ρ c main_arg2 (by decide) (by decide) (by decide) (by decide) (by decide) (by decide)

end Cert.KernelIdeal.KWalk

end
-- ==== Proof.KBn.lean ====
import proofs.«420888_j18519898980762_3_alg».proof.Proof.KWalk
import Idealize.ShloMosaic.PureOps.Ideal.Laws

noncomputable section

namespace Cert.KernelIdeal.KBn

open Cert.KernelIdeal Cert.KernelIdeal.Gen Idealize.ShloMosaic Idealize.ShloMosaic.TcCoe Idealize.ShloMosaic.ValueIdx Idealize.SL.Sem

def meanRow (s : S1x64.Idx → EReal) : S1x64.Idx → EReal :=
  Host.divf (F := Ideal) s (broadcastInDim S1x64 ![] bcast_S_S1x64 (constant (F := Ideal) S_ .f32 0x47435000#32))

def varRow (s q : S1x64.Idx → EReal) : S1x64.Idx → EReal :=
  maximumf (F := Ideal) (subf (F := Ideal) (meanRow q) (mulf (F := Ideal) (meanRow s) (meanRow s)))
    (broadcastInDim S1x64 ![] bcast_S_S1x64 (constant (F := Ideal) S_ .f32 0x00000000#32))

/-- With the column sums of z = a·d + b and of z², the mean row and the clamped one-pass variance row are the model's,
    so the normalised entry is the model's. -/
theorem bn_core (a a' : S50000x64.Idx → EReal) (d d' : S50000x1.Idx → EReal) (b b' g g' e e' s q mean var : S1x64.Idx → EReal)
    (A : Cert.Gcn.Act) (dvv : Cert.Gcn.NodeVec) (bb gg ee : Cert.Gcn.Row)
    (ea : a' = a) (ed : d' = d) (eb : b' = b) (eg : g' = g) (ee' : e' = e)
    (ha : ∀ n cc, a (ix2 n cc) = A n cc) (hd : ∀ n, d (ix2 n (0 : Fin 1)) = dvv n)
    (hb : ∀ cc, b (ix2 (0 : Fin 1) cc) = bb cc) (hg : ∀ cc, g (ix2 (0 : Fin 1) cc) = gg cc)
    (he : ∀ cc, e (ix2 (0 : Fin 1) cc) = ee cc)
    (hs : ∀ cc, s (ix2 (0 : Fin 1) cc) = ∑ n : Fin 50000, (a (ix2 n cc) * d (ix2 n (0 : Fin 1)) + b (ix2 (0 : Fin 1) cc)))
    (hq : ∀ cc, q (ix2 (0 : Fin 1) cc) = ∑ n : Fin 50000, (a (ix2 n cc) * d (ix2 n (0 : Fin 1)) + b (ix2 (0 : Fin 1) cc))
      * (a (ix2 n cc) * d (ix2 n (0 : Fin 1)) + b (ix2 (0 : Fin 1) cc)))
    (hm : mean = meanRow s) (hv : var = varRow s q) (n : Fin 50000) (k : Fin 64) :
    g' (ix2 (0 : Fin 1) k) * ((a' (ix2 n k) * d' (ix2 n (0 : Fin 1)) + b' (ix2 (0 : Fin 1) k)) - mean (ix2 (0 : Fin 1) k))
        * Ideal.rsqrt (var (ix2 (0 : Fin 1) k) + Cert.Gcn.epsLit) + e' (ix2 (0 : Fin 1) k)
      = Cert.Gcn.bnK Cert.Gcn.d50kLit Cert.Gcn.epsLit gg ee (fun n c => A n c * dvv n + bb c) n k := by
  rw [ea, ed, eb, eg, ee', hm, hv]
  have hz : ∀ n cc, a (ix2 n cc) * d (ix2 n (0 : Fin 1)) + b (ix2 (0 : Fin 1) cc) = A n cc * dvv n + bb cc :=
    fun n cc => by rw [ha, hd, hb]
  have hmean : meanRow s (ix2 (0 : Fin 1) k) = Cert.Gcn.meanOf Cert.Gcn.d50kLit (fun n c => A n c * dvv n + bb c) k :=
    (show _ = Ideal.div (s (ix2 (0 : Fin 1) k)) Cert.Gcn.d50kLit from rfl).trans
      (congrArg (Ideal.div · Cert.Gcn.d50kLit) ((hs k).trans (Finset.sum_congr rfl fun n _ => hz n k)))
  have hvar : varRow s q (ix2 (0 : Fin 1) k) = Cert.Gcn.varK Cert.Gcn.d50kLit (fun n c => A n c * dvv n + bb c) k := by
    show max (Ideal.div (q (ix2 (0 : Fin 1) k)) Cert.Gcn.d50kLit
      - Ideal.div (s (ix2 (0 : Fin 1) k)) Cert.Gcn.d50kLit * Ideal.div (s (ix2 (0 : Fin 1) k)) Cert.Gcn.d50kLit)
      (Ideal.ofBits .f32 0x00000000#32) = _
    rw [Ideal.ofBits_zero_f32, hs k, hq k]
    simp only [hz]
    rfl
  rw [hz, hg, he, hmean, hvar]
  rfl

end Cert.KernelIdeal.KBn

end
-- ==== Proof.LibColumns.lean ====
import Idealize.ShloMosaic.Lib.Pipeline.Value
import Idealize.ShloMosaic.Lib.ValueIdx

namespace Cert.Columns

open Idealize.ShloMosaic Idealize.ShloMosaic.ValueIdx

variable {α : Type}

theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

end Cert.Columns
-- ==== Proof.RegionStats.lean ====
import proofs.«420888_j18519898980762_3_alg».proof.Proof.Gen.KernelIdeal.Skeleton
import proofs.«420888_j18519898980762_3_alg».proof.Proof.LibColumns
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.RegionStats

open Gen Idealize.ShloMosaic Idealize.ShloMosaic.ValueIdx

theorem hz : (![0, 0] : Fin 2 → Nat) = fun _ => 0 := funext fun a => by fin_cases a <;> rfl

theorem pay1_apply (cc : Fin 64) : k1_pay1 (F := Ideal) (ix2 (0 : Fin 1) cc) = 0 := by
  unfold k1_pay1
  exact Ideal.ofBits_zero_f32

theorem pay2_apply (cc : Fin 64) : k1_pay2 (F := Ideal) (ix2 (0 : Fin 1) cc) = 0 := pay1_apply cc

-- Casts to the same shape drop out; the repeated column is read at the row, the repeated row at the channel.
theorem pay3_apply (v3 : S5000x64.Idx → EReal) (v5 : S5000x1.Idx → EReal) (v9 : S1x64.Idx → EReal)
    (r : Fin 5000) (cc : Fin 64) :
    k1_pay3 (F := Ideal) v3 v5 v9 (ix2 r cc)
      = v3 (ix2 r cc) * v5 (ix2 r (0 : Fin 1)) + v9 (ix2 (0 : Fin 1) cc) := by
  unfold k1_pay3
  refine (addf_apply _ _ _).trans ?_
  refine congrArg₂ (· + ·) ((mulf_apply _ _ _).trans (congrArg₂ (· * ·) ?_ ?_)) ?_
  · exact congrFun (shapeCast_self v3 _) _
  · exact (Cert.Columns.broadcastTo_a1_ab_apply _ _ r cc).trans (congrFun (shapeCast_self v5 _) _)
  · exact (broadcastTo_1b_ab_apply _ _ r cc).trans (congrFun (shapeCast_self v9 _) _)

-- A sum over the rows, kept as one row and read at a channel, is the sum of that channel's column.
theorem colsum_apply (x : S5000x64.Idx → EReal) (cc : Fin 64) :
    shapeCast S1x64 (multiReduction (F := Ideal) .add [0] S64 x 0x00000000#32 reduces_S5000x64_S64 (.inl rfl) rfl)
        shapeCasts_S64_S1x64 (ix2 (0 : Fin 1) cc)
      = ∑ r : Fin 5000, x (ix2 r cc) := by
  refine (shapeCast_a_1a_apply _ _ (0 : Fin 1) cc).trans ?_
  refine (Ideal.multiReduction_add_single x 0x00000000#32 reduces_S5000x64_S64 (.inl rfl) rfl (ix1 cc)).trans ?_
  exact Finset.sum_congr rfl fun r _ => congrArg x (funext fun a => Fin.ext (match a with | ⟨0, _⟩ => rfl | ⟨1, _⟩ => rfl))

theorem pay4_apply (v3 : S5000x64.Idx → EReal) (v5 : S5000x1.Idx → EReal) (v9 : S1x64.Idx → EReal)
    (v13 : S1x64.Idx → EReal) (cc : Fin 64) :
    k1_pay4 (F := Ideal) v3 v5 v9 v13 (ix2 (0 : Fin 1) cc)
      = v13 (ix2 (0 : Fin 1) cc) + ∑ r : Fin 5000, k1_pay3 (F := Ideal) v3 v5 v9 (ix2 r cc) := by
  unfold k1_pay4
  exact (addf_apply _ _ _).trans (congrArg₂ (· + ·) (congrFun (shapeCast_self v13 _) _) (colsum_apply _ cc))

theorem pay5_apply (v3 : S5000x64.Idx → EReal) (v5 : S5000x1.Idx → EReal) (v9 : S1x64.Idx → EReal)
    (v19 : S1x64.Idx → EReal) (cc : Fin 64) :
    k1_pay5 (F := Ideal) v3 v5 v9 v19 (ix2 (0 : Fin 1) cc)
      = v19 (ix2 (0 : Fin 1) cc)
        + ∑ r : Fin 5000, k1_pay3 (F := Ideal) v3 v5 v9 (ix2 r cc) * k1_pay3 (F := Ideal) v3 v5 v9 (ix2 r cc) := by
  unfold k1_pay5
  exact (addf_apply _ _ _).trans (congrArg₂ (· + ·) (congrFun (shapeCast_self v19 _) _) (colsum_apply _ cc))

def ext0 (f : Fin 50000 → EReal) (i : ℕ) : EReal := if h : i < 50000 then f ⟨i, h⟩ else 0

theorem ext0_of_lt (f : Fin 50000 → EReal) (i : ℕ) (h : i < 50000) : ext0 f i = f ⟨i, h⟩ := dif_pos h

-- Row n is row r of block t for exactly one (t, r): n = 5000 t + r.
theorem sum_rows_blocks (f : Fin 50000 → EReal) :
    ∑ s ∈ Finset.range 10, ∑ r : Fin 5000, ext0 f (5000 * s + r.val) = ∑ n : Fin 50000, f n := by
  rw [← Fin.sum_univ_eq_sum_range (fun s => ∑ r : Fin 5000, ext0 f (5000 * s + r.val)) 10]
  refine ((Fintype.sum_prod_type' (fun (t : Fin 10) (r : Fin 5000) => ext0 f (5000 * t.val + r.val))).symm).trans ?_
  refine Fintype.sum_equiv (finProdFinEquiv (m := 10) (n := 5000)) _ _ fun x => ?_
  have h1 := x.1.isLt
  have h2 := x.2.isLt
  refine (ext0_of_lt f _ (by omega)).trans (congrArg f (Fin.ext ?_))
  show 5000 * x.1.val + x.2.val = x.2.val + 5000 * x.1.val
  omega

-- A rectangle at zero offsets with the shape's own sizes holds every index.
theorem mem_unit_all {S : Shape} {off size : Fin S.rank → ℕ} {inb} (ho : off = fun _ => 0) (hs : size = S.size) (y : S.Idx) :
    y ∈ (Rect.unit off size inb).set := by
  subst ho hs
  exact View.mem_set_unit_zero rfl _ y

section Steps

variable {N : ℕ} (hN : N = 10) (X : Fin N → Vec Ideal S5000x64 .f32) (D : Fin N → Vec Ideal S5000x1 .f32)
  (B : Fin N → Vec Ideal S1x64 .f32) (g : Fin 50000 → Fin 64 → EReal)
  (hg : ∀ (t : Fin N) (r : Fin 5000) (cc : Fin 64) (h : 5000 * t.val + r.val < 50000),
    k1_pay3 (X t) (D t) (B t) (ix2 r cc) = g ⟨5000 * t.val + r.val, h⟩ cc)
include hN hg

-- Block t holds rows 5000 t … 5000 t + 4999; so what starts at block 0's column sum and adds block n+1's at point n+1 is, at point 9, the sum over all rows.
theorem acc_eq (f : EReal → EReal) (cc : Fin 64) (a : (n : ℕ) → n < N → EReal)
    (h0 : ∀ h, a 0 h = 0 + ∑ r : Fin 5000, f (k1_pay3 (X ⟨0, h⟩) (D ⟨0, h⟩) (B ⟨0, h⟩) (ix2 r cc)))
    (hs : ∀ n h, a (n + 1) h = a n (Nat.lt_of_succ_lt h)
      + ∑ r : Fin 5000, f (k1_pay3 (X ⟨n + 1, h⟩) (D ⟨n + 1, h⟩) (B ⟨n + 1, h⟩) (ix2 r cc)))
    (h9 : 9 < N) : a 9 h9 = ∑ n : Fin 50000, f (g n cc) := by
  subst hN
  have blk (t : Fin 10) : ∑ r : Fin 5000, f (k1_pay3 (X t) (D t) (B t) (ix2 r cc))
      = ∑ r : Fin 5000, ext0 (fun i => f (g i cc)) (5000 * t.val + r.val) :=
    Finset.sum_congr rfl fun r _ => by
      have h : 5000 * t.val + r.val < 50000 := by have := t.isLt; have := r.isLt; omega
      exact (congrArg f (hg t r cc h)).trans (ext0_of_lt (fun i => f (g i cc)) _ h).symm
  have key : ∀ n h, a n h = ∑ s ∈ Finset.range (n + 1), ∑ r : Fin 5000, ext0 (fun i => f (g i cc)) (5000 * s + r.val) := by
    intro n
    induction n with
    | zero => intro h; rw [h0 h, zero_add, Finset.sum_range_one]; exact blk ⟨0, h⟩
    | succ n ih => intro h; rw [hs n h, Finset.sum_range_succ _ (n + 1), ih]; exact congrArg _ (blk ⟨n + 1, h⟩)
  exact (key 9 h9).trans (sum_rows_blocks fun n => f (g n cc))

-- Both accumulators after the last point: the sum of the values and the sum of their squares over all rows.
theorem stats (outs : (n : ℕ) → n < N → Vec Ideal S1x64 .f32 × Vec Ideal S1x64 .f32)
    (h0 : ∀ h, outs 0 h = (k1_pay4 (X ⟨0, h⟩) (D ⟨0, h⟩) (B ⟨0, h⟩) (k1_pay1 (F := Ideal)),
      k1_pay5 (X ⟨0, h⟩) (D ⟨0, h⟩) (B ⟨0, h⟩) (k1_pay2 (F := Ideal))))
    (hs : ∀ n h, outs (n + 1) h
      = (k1_pay4 (X ⟨n + 1, h⟩) (D ⟨n + 1, h⟩) (B ⟨n + 1, h⟩) (outs n (Nat.lt_of_succ_lt h)).1,
         k1_pay5 (X ⟨n + 1, h⟩) (D ⟨n + 1, h⟩) (B ⟨n + 1, h⟩) (outs n (Nat.lt_of_succ_lt h)).2))
    (h9 : 9 < N) (cc : Fin 64) :
    (outs 9 h9).1 (ix2 (0 : Fin 1) cc) = ∑ n : Fin 50000, g n cc
      ∧ (outs 9 h9).2 (ix2 (0 : Fin 1) cc) = ∑ n : Fin 50000, g n cc * g n cc :=
  ⟨acc_eq hN X D B g hg id cc (fun n h => (outs n h).1 (ix2 (0 : Fin 1) cc))
      (fun h => by rw [h0 h]; exact (pay4_apply _ _ _ _ cc).trans (congrArg (· + _) (pay1_apply cc)))
      (fun n h => by rw [hs n h]; exact pay4_apply _ _ _ _ cc) h9,
    acc_eq hN X D B g hg (fun x => x * x) cc (fun n h => (outs n h).2 (ix2 (0 : Fin 1) cc))
      (fun h => by rw [h0 h]; exact (pay5_apply _ _ _ _ cc).trans (congrArg (· + _) (pay2_apply cc)))
      (fun n h => by rw [hs n h]; exact pay5_apply _ _ _ _ cc) h9⟩

end Steps

end Cert.KernelIdeal.RegionStats

end
-- ==== Proof.RegionStats5.lean ====
import proofs.«420888_j18519898980762_3_alg».proof.Proof.Gen.KernelIdeal.Frame
import proofs.«420888_j18519898980762_3_alg».proof.Proof.RegionStats

noncomputable section

namespace Cert.KernelIdeal.RegionStats5

open Gen RegionStats Idealize.ShloMosaic Idealize.ShloMosaic.ValueIdx Idealize.ShloMosaic.TcCoe Idealize.SL.Sem

section Pieces

variable {F : FTy → Type} [FloatOps F] {c : Dev nD} {i : grid5.Coords}
  {a1 : Memref sig .tc .vmem S5000x64 .f32} {h1 : a1.IsWhole} {a2 : Memref sig .tc .vmem S5000x1 .f32} {h2 : a2.IsWhole}
  {a3 : Memref sig .tc .vmem S1x64 .f32} {h3 : a3.IsWhole} {a4 : Memref sig .tc .vmem S1x64 .f32} {h4 : a4.IsWhole}
  {a5 : Memref sig .tc .vmem S1x64 .f32} {h5 : a5.IsWhole}
  {x0 : Vec F S5000x64 .f32} {x1 : Vec F S5000x1 .f32} {x2 : Vec F S1x64 .f32} {xo3 xo4 : Vec F S1x64 .f32}

-- At the first point each accumulator is set to zero, read back, and left at zero plus its column sums of the block.
theorem piece_A {hc : cond5_0 i} :
    (out5_A_3 c i a1 h1 a2 h2 a3 h3 a4 h4 a5 h5 hc x0 x1 x2, out5_A_4 c i a1 h1 a2 h2 a3 h3 a4 h4 a5 h5 hc x0 x1 x2)
      = (k5_pay4 x0 x1 x2 (k5_pay1 (F := F)), k5_pay5 x0 x1 x2 (k5_pay2 (F := F))) := by
  unfold out5_A_3 out5_A_4
  rw [View.read_writes_eq_canon _ _ _ (cover5_A_3 c i a1 h1 a2 h2 a3 h3 a4 h4 a5 h5 hc x0 x1 x2), View.read_writes_eq_canon _ _ _ (cover5_A_4 c i a1 h1 a2 h2 a3 h3 a4 h4 a5 h5 hc x0 x1 x2)]
  unfold kernelRun5_A
  dsimp only
  sl_unfold_words
  simp only [View.canon_cons_unit_zero (S := S1x64) hz, View.readCov_unit_zero (S := S1x64) _ hz, View.readAt_eq_ld,
    h1.read_unread, h2.read_unread, h3.read_unread,
    View.ld_unit_zero (S := S5000x64) hz, View.ld_unit_zero (S := S5000x1) hz, View.ld_unit_zero (S := S1x64) hz]

-- At a later point each accumulator is left at what it held plus its column sums of the block.
theorem piece_B {hc : ¬cond5_0 i} :
    (out5_B_3 c i a1 h1 a2 h2 a3 h3 a4 h4 a5 h5 hc x0 x1 x2 xo3 xo4, out5_B_4 c i a1 h1 a2 h2 a3 h3 a4 h4 a5 h5 hc x0 x1 x2 xo3 xo4) = (k5_pay4 x0 x1 x2 xo3, k5_pay5 x0 x1 x2 xo4) := by
  unfold out5_B_3 out5_B_4
  rw [View.read_writes_eq_canon _ _ _ (cover5_B_3 c i a1 h1 a2 h2 a3 h3 a4 h4 a5 h5 hc x0 x1 x2 xo3 xo4), View.read_writes_eq_canon _ _ _ (cover5_B_4 c i a1 h1 a2 h2 a3 h3 a4 h4 a5 h5 hc x0 x1 x2 xo3 xo4)]
  unfold kernelRun5_B
  dsimp only
  sl_unfold_words
  simp only [View.canon_unit_zero (S := S1x64) hz, View.readAt_eq_ld,
    h1.read_unread, h2.read_unread, h3.read_unread, h4.read_unread, h5.read_unread,
    View.ld_unit_zero (S := S5000x64) hz, View.ld_unit_zero (S := S5000x1) hz, View.ld_unit_zero (S := S1x64) hz]

end Pieces

section Region

variable (V : (c : Dev nD) → (b : Ref sig .tc) → Buf (Elt Ideal) ((c : Thread nD τ).loc b))

def z5 (c : Dev nD) (n : Fin 50000) (cc : Fin 64) : EReal :=
  @HAdd.hAdd EReal EReal EReal instHAdd
    (@HMul.hMul EReal EReal EReal instHMul ((V c main_v51 : S50000x64.Idx → EReal) (ix2 n cc))
      ((V c main_v12 : S50000x1.Idx → EReal) (ix2 n (0 : Fin 1))))
    ((V c main_v52 : S1x64.Idx → EReal) (ix2 (0 : Fin 1) cc))

theorem idx_facts : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0 :=
  (by decide +kernel : ∀ t : Fin grid5.N, _)

-- Row r of the blocks at point t is row 5000 t + r of the two row-blocked arrays; the one-row array is its own block.
theorem zblk_apply (c : Dev nD) (t : Fin cfg5.N) (r : Fin 5000) (cc : Fin 64) (h : 5000 * t.val + r.val < 50000) :
    k1_pay3 (F := Ideal) (iblk5 V c 0 t) (iblk5 V c 1 t) (iblk5 V c 2 t) (ix2 r cc) = z5 V c ⟨5000 * t.val + r.val, h⟩ cc := by
  obtain ⟨e0, e1, e2, e3, e4, e5⟩ := idx_facts t
  refine (pay3_apply _ _ _ r cc).trans (congrArg₂ (· + ·) (congrArg₂ (· * ·) ?_ ?_) ?_)
  · show V c main_v51 _ = V c main_v51 _
    refine congrArg _ (funext fun a => Fin.ext ?_)
    match a with
    | ⟨0, _⟩ => show win5_0.index t (0 : Fin 2) * 5000 + 1 * r.val = 5000 * t.val + r.val; omega
    | ⟨1, _⟩ => show win5_0.index t (1 : Fin 2) * 64 + 1 * cc.val = cc.val; omega
  · show V c main_v12 _ = V c main_v12 _
    refine congrArg _ (funext fun a => Fin.ext ?_)
    match a with
    | ⟨0, _⟩ => show win5_1.index t (0 : Fin 2) * 5000 + 1 * r.val = 5000 * t.val + r.val; omega
    | ⟨1, _⟩ => show win5_1.index t (1 : Fin 2) * 1 + 1 * 0 = 0; omega
  · show V c main_v52 _ = V c main_v52 _
    refine congrArg _ (funext fun a => Fin.ext ?_)
    match a with
    | ⟨0, _⟩ => show win5_2.index t (0 : Fin 2) * 1 + 1 * 0 = 0; omega
    | ⟨1, _⟩ => show win5_2.index t (1 : Fin 2) * 64 + 1 * cc.val = cc.val; omega

-- The accumulators after the last point hold the two sums over all 50000 rows.
theorem stats (c : Dev nD) (cc : Fin 64) :
    ((outsAt5 V c t5_9.val t5_9.isLt).1 : S1x64.Idx → EReal) (ix2 (0 : Fin 1) cc) = ∑ n : Fin 50000, z5 V c n cc
      ∧ ((outsAt5 V c t5_9.val t5_9.isLt).2 : S1x64.Idx → EReal) (ix2 (0 : Fin 1) cc) = ∑ n : Fin 50000, z5 V c n cc * z5 V c n cc :=
  RegionStats.stats N_5 (iblk5 V c 0) (iblk5 V c 1) (iblk5 V c 2) (z5 V c) (zblk_apply V c) (outsAt5 V c)
    (fun h => (outsAt5_A V c ⟨0, h⟩ rfl).trans piece_A)
    (fun n h => (outsAt5_B V c ⟨n + 1, h⟩ (by have := N_5; have := h; dsimp only; omega)).trans piece_B)
    t5_9.isLt cc

abbrev result3 (c : Dev nD) : Buf (Elt Ideal) ((c : Thread nD τ).loc main_v55_0) := (outsAt5 V c t5_9.val t5_9.isLt).1
abbrev result4 (c : Dev nD) : Buf (Elt Ideal) ((c : Thread nD τ).loc main_v55_1) := (outsAt5 V c t5_9.val t5_9.isLt).2

-- The last point's block is the whole result array, so the array ends at that point's accumulator.
theorem final_3 (c : Dev nD) : (dat5 (F := Ideal) V c).arrAt 3 cfg5.N = result3 V c := by
  have hN : cfg5.N = 10 := N_5
  have hz' : (fun a => win5_3.index t5_9 a * main_v55_0.ty.shape.size a) = fun _ => 0 := funext (by decide +kernel)
  refine (dat5 (F := Ideal) V c).arrAt_eq_of_cover 3 (result3 V c) (fun t hf => ?_) fun i => ⟨t5_9, (flush5_3 t5_9).mpr rfl, ?_⟩
  · obtain rfl : t = t5_9 := Fin.ext (show t.val = 9 by have := (flush5_3 t).mp hf; have := t.isLt; omega)
    show (cfg5.win 3).cut (grid5.coords t5_9) ((dat5 (F := Ideal) V c).after 3 t5_9) = _
    rw [after5_3]
    exact (Memref.read_access_unit_zero (Elt Ideal) main_v55_0 hz' (fun a => by rw [congrFun hz' a]; simp) (result3 V c)).symm
  · show i ∈ ((View.whole main_v55_0).slice (win5_3.rect t5_9)).set
    rw [View.set_slice_whole]
    exact mem_unit_all hz' (funext (by decide +kernel)) i

theorem final_4 (c : Dev nD) : (dat5 (F := Ideal) V c).arrAt 4 cfg5.N = result4 V c := by
  have hN : cfg5.N = 10 := N_5
  have hz' : (fun a => win5_4.index t5_9 a * main_v55_1.ty.shape.size a) = fun _ => 0 := funext (by decide +kernel)
  refine (dat5 (F := Ideal) V c).arrAt_eq_of_cover 4 (result4 V c) (fun t hf => ?_) fun i => ⟨t5_9, (flush5_4 t5_9).mpr rfl, ?_⟩
  · obtain rfl : t = t5_9 := Fin.ext (show t.val = 9 by have := (flush5_4 t).mp hf; have := t.isLt; omega)
    show (cfg5.win 4).cut (grid5.coords t5_9) ((dat5 (F := Ideal) V c).after 4 t5_9) = _
    rw [after5_4]
    exact (Memref.read_access_unit_zero (Elt Ideal) main_v55_1 hz' (fun a => by rw [congrFun hz' a]; simp) (result4 V c)).symm
  · show i ∈ ((View.whole main_v55_1).slice (win5_4.rect t5_9)).set
    rw [View.set_slice_whole]
    exact mem_unit_all hz' (funext (by decide +kernel)) i

theorem region5_sum (c : Dev nD) (cc : Fin 64) :
    ((dat5 (F := Ideal) V c).arrAt 3 cfg5.N : S1x64.Idx → EReal) (ix2 (0 : Fin 1) cc) = ∑ n : Fin 50000, z5 V c n cc :=
  (congrFun (final_3 V c) (ix2 (0 : Fin 1) cc)).trans (stats V c cc).1

theorem region5_sumsq (c : Dev nD) (cc : Fin 64) :
    ((dat5 (F := Ideal) V c).arrAt 4 cfg5.N : S1x64.Idx → EReal) (ix2 (0 : Fin 1) cc)
      = ∑ n : Fin 50000, z5 V c n cc * z5 V c n cc :=
  (congrFun (final_4 V c) (ix2 (0 : Fin 1) cc)).trans (stats V c cc).2

end Region

end Cert.KernelIdeal.RegionStats5

end
-- ==== Proof.LibRegion.lean ====
import proofs.«420888_j18519898980762_3_alg».proof.Proof.Gen.KernelIdeal.Frame
import proofs.«420888_j18519898980762_3_alg».proof.Proof.LibColumns
import Idealize.ShloMosaic.Lib.ValueIdx
import Idealize.ShloMosaic.Lib.ValueLayout
import Idealize.ShloMosaic.Lib.Pipeline.Value
import Idealize.ShloMosaic.PureOps.Ideal.Laws

noncomputable section

namespace Cert.Region

open Cert.KernelIdeal Cert.KernelIdeal.Gen Idealize.ShloMosaic Idealize.ShloMosaic.ValueIdx
open Idealize.ShloMosaic.TcCoe Idealize.SL.Sem

-- An entry of a window's block sits in the array, on each axis, at its own coordinate plus the block size times the block index.
theorem emb_eq {G : Pipeline.Grid} (w : Pipeline.Window sig G) (t : Fin G.N) {r : Fin w.shape.rank → ℕ}
    (hx : ∀ a, w.index t a = r a) (y : (w.xblock (G.coords t)).Idx) (i : w.shape.Idx)
    (h : ∀ a, (i a : ℕ) = y a + w.size a * r a) : (w.rect t).emb y = i :=
  funext fun a => Fin.ext (by rw [w.rect_emb_val t y a, hx a, h a, Nat.mul_comm, Nat.add_comm])

-- Blocks that move with the point along one axis only, and are whole on the others, fill the array: coordinate n on that axis is in the block of point n / size.
theorem exists_mem_rect {G : Pipeline.Grid} (w : Pipeline.Window sig G) (a0 : Fin w.shape.rank)
    (h0 : ∀ t, w.index t a0 = t.val) (h1 : ∀ t a, a ≠ a0 → w.index t a = 0)
    (hfull : ∀ a, w.shape.size a ≤ w.size a * (if a = a0 then G.N else 1)) (hcut : ∀ t a, w.xsize (G.coords t) a = w.size a)
    (i : w.shape.Idx) : ∃ t : Fin G.N, i ∈ (w.rect t).set := by
  have hi := (i a0).isLt.trans_le (hfull a0)
  rw [if_pos rfl] at hi
  have hpos : 0 < w.size a0 := Nat.pos_of_ne_zero fun e => by rw [e, Nat.zero_mul] at hi; exact Nat.not_lt_zero _ hi
  refine ⟨⟨(i a0 : ℕ) / w.size a0, Nat.div_lt_of_lt_mul hi⟩, Rect.mem_set_unit.2 fun a => ?_⟩
  show w.index _ a * w.size a ≤ (i a : ℕ) ∧ (i a : ℕ) < w.index _ a * w.size a + w.xsize _ a
  rw [hcut]
  by_cases ha : a = a0
  · subst ha; rw [h0]; exact ⟨Nat.div_mul_le_self _ _, Nat.lt_div_mul_add hpos⟩
  · have hb := (i a).isLt.trans_le (hfull a)
    rw [if_neg ha, Nat.mul_one] at hb
    rw [h1 _ a ha, Nat.zero_mul, Nat.zero_add]; exact ⟨Nat.zero_le _, hb⟩

theorem hz : (![0, 0] : Fin 2 → Nat) = fun _ => 0 := funext fun a => by fin_cases a <;> rfl

theorem mm_lhs_0 (i : S5000x64.Idx) (q : dot_S5000x64_S64x64_S5000x64_1_0_0_1_n_n.contr.Idx) : (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl

theorem mm_rhs_1 (i : S5000x64.Idx) (q : dot_S5000x64_S64x64_S5000x64_1_0_0_1_n_n.contr.Idx) : (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

-- Into a zero accumulator, entry (p, q) of a product is row p of the left factor against column q of the right.
theorem mm_apply (l : FVec Ideal S5000x64 .bf16) (r : FVec Ideal S64x64 .bf16) (p : Fin 5000) (q : Fin 64) :
    matmul dot_S5000x64_S64x64_S5000x64_1_0_0_1_n_n none l r (constant (F := Ideal) S5000x64 .f32 0x00000000#32) (ix2 p q) = ∑ k : Fin 64, l (ix2 p k) * r (ix2 k q) := by
  refine (Ideal.matmul_constant_zero_apply dot_S5000x64_S64x64_S5000x64_1_0_0_1_n_n none l r (ix2 p q)).trans ?_
  rw [← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have el : dot_S5000x64_S64x64_S5000x64_1_0_0_1_n_n.lhsIdx (ix2 p q) ((contrEquiv1 dot_S5000x64_S64x64_S5000x64_1_0_0_1_n_n 64 rfl rfl).symm k) = ix2 p k := funext fun a => Fin.ext (by
    match a with
    | ⟨0, _⟩ => exact mm_lhs_0 _ _
    | ⟨1, _⟩ => exact (dot_S5000x64_S64x64_S5000x64_1_0_0_1_n_n.lhsIdx_val_of_single rfl _ _).trans hk)
  have er : dot_S5000x64_S64x64_S5000x64_1_0_0_1_n_n.rhsIdx (ix2 p q) ((contrEquiv1 dot_S5000x64_S64x64_S5000x64_1_0_0_1_n_n 64 rfl rfl).symm k) = ix2 k q := funext fun a => Fin.ext (by
    match a with
    | ⟨0, _⟩ => exact (dot_S5000x64_S64x64_S5000x64_1_0_0_1_n_n.rhsIdx_val_of_single rfl _ _).trans hk
    | ⟨1, _⟩ => exact mm_rhs_1 _ _)
  rw [el, er]

-- One normalised entry: scaled by its row's factor and shifted, centred, scaled by the gain and by the inverse deviation, shifted again.
def bn (x d b g beta mean var : EReal) : EReal :=
  g * ((x * d + b) - mean) * Ideal.rsqrt (var + Ideal.ofBits .f32 0x3727C5AC#32) + beta

-- The normalised array, and the product of its rows, clamped at zero, with a matrix, each row then scaled by its factor.
def bnArr (A0 : S50000x64.Idx → EReal) (A1 : S50000x1.Idx → EReal) (Ab Ag Abeta Amean Avar : S1x64.Idx → EReal) : S50000x64.Idx → EReal :=
  fun i => bn (A0 i) (A1 (ix2 (i 0) (0 : Fin 1))) (Ab (ix2 (0 : Fin 1) (i 1))) (Ag (ix2 (0 : Fin 1) (i 1))) (Abeta (ix2 (0 : Fin 1) (i 1)))
    (Amean (ix2 (0 : Fin 1) (i 1))) (Avar (ix2 (0 : Fin 1) (i 1)))

def bnmmArr (A0 : S50000x64.Idx → EReal) (A1 : S50000x1.Idx → EReal) (Ab Ag Abeta Amean Avar : S1x64.Idx → EReal) (Aw : S64x64.Idx → EReal) :
    S50000x64.Idx → EReal :=
  fun i => (∑ k : Fin 64, max (bnArr A0 A1 Ab Ag Abeta Amean Avar (ix2 (i 0) k)) 0 * Aw (ix2 k (i 1))) * A1 (ix2 (i 0) (0 : Fin 1))

def mmArr (A0 : S50000x64.Idx → EReal) (Aw : S64x64.Idx → EReal) (A1 : S50000x1.Idx → EReal) : S50000x64.Idx → EReal :=
  fun i => (∑ k : Fin 64, A0 (ix2 (i 0) k) * Aw (ix2 k (i 1))) * A1 (ix2 (i 0) (0 : Fin 1))

variable {x0 : Vec Ideal S5000x64 .f32} {x1 : Vec Ideal S5000x1 .f32} {xb xg xbeta xmean xvar : Vec Ideal S1x64 .f32} {xw : Vec Ideal S64x64 .f32}
  {A0 : S50000x64.Idx → EReal} {A1 : S50000x1.Idx → EReal} {Ab Ag Abeta Amean Avar : S1x64.Idx → EReal} {Aw : S64x64.Idx → EReal} {p : Fin 5000} {n : Fin 50000} {q : Fin 64}

theorem k6_pay1_apply :
    k6_pay1 (F := Ideal) x0 x1 xb xvar xg xmean xbeta (ix2 p q)
      = bn (x0 (ix2 p q)) (x1 (ix2 p (0 : Fin 1))) (xb (ix2 (0 : Fin 1) q)) (xg (ix2 (0 : Fin 1) q)) (xbeta (ix2 (0 : Fin 1) q))
          (xmean (ix2 (0 : Fin 1) q)) (xvar (ix2 (0 : Fin 1) q)) := by
  unfold k6_pay1
  simp only [shapeCast_self]
  rw [addf_apply, mulf_apply, mulf_apply, subf_apply, addf_apply, mulf_apply]
  rw [broadcastTo_1b_ab_apply, broadcastTo_1b_ab_apply, broadcastTo_1b_ab_apply, broadcastTo_1b_ab_apply,
    broadcastTo_1b_ab_apply, Cert.Columns.broadcastTo_a1_ab_apply]
  rfl

-- What the last normalisation leaves at (p, q) of its block, when the block's rows are rows n … of the arrays.
theorem out6_7_blk (e0 : ∀ k, x0 (ix2 p k) = A0 (ix2 n k)) (e1 : x1 (ix2 p (0 : Fin 1)) = A1 (ix2 n (0 : Fin 1)))
    (eb : xb = Ab) (eg : xg = Ag) (ebeta : xbeta = Abeta) (emean : xmean = Amean) (evar : xvar = Avar) :
    out6_7 (F := Ideal) x0 x1 xb xg xbeta xmean xvar (ix2 p q) = bnArr A0 A1 Ab Ag Abeta Amean Avar (ix2 n q) := by
  subst eb eg ebeta emean evar
  unfold out6_7
  rw [View.canon_unit_zero hz]
  simp only [View.ld_unit_zero (S := S5000x64) hz, View.ld_unit_zero (S := S5000x1) hz, View.ld_unit_zero (S := S1x64) hz]
  rw [k6_pay1_apply, e0, e1]; rfl

-- What the normalise-clamp-multiply body leaves at (p, q) of its block.
theorem out2_8_blk (e0 : ∀ k, x0 (ix2 p k) = A0 (ix2 n k)) (e1 : x1 (ix2 p (0 : Fin 1)) = A1 (ix2 n (0 : Fin 1)))
    (eb : xb = Ab) (eg : xg = Ag) (ebeta : xbeta = Abeta) (emean : xmean = Amean) (evar : xvar = Avar) (ew : xw = Aw) :
    out2_8 (F := Ideal) x0 x1 xb xg xbeta xmean xvar xw (ix2 p q) = bnmmArr A0 A1 Ab Ag Abeta Amean Avar Aw (ix2 n q) := by
  subst eb eg ebeta emean evar ew
  unfold out2_8
  rw [View.canon_unit_zero hz]
  simp only [View.ld_unit_zero (S := S5000x64) hz, View.ld_unit_zero (S := S5000x1) hz, View.ld_unit_zero (S := S1x64) hz, View.ld_unit_zero (S := S64x64) hz]
  show matmul dot_S5000x64_S64x64_S5000x64_1_0_0_1_n_n none (truncf .bf16 (maximumf (k6_pay1 (F := Ideal) x0 x1 xb xvar xg xmean xbeta) (broadcast S5000x64 (Scalar.ofBits (F := Ideal) .f32 0x00000000#32))) bitsLt_bf16_f32)
      (truncf .bf16 (xw : FVec Ideal S64x64 .f32) bitsLt_bf16_f32) (constant (F := Ideal) S5000x64 .f32 0x00000000#32) (ix2 p q)
      * k2_pay3 (F := Ideal) x1 (ix2 p q) = _
  rw [mm_apply]
  unfold k2_pay3
  rw [shapeCast_self, Cert.Columns.broadcastTo_a1_ab_apply, e1]
  refine congrArg (· * A1 (ix2 n (0 : Fin 1))) (Finset.sum_congr rfl fun k _ => ?_)
  show max (k6_pay1 (F := Ideal) x0 x1 xb xvar xg xmean xbeta (ix2 p k)) (Ideal.ofBits .f32 0x00000000#32) * xw (ix2 k q) = _
  rw [k6_pay1_apply, Ideal.ofBits_zero_f32, e0, e1]; rfl

-- What the row-scaled product leaves at (p, q) of its block.
theorem out0_3_blk (e0 : ∀ k, x0 (ix2 p k) = A0 (ix2 n k)) (e1 : x1 (ix2 p (0 : Fin 1)) = A1 (ix2 n (0 : Fin 1))) (ew : xw = Aw) :
    out0_3 (F := Ideal) x0 xw x1 (ix2 p q) = mmArr A0 Aw A1 (ix2 n q) := by
  subst ew
  unfold out0_3
  rw [View.canon_unit_zero hz]
  simp only [View.ld_unit_zero (S := S5000x64) hz, View.ld_unit_zero (S := S64x64) hz, View.ld_unit_zero (S := S5000x1) hz]
  show matmul dot_S5000x64_S64x64_S5000x64_1_0_0_1_n_n none (truncf .bf16 x0 bitsLt_bf16_f32) (truncf .bf16 xw bitsLt_bf16_f32) (constant (F := Ideal) S5000x64 .f32 0x00000000#32) (ix2 p q)
      * broadcastTo S5000x64 (shapeCast S5000x1 x1 shapeCasts_S5000x1_S5000x1) broadcasts_S5000x1_S5000x64 (ix2 p q) = _
  rw [mm_apply, shapeCast_self, Cert.Columns.broadcastTo_a1_ab_apply, e1]
  exact congrArg (· * A1 (ix2 n (0 : Fin 1))) (Finset.sum_congr rfl fun k _ => congrArg (· * xw (ix2 k q)) (e0 k))

end Cert.Region

end
-- ==== Proof.Region6.lean ====
import proofs.«420888_j18519898980762_3_alg».proof.Proof.LibRegion

noncomputable section

namespace Cert.KernelIdeal.Region6

open Cert.KernelIdeal Cert.KernelIdeal.Gen Cert.Region Idealize.ShloMosaic Idealize.ShloMosaic.ValueIdx
open Idealize.ShloMosaic.TcCoe Idealize.SL.Sem

def epsLit : EReal := Ideal.ofBits .f32 0x3727C5AC#32

-- The block index of each window at each point: the two row-blocked inputs and the output move with the point along the rows, the other windows are whole.
theorem idx : ∀ (t : Fin cfg6.N) (w : Fin 8) (a : Fin (cfg6.win w).shape.rank),
    (cfg6.win w).index t a = if (w.val < 2 ∨ w.val = 7) ∧ a.val = 0 then t.val else 0 :=
  (by decide +kernel : ∀ t : Fin grid6.N, _)

variable (V : (c : Dev nD) → (b : Ref sig .tc) → Buf (Elt Ideal) ((c : Thread nD τ).loc b))

-- Each block read is the matching rows of its array, so what point t leaves is block t of one function of the arrays.
theorem flushed_eq (c : Dev nD) (t : Fin cfg6.N) :
    (dat6 (F := Ideal) V c).flushed 7 t = ((cfg6.win 7).blk t).view.read (Elt Ideal)
      (bnArr (V c main_v51) (V c main_v12) (V c main_v52) (V c main_v53) (V c main_v54) (V c main_v57) (V c main_v63)) := by
  funext j
  obtain ⟨p, q, rfl⟩ : ∃ (p : Fin 5000) (q : Fin 64), j = ix2 p q := ⟨j 0, j 1, eq_ix2 j⟩
  have hn : p.val + 5000 * t.val < 50000 := by have := p.isLt; have := lt_of_lt_of_eq t.isLt N_6; omega
  show (dat6 (F := Ideal) V c).after 7 t (ix2 p q) = bnArr _ _ _ _ _ _ _ (((cfg6.win 7).rect t).emb (ix2 p q))
  rw [after6_7, emb_eq (cfg6.win 7) t (idx t 7) (ix2 p q) (ix2 ⟨_, hn⟩ q) (Fin.forall_fin_two.2 ⟨rfl, rfl⟩)]
  exact out6_7_blk (fun k => congrArg (V c main_v51) (emb_eq (cfg6.win 0) t (idx t 0) (ix2 p k) (ix2 ⟨_, hn⟩ k) (Fin.forall_fin_two.2 ⟨rfl, rfl⟩)))
    (congrArg (V c main_v12) (emb_eq (cfg6.win 1) t (idx t 1) (ix2 p (0 : Fin 1)) (ix2 ⟨_, hn⟩ (0 : Fin 1)) (Fin.forall_fin_two.2 ⟨rfl, rfl⟩)))
    (funext fun y => congrArg (V c main_v52) (emb_eq (cfg6.win 2) t (idx t 2) y y fun _ => rfl)) (funext fun y => congrArg (V c main_v53) (emb_eq (cfg6.win 3) t (idx t 3) y y fun _ => rfl))
    (funext fun y => congrArg (V c main_v54) (emb_eq (cfg6.win 4) t (idx t 4) y y fun _ => rfl)) (funext fun y => congrArg (V c main_v57) (emb_eq (cfg6.win 5) t (idx t 5) y y fun _ => rfl))
    (funext fun y => congrArg (V c main_v63) (emb_eq (cfg6.win 6) t (idx t 6) y y fun _ => rfl))

-- The ten row blocks fill the output array.
theorem cover (i : S50000x64.Idx) : ∃ t : Fin cfg6.N, (cfg6.win 7).flush t = true ∧ i ∈ ((cfg6.win 7).blk t).view.set :=
  (exists_mem_rect (cfg6.win 7) 0 (fun t => idx t 7 0) (fun t a ha => (idx t 7 a).trans (if_neg fun h => ha (Fin.ext h.2)))
    (by decide) (fun _ _ => rfl) i).imp fun t h => ⟨flush6_7 t, Eq.mpr (congrArg (i ∈ ·) (View.set_slice_whole main_v64 _)) h⟩

local notation:70 a:70 " *ₑ " b:71 => (HMul.hMul : EReal → EReal → EReal) a b
local notation:65 a:65 " +ₑ " b:66 => (HAdd.hAdd : EReal → EReal → EReal) a b
local notation:65 a:65 " -ₑ " b:66 => (HSub.hSub : EReal → EReal → EReal) a b

theorem region6_value (c : Dev nD) (n : Fin 50000) (cc : Fin 64) :
    ((dat6 (F := Ideal) V c).arrAt 7 cfg6.N : S50000x64.Idx → EReal) (ix2 n cc)
      = (V c main_v53 : S1x64.Idx → EReal) (ix2 (0 : Fin 1) cc) *ₑ (((V c main_v51 : S50000x64.Idx → EReal) (ix2 n cc) *ₑ (V c main_v12 : S50000x1.Idx → EReal) (ix2 n (0 : Fin 1)) +ₑ (V c main_v52 : S1x64.Idx → EReal) (ix2 (0 : Fin 1) cc)) -ₑ (V c main_v57 : S1x64.Idx → EReal) (ix2 (0 : Fin 1) cc)) *ₑ Ideal.rsqrt ((V c main_v63 : S1x64.Idx → EReal) (ix2 (0 : Fin 1) cc) +ₑ epsLit) +ₑ (V c main_v54 : S1x64.Idx → EReal) (ix2 (0 : Fin 1) cc) :=
  congrFun ((dat6 (F := Ideal) V c).arrAt_eq_of_cover 7 _ (fun t _ => flushed_eq V c t) cover) (ix2 n cc)

end Cert.KernelIdeal.Region6

end
-- ==== Proof.KBn3.lean ====
import proofs.«420888_j18519898980762_3_alg».proof.Proof.KBn
import proofs.«420888_j18519898980762_3_alg».proof.Proof.RegionStats5
import proofs.«420888_j18519898980762_3_alg».proof.Proof.Region6
import Idealize.ShloMosaic.Lib.IdealHost

noncomputable section

namespace Cert.KernelIdeal.KBn3

open Cert.KernelIdeal Cert.KernelIdeal.Gen Cert.KernelIdeal.KArgs Idealize.ShloMosaic Idealize.ShloMosaic.TcCoe
  Idealize.ShloMosaic.ValueIdx Idealize.SL.Sem

variable (m : (ℓ : Loc nD τ sig) → Buf (Elt Ideal) ℓ) (ρ : Dev nD → PrngReg) (c : Dev nD)

theorem W16_conv : W16 m ρ c (Proc.devRef .tc main_v51) = W14 m ρ c (Proc.devRef .tc main_v51) :=
  (KWalk.W16_W15 m ρ c main_v51 (by decide)).trans (KWalk.W15_in m ρ c 0 rfl)

theorem W16_dinv : W16 m ρ c (Proc.devRef .tc main_v12) = W14 m ρ c (Proc.devRef .tc main_v12) :=
  (KWalk.W16_W15 m ρ c main_v12 (by decide)).trans (KWalk.W15_in m ρ c 1 rfl)

theorem W16_bias : W16 m ρ c (Proc.devRef .tc main_v52) = W14 m ρ c (Proc.devRef .tc main_v52) :=
  (KWalk.W16_W15 m ρ c main_v52 (by decide)).trans (KWalk.W15_in m ρ c 2 rfl)

theorem W16_scale : W16 m ρ c (Proc.devRef .tc main_v53) = W14 m ρ c (Proc.devRef .tc main_v53) :=
  (KWalk.W16_W15 m ρ c main_v53 (by decide)).trans (W15_of_ne m ρ c main_v53 (by decide))

theorem W16_shift : W16 m ρ c (Proc.devRef .tc main_v54) = W14 m ρ c (Proc.devRef .tc main_v54) :=
  (KWalk.W16_W15 m ρ c main_v54 (by decide)).trans (W15_of_ne m ρ c main_v54 (by decide))

theorem W16_mean : (W16 m ρ c (Proc.devRef .tc main_v57) : S1x64.Idx → EReal)
    = KBn.meanRow (W15 m ρ c (Proc.devRef .tc main_v55_0)) := by
  unfold KBn.meanRow
  show StableHlo.after hostOps6 (W15 m ρ c) (Proc.devRef .tc main_v57) = _
  after_results

theorem W16_var : (W16 m ρ c (Proc.devRef .tc main_v63) : S1x64.Idx → EReal)
    = KBn.varRow (W15 m ρ c (Proc.devRef .tc main_v55_0)) (W15 m ρ c (Proc.devRef .tc main_v55_1)) := by
  unfold KBn.varRow KBn.meanRow
  show StableHlo.after hostOps6 (W15 m ρ c) (Proc.devRef .tc main_v63) = _
  after_results

theorem W15_sum (cc : Fin 64) :
    (W15 m ρ c (Proc.devRef .tc main_v55_0) : S1x64.Idx → EReal) (ix2 (0 : Fin 1) cc)
      = ∑ n : Fin 50000, RegionStats5.z5 (V14 m ρ) c n cc :=
  @Eq.trans EReal _ _ _ (congrFun (W15_arr m ρ c 3) (ix2 (0 : Fin 1) cc)) (RegionStats5.region5_sum (V14 m ρ) c cc)

theorem W15_sumsq (cc : Fin 64) :
    (W15 m ρ c (Proc.devRef .tc main_v55_1) : S1x64.Idx → EReal) (ix2 (0 : Fin 1) cc)
      = ∑ n : Fin 50000, RegionStats5.z5 (V14 m ρ) c n cc * RegionStats5.z5 (V14 m ρ) c n cc :=
  @Eq.trans EReal _ _ _ (congrFun (W15_arr m ρ c 4) (ix2 (0 : Fin 1) cc)) (RegionStats5.region5_sumsq (V14 m ρ) c cc)

theorem bn3 (A : Cert.Gcn.Act) (dvv : Cert.Gcn.NodeVec) (b g be : Cert.Gcn.Row)
    (hconv : ∀ n cc, (W14 (F := Ideal) m ρ c (Proc.devRef .tc main_v51) : S50000x64.Idx → EReal) (ix2 n cc) = A n cc)
    (hdv : ∀ n, (W14 (F := Ideal) m ρ c (Proc.devRef .tc main_v12) : S50000x1.Idx → EReal) (ix2 n (0 : Fin 1)) = dvv n)
    (hb : ∀ cc, (W14 (F := Ideal) m ρ c (Proc.devRef .tc main_v52) : S1x64.Idx → EReal) (ix2 (0 : Fin 1) cc) = b cc)
    (hg : ∀ cc, (W14 (F := Ideal) m ρ c (Proc.devRef .tc main_v53) : S1x64.Idx → EReal) (ix2 (0 : Fin 1) cc) = g cc)
    (hbe : ∀ cc, (W14 (F := Ideal) m ρ c (Proc.devRef .tc main_v54) : S1x64.Idx → EReal) (ix2 (0 : Fin 1) cc) = be cc) (n : Fin 50000) (cc : Fin 64) :
    (W17 (F := Ideal) m ρ c (Proc.devRef .tc main_v64) : S50000x64.Idx → EReal) (ix2 n cc) = Cert.Gcn.bnK Cert.Gcn.d50kLit Cert.Gcn.epsLit g be (fun n c => A n c * dvv n + b c) n cc :=
  @Eq.trans EReal _ _ _ (congrFun (W17_arr m ρ c 7) (ix2 n cc))
    (@Eq.trans EReal _ _ _ (Region6.region6_value (V16 m ρ) c n cc)
      (KBn.bn_core _ _ _ _ _ _ _ _ _ _ _ _ _ _ A dvv b g be (W16_conv m ρ c) (W16_dinv m ρ c) (W16_bias m ρ c) (W16_scale m ρ c)
        (W16_shift m ρ c) hconv hdv hb hg hbe (W15_sum m ρ c) (W15_sumsq m ρ c) (W16_mean m ρ c) (W16_var m ρ c) n cc))

def tailK (h : S50000x64.Idx → EReal) (bt : IVec S50000 32) : S500x64.Idx → EReal :=
  Host.divf (F := Ideal)
    (Host.scatterAdd (F := Ideal) scatter_S500x64_S50000x1_S50000x64_1_0_0_1
      (broadcastInDim S500x64 ![] bcast_S_S500x64 (constant (F := Ideal) S_ .f32 0x00000000#32))
      (broadcastInDim S50000x1 ![0] bcast_S50000_S50000x1_0 bt)
      h)
    (broadcastInDim S500x64 ![0, 1] bcast_S500x1_S500x64_0_1
      (broadcastInDim S500x1 ![0] bcast_S500_S500x1_0
        (maximumf (F := Ideal)
          (Host.scatterAdd (F := Ideal) scatter_S500_S50000x1_S50000_n_0_0_1
            (broadcastInDim S500 ![] bcast_S_S500 (constant (F := Ideal) S_ .f32 0x00000000#32))
            (broadcastInDim S50000x1 ![0] bcast_S50000_S50000x1_0 bt)
            (broadcastInDim S50000 ![] bcast_S_S50000 (constant (F := Ideal) S_ .f32 0x3F800000#32)))
          (broadcastInDim S500 ![] bcast_S_S500 (constant (F := Ideal) S_ .f32 0x3F800000#32)))))

theorem W18_tail (hbt : (W17 (F := Ideal) m ρ c (Proc.devRef .tc main_arg2) : S50000.Idx → BitVec 32) = batch m c) :
    (W18 (F := Ideal) m ρ c (Proc.devRef .tc main_v76) : S500x64.Idx → EReal)
      = tailK (W17 (F := Ideal) m ρ c (Proc.devRef .tc main_v64) : S50000x64.Idx → EReal) (batch m c) := by
  rw [← hbt]
  unfold tailK
  show StableHlo.after hostOps7 (W17 m ρ c) (Proc.devRef .tc main_v76) = _
  after_results <;> rfl

end Cert.KernelIdeal.KBn3

end
-- ==== Proof.LibScatterAdd.lean ====
import Idealize.ShloMosaic.PureOps.Ideal
import Idealize.ShloMosaic.Lib.ValueIdx
import Idealize.ShloMosaic.Lib.StableHlo.Predicate

open scoped BigOperators

namespace Cert.LibScatterAdd

open Idealize.ShloMosaic Idealize.ShloMosaic.ValueIdx
open Idealize.ShloMosaic.StableHlo.Predicate (ixP)

theorem resultIdx?_eq_some_iff {s si u : Shape} (d : ScatterDims s si u) {w : Nat} (j : u.Idx) (idx : IVec si w) (i : s.Idx) :
    d.resultIdx? j idx = some i ↔ ∀ a, d.start j idx a + (d.window j a : ℤ) = ((i a).val : ℤ) := by
  unfold ScatterDims.resultIdx?
  split_ifs with h
  · rw [Option.some.injEq]
    constructor
    · intro e a
      rw [← e]
      exact (Int.toNat_of_nonneg (h a).1).symm
    · intro H
      funext a
      apply Fin.ext
      show (d.start j idx a + (d.window j a : ℤ)).toNat = (i a).val
      rw [H a]
      exact Int.toNat_natCast _
  · constructor
    · intro e
      exact absurd e (by simp)
    · intro H
      exfalso
      apply h
      intro a
      rw [H a]
      exact ⟨Int.natCast_nonneg _, by exact_mod_cast (i a).isLt⟩

theorem rows_lands {N C n w : Nat} (d : ScatterDims ⟨2, ![N, C]⟩ ⟨2, ![n, 1]⟩ ⟨2, ![n, C]⟩)
    (huw : d.updateWindowDims = [1]) (hiw : d.insertedWindowDims = [0]) (hsd : d.scatterDimsToOperandDims = [0]) (hivd : d.indexVectorDim = 1)
    (idx : IVec ⟨2, ![n, 1]⟩ w) (j : (⟨2, ![n, C]⟩ : Shape).Idx) (p : Fin N) (c : Fin C) :
    d.resultIdx? j idx = some (ix2 p c) ↔ (idx (ixP (j 0))).toInt = (p.val : ℤ) ∧ j 1 = c := by
  rw [resultIdx?_eq_some_iff, Fin.forall_fin_two]
  obtain ⟨uw, iw, sd, ivd, wf⟩ := d
  simp only at huw hiw hsd hivd
  subst huw hiw hsd hivd

  have hk : Shape.kept ⟨2, ![N, C]⟩ ([0] : List (Fin 2)) = [1] := rfl
  have hs1 : ScatterDims.start (⟨[1], [0], [0], 1, wf⟩ : ScatterDims ⟨2, ![N, C]⟩ ⟨2, ![n, 1]⟩ ⟨2, ![n, C]⟩) j idx 1 = 0 := by
    unfold ScatterDims.start
    rw [dif_neg (by simp)]
  have hw0 : ScatterDims.window (⟨[1], [0], [0], 1, wf⟩ : ScatterDims ⟨2, ![N, C]⟩ ⟨2, ![n, 1]⟩ ⟨2, ![n, C]⟩) j 0 = 0 := by
    unfold ScatterDims.window
    rw [dif_neg (by show (0 : Fin 2) ∉ Shape.kept ⟨2, ![N, C]⟩ ([0] : List (Fin 2)); rw [hk]; simp)]
  have hw1 : ScatterDims.window (⟨[1], [0], [0], 1, wf⟩ : ScatterDims ⟨2, ![N, C]⟩ ⟨2, ![n, 1]⟩ ⟨2, ![n, C]⟩) j 1 = (j 1).val := by
    unfold ScatterDims.window
    rw [dif_pos (by show (1 : Fin 2) ∈ Shape.kept ⟨2, ![N, C]⟩ ([0] : List (Fin 2)); rw [hk]; simp)]
    rfl
  have hs0 : ScatterDims.start (⟨[1], [0], [0], 1, wf⟩ : ScatterDims ⟨2, ![N, C]⟩ ⟨2, ![n, 1]⟩ ⟨2, ![n, C]⟩) j idx 0 = (idx (ixP (j 0))).toInt := by
    unfold ScatterDims.start
    rw [dif_pos (by simp)]
    refine congrArg (fun t => (idx t).toInt) ?_

    funext b
    match b with
    | ⟨0, _⟩ => exact Fin.ext rfl
    | ⟨1, _⟩ => exact Fin.ext rfl
  rw [hs0, hs1, hw0, hw1]
  show (idx (ixP (j 0))).toInt + ((0 : ℕ) : ℤ) = (p.val : ℤ) ∧ (0 : ℤ) + ((j 1).val : ℤ) = (c.val : ℤ) ↔
    (idx (ixP (j 0))).toInt = (p.val : ℤ) ∧ j 1 = c
  rw [Nat.cast_zero, add_zero, zero_add]
  refine and_congr Iff.rfl ?_
  constructor
  · intro h
    exact Fin.ext (by exact_mod_cast h)
  · intro h
    rw [h]

theorem scatterAdd_rows_apply {N C n w : Nat} (d : ScatterDims ⟨2, ![N, C]⟩ ⟨2, ![n, 1]⟩ ⟨2, ![n, C]⟩)
    (huw : d.updateWindowDims = [1]) (hiw : d.insertedWindowDims = [0]) (hsd : d.scatterDimsToOperandDims = [0]) (hivd : d.indexVectorDim = 1)
    (x : (⟨2, ![N, C]⟩ : Shape).Idx → EReal) (idx : IVec ⟨2, ![n, 1]⟩ w) (upd : (⟨2, ![n, C]⟩ : Shape).Idx → EReal) (p : Fin N) (c : Fin C) :
    Ideal.hostScatterAdd d x idx upd (ix2 p c) =
      x (ix2 p c) + ∑ e ∈ Finset.univ.filter (fun e : Fin n => (idx (ixP e)).toInt = (p.val : ℤ)), upd (ix2 e c) := by
  unfold Ideal.hostScatterAdd
  refine congrArg (fun t => x (ix2 p c) + t) ?_
  have key := fun j => rows_lands d huw hiw hsd hivd idx j p c
  have back : ∀ j : (⟨2, ![n, C]⟩ : Shape).Idx, d.resultIdx? j idx = some (ix2 p c) → ix2 (j 0 : Fin n) c = j := by
    intro j hj
    rw [← ((key j).1 hj).2]
    exact (eq_ix2 j).symm
  refine Finset.sum_nbij' (fun j => (j 0 : Fin n)) (fun e => ix2 e c) ?_ ?_ ?_ ?_ ?_
  · intro j hj
    exact Finset.mem_filter.2 ⟨Finset.mem_univ _, ((key j).1 (Finset.mem_filter.1 hj).2).1⟩
  · intro e he
    exact Finset.mem_filter.2 ⟨Finset.mem_univ _, (key (ix2 e c)).2 ⟨(Finset.mem_filter.1 he).2, rfl⟩⟩
  · intro j hj
    exact back j (Finset.mem_filter.1 hj).2
  · intro e _
    rfl
  · intro j hj
    exact congrArg upd (back j (Finset.mem_filter.1 hj).2).symm

theorem vec_lands {N n w : Nat} (d : ScatterDims ⟨1, ![N]⟩ ⟨2, ![n, 1]⟩ ⟨1, ![n]⟩)
    (huw : d.updateWindowDims = []) (hiw : d.insertedWindowDims = [0]) (hsd : d.scatterDimsToOperandDims = [0]) (hivd : d.indexVectorDim = 1)
    (idx : IVec ⟨2, ![n, 1]⟩ w) (j : (⟨1, ![n]⟩ : Shape).Idx) (p : Fin N) :
    d.resultIdx? j idx = some (ix1 p) ↔ (idx (ixP (j 0))).toInt = (p.val : ℤ) := by
  rw [resultIdx?_eq_some_iff, Fin.forall_fin_one]
  obtain ⟨uw, iw, sd, ivd, wf⟩ := d
  simp only at huw hiw hsd hivd
  subst huw hiw hsd hivd

  have hk : Shape.kept ⟨1, ![N]⟩ ([0] : List (Fin 1)) = [] := rfl
  have hw0 : ScatterDims.window (⟨[], [0], [0], 1, wf⟩ : ScatterDims ⟨1, ![N]⟩ ⟨2, ![n, 1]⟩ ⟨1, ![n]⟩) j 0 = 0 := by
    unfold ScatterDims.window
    rw [dif_neg (by show (0 : Fin 1) ∉ Shape.kept ⟨1, ![N]⟩ ([0] : List (Fin 1)); rw [hk]; simp)]
  have hs0 : ScatterDims.start (⟨[], [0], [0], 1, wf⟩ : ScatterDims ⟨1, ![N]⟩ ⟨2, ![n, 1]⟩ ⟨1, ![n]⟩) j idx 0 = (idx (ixP (j 0))).toInt := by
    unfold ScatterDims.start
    rw [dif_pos (by simp)]
    refine congrArg (fun t => (idx t).toInt) ?_

    funext b
    match b with
    | ⟨0, _⟩ => exact Fin.ext rfl
    | ⟨1, _⟩ => exact Fin.ext rfl
  rw [hs0, hw0]
  show (idx (ixP (j 0))).toInt + ((0 : ℕ) : ℤ) = (p.val : ℤ) ↔ (idx (ixP (j 0))).toInt = (p.val : ℤ)
  rw [Nat.cast_zero, add_zero]

theorem scatterAdd_vec_apply {N n w : Nat} (d : ScatterDims ⟨1, ![N]⟩ ⟨2, ![n, 1]⟩ ⟨1, ![n]⟩)
    (huw : d.updateWindowDims = []) (hiw : d.insertedWindowDims = [0]) (hsd : d.scatterDimsToOperandDims = [0]) (hivd : d.indexVectorDim = 1)
    (x : (⟨1, ![N]⟩ : Shape).Idx → EReal) (idx : IVec ⟨2, ![n, 1]⟩ w) (upd : (⟨1, ![n]⟩ : Shape).Idx → EReal) (p : Fin N) :
    Ideal.hostScatterAdd d x idx upd (ix1 p) =
      x (ix1 p) + ∑ e ∈ Finset.univ.filter (fun e : Fin n => (idx (ixP e)).toInt = (p.val : ℤ)), upd (ix1 e) := by
  unfold Ideal.hostScatterAdd
  refine congrArg (fun t => x (ix1 p) + t) ?_
  have key := fun j => vec_lands d huw hiw hsd hivd idx j p
  refine Finset.sum_nbij' (fun j => (j 0 : Fin n)) (fun e => ix1 e) ?_ ?_ ?_ ?_ ?_
  · intro j hj
    exact Finset.mem_filter.2 ⟨Finset.mem_univ _, (key j).1 (Finset.mem_filter.1 hj).2⟩
  · intro e he
    exact Finset.mem_filter.2 ⟨Finset.mem_univ _, (key (ix1 e)).2 (Finset.mem_filter.1 he).2⟩
  · intro j _
    exact (eq_ix1 j).symm
  · intro e _
    rfl
  · intro j _
    exact congrArg upd (eq_ix1 j)

end Cert.LibScatterAdd
-- ==== Proof.Region0.lean ====
import proofs.«420888_j18519898980762_3_alg».proof.Proof.LibRegion

noncomputable section

namespace Cert.KernelIdeal.Region0

open Cert.KernelIdeal Cert.KernelIdeal.Gen Cert.Region Idealize.ShloMosaic Idealize.ShloMosaic.ValueIdx
open Idealize.ShloMosaic.TcCoe Idealize.SL.Sem

-- The block index of each window at each point: the row-blocked inputs and the output move with the point along the rows, the matrix is whole.
theorem idx : ∀ (t : Fin cfg0.N) (w : Fin 4) (a : Fin (cfg0.win w).shape.rank),
    (cfg0.win w).index t a = if w.val ≠ 1 ∧ a.val = 0 then t.val else 0 :=
  (by decide +kernel : ∀ t : Fin grid0.N, _)

variable (V : (c : Dev nD) → (b : Ref sig .tc) → Buf (Elt Ideal) ((c : Thread nD τ).loc b))

-- Each block read is the matching rows of its array, so what point t leaves is block t of one function of the arrays.
theorem flushed_eq (c : Dev nD) (t : Fin cfg0.N) :
    (dat0 (F := Ideal) V c).flushed 3 t = ((cfg0.win 3).blk t).view.read (Elt Ideal) (mmArr (V c main_arg0) (V c main_arg3) (V c main_v12)) := by
  funext j
  obtain ⟨p, q, rfl⟩ : ∃ (p : Fin 5000) (q : Fin 64), j = ix2 p q := ⟨j 0, j 1, eq_ix2 j⟩
  have hn : p.val + 5000 * t.val < 50000 := by have := p.isLt; have := lt_of_lt_of_eq t.isLt N_0; omega
  show (dat0 (F := Ideal) V c).after 3 t (ix2 p q) = mmArr _ _ _ (((cfg0.win 3).rect t).emb (ix2 p q))
  rw [after0_3, emb_eq (cfg0.win 3) t (idx t 3) (ix2 p q) (ix2 ⟨_, hn⟩ q) (Fin.forall_fin_two.2 ⟨rfl, rfl⟩)]
  exact out0_3_blk (fun k => congrArg (V c main_arg0) (emb_eq (cfg0.win 0) t (idx t 0) (ix2 p k) (ix2 ⟨_, hn⟩ k) (Fin.forall_fin_two.2 ⟨rfl, rfl⟩)))
    (congrArg (V c main_v12) (emb_eq (cfg0.win 2) t (idx t 2) (ix2 p (0 : Fin 1)) (ix2 ⟨_, hn⟩ (0 : Fin 1)) (Fin.forall_fin_two.2 ⟨rfl, rfl⟩)))
    (funext fun y => congrArg (V c main_arg3) (emb_eq (cfg0.win 1) t (idx t 1) y y fun _ => rfl))

-- The ten row blocks fill the output array.
theorem cover (i : S50000x64.Idx) : ∃ t : Fin cfg0.N, (cfg0.win 3).flush t = true ∧ i ∈ ((cfg0.win 3).blk t).view.set :=
  (exists_mem_rect (cfg0.win 3) 0 (fun t => idx t 3 0) (fun t a ha => (idx t 3 a).trans (if_neg fun h => ha (Fin.ext h.2)))
    (by decide) (fun _ _ => rfl) i).imp fun t h => ⟨flush0_3 t, Eq.mpr (congrArg (i ∈ ·) (View.set_slice_whole main_v13 _)) h⟩

theorem region0_value (c : Dev nD) (n : Fin 50000) (cc : Fin 64) :
    ((dat0 (F := Ideal) V c).arrAt 3 cfg0.N : S50000x64.Idx → EReal) (ix2 n cc)
      = @HMul.hMul EReal EReal EReal instHMul (∑ k : Fin 64, @HMul.hMul EReal EReal EReal instHMul ((V c main_arg0 : S50000x64.Idx → EReal) (ix2 n k)) ((V c main_arg3 : S64x64.Idx → EReal) (ix2 k cc))) ((V c main_v12 : S50000x1.Idx → EReal) (ix2 n (0 : Fin 1))) :=
  congrFun ((dat0 (F := Ideal) V c).arrAt_eq_of_cover 3 _ (fun t _ => flushed_eq V c t) cover) (ix2 n cc)

end Cert.KernelIdeal.Region0

end
-- ==== Proof.KStage0.lean ====
import proofs.«420888_j18519898980762_3_alg».proof.Proof.KWalk
import proofs.«420888_j18519898980762_3_alg».proof.Proof.LibColumns
import proofs.«420888_j18519898980762_3_alg».proof.Proof.LibScatterAdd
import proofs.«420888_j18519898980762_3_alg».proof.Proof.Region0
import Idealize.ShloMosaic.Lib.Pipeline.Value
import Idealize.ShloMosaic.Lib.ValueIdx
import Idealize.ShloMosaic.Lib.StableHlo.Run
import Idealize.ShloMosaic.Lib.StableHlo.Predicate
import Idealize.ShloMosaic.PureOps.Ideal.Laws

open scoped BigOperators

noncomputable section

namespace Cert.KernelIdeal.KStage0

open Cert.KernelIdeal Cert.KernelIdeal.Gen Cert.KernelIdeal.KArgs Idealize.ShloMosaic Idealize.ShloMosaic.TcCoe
  Idealize.ShloMosaic.ValueIdx Idealize.SL.Sem
open Idealize.ShloMosaic.StableHlo.Predicate (ixP)

def srcTerm (x1 : S2x800000.Idx → BitVec 32) : S850000.Idx → BitVec 32 :=
  concatenate S850000 0 [⟨S800000, shapeCast S800000 (extractStridedSlice S1x800000 ![0, 0] x1 slices_S2x800000_S1x800000_0_0) shapeCasts_S1x800000_S800000⟩,
    ⟨S50000, iotaInDim S50000 32 0⟩] concatenates_S800000_S50000_S850000_d0

theorem srcTerm_apply (x1 : S2x800000.Idx → BitVec 32) (e : Fin 850000) :
    srcTerm x1 (ix1 e) = Cert.Gcn.srcI x1 e := by
  unfold srcTerm Cert.Gcn.srcI
  by_cases h : e.val < 800000
  · rw [dif_pos h]
    refine (concatenate_pair_apply_left (t := S850000) (s₁ := S800000) (s₂ := S50000) (0 : Fin 1) _ _ concatenates_S800000_S50000_S850000_d0 (ix1 e) rfl
      (ix1 (⟨e.val, h⟩ : Fin 800000)) (fun b => by match b with | ⟨0, _⟩ => rfl)).trans ?_
    refine (shapeCast_apply _ shapeCasts_S1x800000_S800000 (ix1 (⟨e.val, h⟩ : Fin 800000)) (ix2 (0 : Fin 1) (⟨e.val, h⟩ : Fin 800000))
      (by rw [Shape.rowMajor_val_two, Shape.rowMajor_val_one]; show 0 * 800000 + e.val = e.val; omega)).trans ?_
    exact extractStridedSlice_apply ![0, 0] x1 slices_S2x800000_S1x800000_0_0 _ (ix2 (0 : Fin 2) (⟨e.val, h⟩ : Fin 800000))
      (fun a => match a with
        | ⟨0, _⟩ => by show (0 : Nat) = 0 + 0; rfl
        | ⟨1, _⟩ => by show e.val = 0 + e.val; omega)
  · rw [dif_neg h]
    have h2 : e.val - 800000 < 50000 := by have := e.isLt; omega
    refine (concatenate_pair_apply_right (t := S850000) (s₁ := S800000) (s₂ := S50000) (0 : Fin 1) _ _ concatenates_S800000_S50000_S850000_d0 (ix1 e) rfl rfl
      (ix1 (⟨e.val - 800000, h2⟩ : Fin 50000)) (fun b hb => absurd (Subsingleton.elim (α := Fin 1) _ _) hb)
      (by show e.val - 800000 + 800000 = e.val; omega)).trans ?_
    rfl

def dstTerm (x1 : S2x800000.Idx → BitVec 32) : S850000.Idx → BitVec 32 :=
  concatenate S850000 0 [⟨S800000, shapeCast S800000 (extractStridedSlice S1x800000 ![1, 0] x1 slices_S2x800000_S1x800000_1_0) shapeCasts_S1x800000_S800000⟩,
    ⟨S50000, iotaInDim S50000 32 0⟩] concatenates_S800000_S50000_S850000_d0

theorem dstTerm_apply (x1 : S2x800000.Idx → BitVec 32) (e : Fin 850000) :
    dstTerm x1 (ix1 e) = Cert.Gcn.dstI x1 e := by
  unfold dstTerm Cert.Gcn.dstI
  by_cases h : e.val < 800000
  · rw [dif_pos h]
    refine (concatenate_pair_apply_left (t := S850000) (s₁ := S800000) (s₂ := S50000) (0 : Fin 1) _ _ concatenates_S800000_S50000_S850000_d0 (ix1 e) rfl
      (ix1 (⟨e.val, h⟩ : Fin 800000)) (fun b => by match b with | ⟨0, _⟩ => rfl)).trans ?_
    refine (shapeCast_apply _ shapeCasts_S1x800000_S800000 (ix1 (⟨e.val, h⟩ : Fin 800000)) (ix2 (0 : Fin 1) (⟨e.val, h⟩ : Fin 800000))
      (by rw [Shape.rowMajor_val_two, Shape.rowMajor_val_one]; show 0 * 800000 + e.val = e.val; omega)).trans ?_
    exact extractStridedSlice_apply ![1, 0] x1 slices_S2x800000_S1x800000_1_0 _ (ix2 (1 : Fin 2) (⟨e.val, h⟩ : Fin 800000))
      (fun a => match a with
        | ⟨0, _⟩ => by show (1 : Nat) = 1 + 0; rfl
        | ⟨1, _⟩ => by show e.val = 0 + e.val; omega)
  · rw [dif_neg h]
    have h2 : e.val - 800000 < 50000 := by have := e.isLt; omega
    refine (concatenate_pair_apply_right (t := S850000) (s₁ := S800000) (s₂ := S50000) (0 : Fin 1) _ _ concatenates_S800000_S50000_S850000_d0 (ix1 e) rfl rfl
      (ix1 (⟨e.val - 800000, h2⟩ : Fin 50000)) (fun b hb => absurd (Subsingleton.elim (α := Fin 1) _ _) hb)
      (by show e.val - 800000 + 800000 = e.val; omega)).trans ?_
    rfl

theorem scatter_core (x : S50000.Idx → EReal) (idx : IVec S850000x1 32) (upd : S850000.Idx → EReal) (n : Fin 50000) :
    (Host.scatterAdd (F := Ideal) (φ := .f32) scatter_S50000_S850000x1_S850000_n_0_0_1 x idx upd : S50000.Idx → EReal) (ix1 n)
      = x (ix1 n) + ∑ e ∈ Finset.univ.filter (fun e : Fin 850000 => (idx (ixP e)).toInt = (n.val : ℤ)), upd (ix1 e) := by
  unfold Host.scatterAdd
  rw [Ideal.hostScatterAdd_def]
  exact Cert.LibScatterAdd.scatterAdd_vec_apply scatter_S50000_S850000x1_S850000_n_0_0_1 rfl rfl rfl rfl x idx upd n

def degTerm (x1 : S2x800000.Idx → BitVec 32) : S50000.Idx → EReal :=
  Host.scatterAdd (F := Ideal) (φ := .f32) scatter_S50000_S850000x1_S850000_n_0_0_1
    (broadcastInDim S50000 ![] bcast_S_S50000 (constant (F := Ideal) S_ .f32 0x00000000#32))
    (broadcastInDim S850000x1 ![0] bcast_S850000_S850000x1_0 (dstTerm x1))
    (broadcastInDim S850000 ![] bcast_S_S850000 (constant (F := Ideal) S_ .f32 0x3F800000#32))

theorem zeros_apply (n : Fin 50000) :
    (broadcastInDim S50000 ![] bcast_S_S50000 (constant (F := Ideal) S_ .f32 0x00000000#32) : S50000.Idx → EReal) (ix1 n) = 0 :=
  (broadcastInDim_apply _ bcast_S_S50000 _ (ix1 n) ix0 (fun a => a.elim0)).trans Ideal.ofBits_zero_f32

theorem ones_apply (e : Fin 850000) :
    (broadcastInDim S850000 ![] bcast_S_S850000 (constant (F := Ideal) S_ .f32 0x3F800000#32) : S850000.Idx → EReal) (ix1 e) = Cert.Gcn.oneLit :=
  broadcastInDim_apply _ bcast_S_S850000 _ (ix1 e) ix0 (fun a => a.elim0)

theorem dstCol_apply (x1 : S2x800000.Idx → BitVec 32) (e : Fin 850000) :
    (broadcastInDim S850000x1 ![0] bcast_S850000_S850000x1_0 (dstTerm x1) : S850000x1.Idx → BitVec 32) (ixP e) = Cert.Gcn.dstI x1 e :=
  (broadcastInDim_apply _ bcast_S850000_S850000x1_0 (dstTerm x1) (ixP e) (ix1 e) (fun a => match a with
    | ⟨0, _⟩ => by show e.val = if (850000 : Nat) = 1 then 0 else e.val; rw [if_neg (by decide)])).trans (dstTerm_apply x1 e)

theorem degTerm_apply (x1 : S2x800000.Idx → BitVec 32) (n : Fin 50000) :
    degTerm x1 (ix1 n) = Cert.Gcn.deg (Cert.Gcn.hit x1) Cert.Gcn.oneLit n := by
  unfold degTerm
  refine (scatter_core _ _ _ n).trans ?_
  rw [zeros_apply, zero_add]
  unfold Cert.Gcn.deg
  refine Finset.sum_congr (Finset.filter_congr (fun e _ => ?_)) (fun e _ => ones_apply e)
  rw [dstCol_apply]
  exact Iff.rfl

theorem hostRsqrt_apply (v : S50000.Idx → EReal) (i : S50000.Idx) :
    (Host.rsqrt (F := Ideal) (φ := .f32) v : S50000.Idx → EReal) i = Ideal.rsqrt (v i) := rfl

variable (m : (ℓ : Loc nD τ sig) → Buf (Elt Ideal) ℓ) (ρ : Dev nD → PrngReg) (c : Dev nD)

theorem W1_v3_eq : (W1 (F := Ideal) m ρ c (Proc.devRef .tc main_v3) : S850000.Idx → BitVec 32) = srcTerm (ei m c) := by
  show StableHlo.after hostOps0 (W0 m ρ c) (Proc.devRef .tc main_v3) = _
  after_results
  rfl

theorem W1_v6_eq : (W1 (F := Ideal) m ρ c (Proc.devRef .tc main_v6) : S850000.Idx → BitVec 32) = dstTerm (ei m c) := by
  show StableHlo.after hostOps0 (W0 m ρ c) (Proc.devRef .tc main_v6) = _
  after_results
  rfl

theorem W1_src (e : Fin 850000) :
    (W1 (F := Ideal) m ρ c (Proc.devRef .tc main_v3) : S850000.Idx → BitVec 32) (ix1 e) = Cert.Gcn.srcI (ei m c) e :=
  (congrFun (W1_v3_eq m ρ c) (ix1 e)).trans (srcTerm_apply (ei m c) e)

theorem W1_dst (e : Fin 850000) :
    (W1 (F := Ideal) m ρ c (Proc.devRef .tc main_v6) : S850000.Idx → BitVec 32) (ix1 e) = Cert.Gcn.dstI (ei m c) e :=
  (congrFun (W1_v6_eq m ρ c) (ix1 e)).trans (dstTerm_apply (ei m c) e)

theorem W1_v12_eq : (W1 (F := Ideal) m ρ c (Proc.devRef .tc main_v12) : S50000x1.Idx → EReal) =
    shapeCast S50000x1 (Host.rsqrt (F := Ideal) (φ := .f32) (degTerm (ei m c))) shapeCasts_S50000_S50000x1 := by
  show StableHlo.after hostOps0 (W0 m ρ c) (Proc.devRef .tc main_v12) = _
  after_results
  rfl

theorem W1_dinv (n : Fin 50000) :
    (W1 (F := Ideal) m ρ c (Proc.devRef .tc main_v12) : S50000x1.Idx → EReal) (ix2 n (0 : Fin 1)) = dv m c n := by
  refine (congrFun (W1_v12_eq m ρ c) (ix2 n (0 : Fin 1))).trans ?_
  refine (Cert.Columns.shapeCast_a_a1_apply _ shapeCasts_S50000_S50000x1 n 0).trans ?_
  refine (hostRsqrt_apply (degTerm (ei m c)) (ix1 n)).trans ?_
  unfold Cert.KernelIdeal.KArgs.dv Cert.Gcn.dv Cert.Gcn.dinv
  exact congrArg Ideal.rsqrt (degTerm_apply (ei m c) n)

theorem W1_arg0 : (W1 (F := Ideal) m ρ c (Proc.devRef .tc main_arg0) : S50000x64.Idx → EReal) = m ((c : Thread nD τ).loc main_arg0) :=
  KWalk.W1_launch m ρ c main_arg0 (by decide)

theorem W1_arg3 : (W1 (F := Ideal) m ρ c (Proc.devRef .tc main_arg3) : S64x64.Idx → EReal) = m ((c : Thread nD τ).loc main_arg3) :=
  KWalk.W1_launch m ρ c main_arg3 (by decide)

theorem W2_hmm (n : Fin 50000) (cc : Fin 64) :
    (W2 (F := Ideal) m ρ c (Proc.devRef .tc main_v13) : S50000x64.Idx → EReal) (ix2 n cc) = Cert.Gcn.mm (x m c) (w1 m c) n cc * dv m c n := by
  have hA : (W2 (F := Ideal) m ρ c (Proc.devRef .tc main_v13) : S50000x64.Idx → EReal)
      = ((dat0 (F := Ideal) (V1 m ρ) c).arrAt 3 cfg0.N : S50000x64.Idx → EReal) := W2_arr m ρ c 3
  refine (congrFun hA (ix2 n cc)).trans ?_
  refine (Cert.KernelIdeal.Region0.region0_value (V1 m ρ) c n cc).trans ?_
  have e0 : ∀ k : Fin 64, (V1 (F := Ideal) m ρ c main_arg0 : S50000x64.Idx → EReal) (ix2 n k) = x m c n k :=
    fun k => congrFun (W1_arg0 m ρ c) (ix2 n k)
  have e3 : ∀ k : Fin 64, (V1 (F := Ideal) m ρ c main_arg3 : S64x64.Idx → EReal) (ix2 k cc) = w1 m c k cc :=
    fun k => congrFun (W1_arg3 m ρ c) (ix2 k cc)
  have es : (∑ k : Fin 64, @HMul.hMul EReal EReal EReal instHMul ((V1 (F := Ideal) m ρ c main_arg0 : S50000x64.Idx → EReal) (ix2 n k))
      ((V1 (F := Ideal) m ρ c main_arg3 : S64x64.Idx → EReal) (ix2 k cc))) = Cert.Gcn.mm (x m c) (w1 m c) n cc :=
    Finset.sum_congr rfl (fun k _ => congrArg₂ (@HMul.hMul EReal EReal EReal instHMul) (e0 k) (e3 k))
  exact congrArg₂ (@HMul.hMul EReal EReal EReal instHMul) es (W1_dinv m ρ c n)

end Cert.KernelIdeal.KStage0

end
-- ==== Proof.LibGatherRows.lean ====
import Idealize.ShloMosaic.PureOps.ShapeOps
import Idealize.ShloMosaic.Lib.ValueIdx
import Idealize.ShloMosaic.Lib.StableHlo.Predicate

namespace Cert.LibGatherRows

open Idealize.ShloMosaic Idealize.ShloMosaic.ValueIdx
open Idealize.ShloMosaic.StableHlo.Predicate (ixP)

theorem gather_rows_apply {α : Type} {N C n w : Nat} (d : GatherDims ⟨2, ![N, C]⟩ ⟨2, ![n, 1]⟩ ⟨2, ![n, C]⟩)
    (hoff : d.offsetDims = [1]) (hcoll : d.collapsedSliceDims = [0]) (hob : d.operandBatchingDims = [])
    (hsim : d.startIndexMap = [0]) (hivd : d.indexVectorDim = 1)
    (x : (⟨2, ![N, C]⟩ : Shape).Idx → α) (idx : IVec ⟨2, ![n, 1]⟩ w) (e : Fin n) (c : Fin C) (hN : 0 < N) :
    Host.gather d x idx (ix2 e c) = x (ix2 ⟨min (idx (ixP e)).toInt.toNat (N - 1), by omega⟩ c) := by
  unfold Host.gather
  congr 1
  funext a
  apply Fin.ext
  have hb : ∀ a : Fin 2, a ∉ d.operandBatchingDims := fun a => by rw [hob]; exact List.not_mem_nil
  have hbatch : ∀ X : Fin 2, X ∈ d.batchDims → ((ix2 e c : (⟨2, ![n, C]⟩ : Shape).Idx) X).val = e.val := by
    intro X hX
    have hX' : X ∉ d.offsetDims := by
      have := (List.mem_filter.1 hX).2
      simpa using this
    rw [hoff] at hX'
    match X, hX' with
    | ⟨0, _⟩, _ => rfl
    | ⟨1, _⟩, h => exact absurd (List.mem_singleton.mpr rfl) h
  have hoffs : ∀ X : Fin 2, X ∈ d.offsetDims → ((ix2 e c : (⟨2, ![n, C]⟩ : Shape).Idx) X).val = c.val := by
    intro X hX
    rw [hoff] at hX
    obtain rfl := List.mem_singleton.1 hX
    rfl
  match a with
  | ⟨0, _⟩ =>
    have hk : (0 : Fin 2) ∉ d.sKept := by rw [GatherDims.mem_sKept, hcoll]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    show d.start (ix2 e c) idx 0 + d.batchCoord (ix2 e c) 0 + d.offCoord (ix2 e c) 0 = min (idx (ixP e)).toInt.toNat (N - 1)
    rw [GatherDims.batchCoord_eq_zero _ _ _ (hb 0), GatherDims.offCoord_eq_zero _ _ _ hk, Nat.add_zero]
    unfold GatherDims.start
    rw [dif_pos hm]
    show min (idx _).toInt.toNat (N - d.sliceSizes 0) = min (idx (ixP e)).toInt.toNat (N - 1)
    rw [hsl]
    congr 3
    congr 1
    funext b
    match b with
    | ⟨0, _⟩ =>
      unfold GatherDims.siIdx
      rw [dif_neg (by rw [hivd]; simp)]
      unfold GatherDims.siCoord
      apply Fin.ext
      simp only [Fin.val_cast]
      exact hbatch _ (List.getElem_mem _)
    | ⟨1, _⟩ =>
      unfold GatherDims.siIdx
      rw [dif_pos (by rw [hivd])]
      apply Fin.ext
      show List.idxOf (0 : Fin 2) d.startIndexMap = 0
      rw [hsim]; simp
  | ⟨1, _⟩ =>
    have hk : (1 : Fin 2) ∈ d.sKept := by rw [GatherDims.mem_sKept, hcoll, hob]; simp
    have hm : (1 : Fin 2) ∉ d.startIndexMap := by rw [hsim]; simp
    show d.start (ix2 e c) idx 1 + d.batchCoord (ix2 e c) 1 + d.offCoord (ix2 e c) 1 = c.val
    rw [GatherDims.batchCoord_eq_zero _ _ _ (hb 1), Nat.add_zero]
    unfold GatherDims.start GatherDims.offCoord
    rw [dif_neg hm, dif_pos hk, Nat.zero_add]
    exact hoffs _ (List.getElem_mem _)

abbrev rowsDims : GatherDims ⟨2, ![50000, 64]⟩ ⟨2, ![850000, 1]⟩ ⟨2, ![850000, 64]⟩ :=
  { offsetDims := [1], collapsedSliceDims := [0], operandBatchingDims := [], startIndicesBatchingDims := [],
    startIndexMap := [0], indexVectorDim := 1, sliceSizes := ![1, 64], wf := by decide }

example {α : Type} (x : (⟨2, ![50000, 64]⟩ : Shape).Idx → α) (idx : IVec ⟨2, ![850000, 1]⟩ 32) (e : Fin 850000) (c : Fin 64) :
    Host.gather rowsDims x idx (ix2 e c)
      = x (ix2 ⟨min (idx (ixP e)).toInt.toNat (50000 - 1), by omega⟩ c) :=
  gather_rows_apply _ rfl rfl rfl rfl rfl x idx e c (by decide)

end Cert.LibGatherRows
-- ==== Proof.KAgg.lean ====
import proofs.«420888_j18519898980762_3_alg».proof.Proof.KArgs
import proofs.«420888_j18519898980762_3_alg».proof.Proof.LibGatherRows
import proofs.«420888_j18519898980762_3_alg».proof.Proof.LibScatterAdd
import Idealize.ShloMosaic.Lib.StableHlo.Run
import Idealize.ShloMosaic.Lib.StableHlo.Predicate
import Idealize.ShloMosaic.Lib.Pipeline.Value
import Idealize.ShloMosaic.Lib.ValueLayout
import Idealize.ShloMosaic.Lib.Affine
import Idealize.ShloMosaic.PureOps.Reduce
import Idealize.ShloMosaic.PureOps.Ideal.Laws

noncomputable section

namespace Cert.KernelIdeal.KAgg

open Cert.KernelIdeal Cert.KernelIdeal.Gen
open Idealize.ShloMosaic Idealize.ShloMosaic.TcCoe Idealize.ShloMosaic.ValueIdx Idealize.SL.Sem
open Idealize.ShloMosaic.StableHlo.Predicate (ixP)

-- The source words, each wrapped once: `v + 50000` where `v < 0` (signed).
def wrapV (src : IVec S850000 32) : IVec S850000 32 :=
  select (cmpi .slt src (broadcastInDim S850000 ![] bcast_S_S850000 (constantI S_ 32 0#32)))
    (addi src (broadcastInDim S850000 ![] bcast_S_S850000 (constantI S_ 32 50000#32))) src

-- A vector of words as an [850000, 1] column.
def colV (w : IVec S850000 32) : IVec S850000x1 32 := broadcastInDim S850000x1 ![0] bcast_S850000_S850000x1_0 w

-- The two bounds tests `0 ≤ v` and `v ≤ 49999` (signed) of a column, conjoined.
def inbV (col : IVec S850000x1 32) : IVec S850000x1 1 :=
  andi (cmpi .sge col (broadcastInDim S850000x1 ![] bcast_S_S850000x1 (constantI S_ 32 0#32)))
    (cmpi .sle col (broadcastInDim S850000x1 ![0, 1] bcast_S1x1_S850000x1_0_1
      (broadcastInDim S1x1 ![1] bcast_S1_S1x1_1 (constantI S1 32 49999#32))))

-- The conjoined tests reduced by `and` over the unit axis.
def maskV (col : IVec S850000x1 32) : IVec S850000 1 :=
  Host.reduce IntOp.andi (inbV col) (constantI S_ 1 1#1) reducesTo_S850000x1_S850000_d1 h_S_

-- The table's rows at the wrapped source words; a row whose word fails the bounds tests is replaced by the NaN word.
def takeFn (tbl : S50000x64.Idx → EReal) (src : IVec S850000 32) : S850000x64.Idx → EReal :=
  select (broadcastInDim S850000x64 ![0] bcast_S850000_S850000x64_0 (maskV (colV (wrapV src))))
    (Host.gather gather_S50000x64_S850000x1_S850000x64_1_0_n_n_0_1_164 tbl (colV (wrapV src)))
    (broadcastInDim S850000x64 ![] bcast_S_S850000x64 (constant (F := Ideal) S_ .f32 0x7FC00000#32))

-- The rows `upd` added into zeros at the destination words.
def aggFn (dst : IVec S850000 32) (upd : S850000x64.Idx → EReal) : S50000x64.Idx → EReal :=
  Host.scatterAdd (F := Ideal) (φ := .f32) scatter_S50000x64_S850000x1_S850000x64_1_0_0_1
    (broadcastInDim S50000x64 ![] bcast_S_S50000x64 (constant (F := Ideal) S_ .f32 0x00000000#32)) (colV dst) upd

-- A vector laid along the first axis of an [850000, k] array reads, at any index, the vector at the first coordinate.
theorem bcast0_apply {α : Type} {k : Nat} (h : S850000.BroadcastsInDim ⟨2, ![850000, k]⟩ ![0]) (w : S850000.Idx → α)
    (i : (⟨2, ![850000, k]⟩ : Shape).Idx) (p : Fin 850000) (hp : i 0 = p) : broadcastInDim _ ![0] h w i = w (ix1 p) :=
  broadcastInDim_apply _ h w i _ fun a => match a with
    | ⟨0, _⟩ => by show p.val = if (850000 : Nat) = 1 then 0 else (i 0).val; rw [if_neg (by decide), hp]

-- A left fold by `and` from 1 over words that are all 1 stays 1.
theorem foldl_andi_one {ι : Type} (f : ι → BitVec 1) (hf : ∀ n, f n = 1#1) :
    ∀ l : List ι, l.foldl (fun r n => IntOp.andi r (f n)) 1#1 = 1#1
  | [] => rfl
  | a :: l => by rw [List.foldl_cons, IntOp.andi_eq_one.2 ⟨rfl, hf a⟩]; exact foldl_andi_one f hf l

-- When every wrapped source word is in [0, 49999] both bounds tests pass everywhere, so the gathered row is the table's.
theorem takeFn_apply (tbl : S50000x64.Idx → EReal) (src : IVec S850000 32)
    (hin : ∀ e : Fin 850000, 0 ≤ (Cert.Gcn.wrapI (src (ix1 e))).toInt ∧ (Cert.Gcn.wrapI (src (ix1 e))).toInt ≤ 49999)
    (e : Fin 850000) (c' : Fin 64) :
    takeFn tbl src (ix2 e c') = tbl (ix2 (Cert.Gcn.rowOf (src (ix1 e))) c') := by
  have hm : maskV (colV (wrapV src)) (ix1 e) = 1#1 := by
    unfold maskV
    rw [Host.reduce_eq_foldl]
    refine foldl_andi_one _ (fun i => ?_) _
    have hc : colV (wrapV src) i = Cert.Gcn.wrapI (src (ix1 (i 0))) := bcast0_apply _ _ i _ rfl
    have h0 : (0#32 : BitVec 32).toInt ≤ (colV (wrapV src) i).toInt := by rw [hc]; exact (hin _).1
    have h1 : (colV (wrapV src) i).toInt ≤ (49999#32 : BitVec 32).toInt := by rw [hc]; exact (hin _).2
    exact IntOp.andi_eq_one.2 ⟨IntOp.cmpi_sge.2 h0, IntOp.cmpi_sle.2 h1⟩
  unfold takeFn
  rw [select_apply, bcast0_apply _ _ _ e rfl, hm, select_one]
  refine (Cert.LibGatherRows.gather_rows_apply _ rfl rfl rfl rfl rfl tbl _ e c' (by decide)).trans
    (congrArg (fun r : Fin 50000 => tbl (ix2 r c')) (Fin.ext ?_))
  exact congrArg (fun v : BitVec 32 => min v.toInt.toNat (50000 - 1)) (bcast0_apply _ _ _ e rfl)

-- The scatter into zeros sums the updates whose destination word, read signed, is the row: the model's sum over the messages that land there.
theorem aggFn_agg (dst : IVec S850000 32) (upd : S850000x64.Idx → EReal) (ei : Cert.Gcn.EdgeIx) (H : Cert.Gcn.Act)
    (hd : ∀ e : Fin 850000, dst (ix1 e) = Cert.Gcn.dstI ei e)
    (hu : ∀ (e : Fin 850000) (cc : Fin 64), upd (ix2 e cc) = H (Cert.Gcn.srcRow ei e) cc) (n : Fin 50000) (cc : Fin 64) :
    aggFn dst upd (ix2 n cc) = Cert.Gcn.agg (Cert.Gcn.hit ei) (fun e c' => H (Cert.Gcn.srcRow ei e) c') n cc := by
  rw [show aggFn dst upd = Ideal.hostScatterAdd scatter_S50000x64_S850000x1_S850000x64_1_0_0_1
    (broadcastInDim S50000x64 ![] bcast_S_S50000x64 (constant (F := Ideal) S_ .f32 0x00000000#32)) (colV dst) upd from rfl]
  refine (Cert.LibScatterAdd.scatterAdd_rows_apply scatter_S50000x64_S850000x1_S850000x64_1_0_0_1 rfl rfl rfl rfl _
    (colV dst) upd n cc).trans ?_
  rw [show broadcastInDim S50000x64 ![] bcast_S_S50000x64 (constant (F := Ideal) S_ .f32 0x00000000#32) (ix2 n cc) = (0 : EReal)
    from Ideal.ofBits_zero_f32, zero_add]
  unfold Cert.Gcn.agg
  exact Finset.sum_congr (Finset.filter_congr fun e _ => by rw [colV, bcast0_apply _ _ _ e rfl, hd e, Cert.Gcn.hit])
    fun e _ => hu e cc

-- One layer's message passing on the pure functions: gather the table's rows at the sources, sum them at the destinations.
theorem agg_fn (tbl : S50000x64.Idx → EReal) (src dst : IVec S850000 32) (ei : Cert.Gcn.EdgeIx)
    (hsrc : Cert.Gcn.SrcInRange ei) (H : Cert.Gcn.Act) (hH : ∀ n cc, tbl (ix2 n cc) = H n cc)
    (hs : ∀ e : Fin 850000, src (ix1 e) = Cert.Gcn.srcI ei e) (hd : ∀ e : Fin 850000, dst (ix1 e) = Cert.Gcn.dstI ei e)
    (n : Fin 50000) (cc : Fin 64) :
    aggFn dst (takeFn tbl src) (ix2 n cc) = Cert.Gcn.agg (Cert.Gcn.hit ei) (fun e c' => H (Cert.Gcn.srcRow ei e) c') n cc :=
  aggFn_agg dst _ ei H hd (fun e c' => by
    rw [takeFn_apply tbl src (fun e' => by rw [hs e']; exact hsrc e') e c', hH, hs e, Cert.Gcn.srcRow]) n cc

-- Moving contents to a reference's own type and back changes nothing.
theorem ofBuf_toBuf {T : BufTy} (x : StableHlo.TRef sig T) (v : T.Contents (Elt Ideal)) : x.ofBuf (x.toBuf v) = v := by
  obtain ⟨r, rfl, _, _⟩ := x; rfl

-- A [64] array cast to [1, 64] reads, at (0, cc), the array at cc.
theorem row_fn {a : S64.Idx → EReal} {o : S1x64.Idx → EReal} (h : o = shapeCast S1x64 a shapeCasts_S64_S1x64)
    (r : Cert.Gcn.Row) (hr : ∀ cc : Fin 64, a (ix1 cc) = r cc) (cc : Fin 64) : o (ix2 (0 : Fin 1) cc) = r cc :=
  h ▸ (shapeCast_a_1a_apply a shapeCasts_S64_S1x64 0 cc).trans (hr cc)

end Cert.KernelIdeal.KAgg

end
-- ==== Proof.KAgg1.lean ====
import proofs.«420888_j18519898980762_3_alg».proof.Proof.KAgg

noncomputable section

namespace Cert.KernelIdeal.KAgg1

open Cert.KernelIdeal Cert.KernelIdeal.Gen Cert.KernelIdeal.KAgg
open Idealize.ShloMosaic Idealize.ShloMosaic.TcCoe Idealize.ShloMosaic.ValueIdx Idealize.SL.Sem

variable (m : (ℓ : Loc nD τ sig) → Buf (Elt Ideal) ℓ) (ρ : Dev nD → PrngReg) (c : Dev nD)

-- The gathered rows are `takeFn` of the table and the source words held before the gather's operations.
theorem read_take : (W3 (F := Ideal) m ρ c (Proc.devRef .tc main_v14) : S850000x64.Idx → EReal)
    = takeFn (W2 (F := Ideal) m ρ c (Proc.devRef .tc main_v13)) (W2 (F := Ideal) m ρ c (Proc.devRef .tc main_v3)) := by
  have t : ∀ Y, (StableHlo.TRef.of main_v14 : StableHlo.TRef sig ⟨S850000x64, .f32⟩).toBuf (Val := Elt Ideal) Y = Y := fun _ => rfl
  have a : ∀ Y, (StableHlo.TRef.of main_v13 : StableHlo.TRef sig ⟨S50000x64, .f32⟩).ofBuf (Val := Elt Ideal) Y = Y := fun _ => rfl
  have s : ∀ Y, (StableHlo.TRef.of main_v3 : StableHlo.TRef sig ⟨S850000, .i32⟩).ofBuf (Val := Elt Ideal) Y = Y := fun _ => rfl
  show StableHlo.after hostOps1 _ _ = _
  after_results_simp
  simp only [ofBuf_toBuf, t, a, s]
  rfl

-- The summed rows are `aggFn` of the destination words and the gathered rows held before the sum's operations.
theorem read_agg : (W4 (F := Ideal) m ρ c (Proc.devRef .tc main_v17) : S50000x64.Idx → EReal)
    = aggFn (W3 (F := Ideal) m ρ c (Proc.devRef .tc main_v6)) (W3 (F := Ideal) m ρ c (Proc.devRef .tc main_v14)) := by
  unfold W4
  after_results_simp
  rfl

theorem agg1 (ei : Cert.Gcn.EdgeIx) (hsrc : Cert.Gcn.SrcInRange ei) (H : Cert.Gcn.Act)
    (hH : ∀ n cc, (W2 (F := Ideal) m ρ c (Proc.devRef .tc main_v13) : S50000x64.Idx → EReal) (ix2 n cc) = H n cc)
    (hs : ∀ e : Fin 850000, (W2 (F := Ideal) m ρ c (Proc.devRef .tc main_v3) : S850000.Idx → BitVec 32) (ix1 e) = Cert.Gcn.srcI ei e)
    (hd : ∀ e : Fin 850000, (W3 (F := Ideal) m ρ c (Proc.devRef .tc main_v6) : S850000.Idx → BitVec 32) (ix1 e) = Cert.Gcn.dstI ei e)
    (n : Fin 50000) (cc : Fin 64) :
    (W4 (F := Ideal) m ρ c (Proc.devRef .tc main_v17) : S50000x64.Idx → EReal) (ix2 n cc)
      = Cert.Gcn.agg (Cert.Gcn.hit ei) (fun e c' => H (Cert.Gcn.srcRow ei e) c') n cc := by
  rw [read_agg, read_take]
  exact agg_fn _ _ _ ei hsrc H hH hs hd n cc

theorem row1_b (r : Cert.Gcn.Row)
    (hr : ∀ cc : Fin 64, (W3 (F := Ideal) m ρ c (Proc.devRef .tc main_arg4) : S64.Idx → EReal) (ix1 cc) = r cc) (cc : Fin 64) :
    (W4 (F := Ideal) m ρ c (Proc.devRef .tc main_v18) : S1x64.Idx → EReal) (ix2 (0 : Fin 1) cc) = r cc :=
  row_fn (by unfold W4; after_results_simp; rfl) r hr cc
theorem row1_g (r : Cert.Gcn.Row)
    (hr : ∀ cc : Fin 64, (W3 (F := Ideal) m ρ c (Proc.devRef .tc main_arg5) : S64.Idx → EReal) (ix1 cc) = r cc) (cc : Fin 64) :
    (W4 (F := Ideal) m ρ c (Proc.devRef .tc main_v19) : S1x64.Idx → EReal) (ix2 (0 : Fin 1) cc) = r cc :=
  row_fn (by unfold W4; after_results_simp; rfl) r hr cc
theorem row1_be (r : Cert.Gcn.Row)
    (hr : ∀ cc : Fin 64, (W3 (F := Ideal) m ρ c (Proc.devRef .tc main_arg6) : S64.Idx → EReal) (ix1 cc) = r cc) (cc : Fin 64) :
    (W4 (F := Ideal) m ρ c (Proc.devRef .tc main_v20) : S1x64.Idx → EReal) (ix2 (0 : Fin 1) cc) = r cc :=
  row_fn (by unfold W4; after_results_simp; rfl) r hr cc

end Cert.KernelIdeal.KAgg1

end
-- ==== Proof.KAgg2.lean ====
import proofs.«420888_j18519898980762_3_alg».proof.Proof.KAgg

noncomputable section

namespace Cert.KernelIdeal.KAgg2

open Cert.KernelIdeal Cert.KernelIdeal.Gen Cert.KernelIdeal.KAgg
open Idealize.ShloMosaic Idealize.ShloMosaic.TcCoe Idealize.ShloMosaic.ValueIdx Idealize.SL.Sem

variable (m : (ℓ : Loc nD τ sig) → Buf (Elt Ideal) ℓ) (ρ : Dev nD → PrngReg) (c : Dev nD)

-- The gathered rows are `takeFn` of the table and the source words held before the gather's operations.
theorem read_take : (W8 (F := Ideal) m ρ c (Proc.devRef .tc main_v31) : S850000x64.Idx → EReal)
    = takeFn (W7 (F := Ideal) m ρ c (Proc.devRef .tc main_v30)) (W7 (F := Ideal) m ρ c (Proc.devRef .tc main_v3)) := by
  have t : ∀ Y, (StableHlo.TRef.of main_v31 : StableHlo.TRef sig ⟨S850000x64, .f32⟩).toBuf (Val := Elt Ideal) Y = Y := fun _ => rfl
  have a : ∀ Y, (StableHlo.TRef.of main_v30 : StableHlo.TRef sig ⟨S50000x64, .f32⟩).ofBuf (Val := Elt Ideal) Y = Y := fun _ => rfl
  have s : ∀ Y, (StableHlo.TRef.of main_v3 : StableHlo.TRef sig ⟨S850000, .i32⟩).ofBuf (Val := Elt Ideal) Y = Y := fun _ => rfl
  show StableHlo.after hostOps3 _ _ = _
  after_results_simp
  simp only [ofBuf_toBuf, t, a, s]
  rfl

-- The summed rows are `aggFn` of the destination words and the gathered rows held before the sum's operations.
theorem read_agg : (W9 (F := Ideal) m ρ c (Proc.devRef .tc main_v34) : S50000x64.Idx → EReal)
    = aggFn (W8 (F := Ideal) m ρ c (Proc.devRef .tc main_v6)) (W8 (F := Ideal) m ρ c (Proc.devRef .tc main_v31)) := by
  unfold W9
  after_results_simp
  rfl

theorem agg2 (ei : Cert.Gcn.EdgeIx) (hsrc : Cert.Gcn.SrcInRange ei) (H : Cert.Gcn.Act)
    (hH : ∀ n cc, (W7 (F := Ideal) m ρ c (Proc.devRef .tc main_v30) : S50000x64.Idx → EReal) (ix2 n cc) = H n cc)
    (hs : ∀ e : Fin 850000, (W7 (F := Ideal) m ρ c (Proc.devRef .tc main_v3) : S850000.Idx → BitVec 32) (ix1 e) = Cert.Gcn.srcI ei e)
    (hd : ∀ e : Fin 850000, (W8 (F := Ideal) m ρ c (Proc.devRef .tc main_v6) : S850000.Idx → BitVec 32) (ix1 e) = Cert.Gcn.dstI ei e)
    (n : Fin 50000) (cc : Fin 64) :
    (W9 (F := Ideal) m ρ c (Proc.devRef .tc main_v34) : S50000x64.Idx → EReal) (ix2 n cc)
      = Cert.Gcn.agg (Cert.Gcn.hit ei) (fun e c' => H (Cert.Gcn.srcRow ei e) c') n cc := by
  rw [read_agg, read_take]
  exact agg_fn _ _ _ ei hsrc H hH hs hd n cc

theorem row2_b (r : Cert.Gcn.Row)
    (hr : ∀ cc : Fin 64, (W8 (F := Ideal) m ρ c (Proc.devRef .tc main_arg8) : S64.Idx → EReal) (ix1 cc) = r cc) (cc : Fin 64) :
    (W9 (F := Ideal) m ρ c (Proc.devRef .tc main_v35) : S1x64.Idx → EReal) (ix2 (0 : Fin 1) cc) = r cc :=
  row_fn (by unfold W9; after_results_simp; rfl) r hr cc
theorem row2_g (r : Cert.Gcn.Row)
    (hr : ∀ cc : Fin 64, (W8 (F := Ideal) m ρ c (Proc.devRef .tc main_arg9) : S64.Idx → EReal) (ix1 cc) = r cc) (cc : Fin 64) :
    (W9 (F := Ideal) m ρ c (Proc.devRef .tc main_v36) : S1x64.Idx → EReal) (ix2 (0 : Fin 1) cc) = r cc :=
  row_fn (by unfold W9; after_results_simp; rfl) r hr cc
theorem row2_be (r : Cert.Gcn.Row)
    (hr : ∀ cc : Fin 64, (W8 (F := Ideal) m ρ c (Proc.devRef .tc main_arg10) : S64.Idx → EReal) (ix1 cc) = r cc) (cc : Fin 64) :
    (W9 (F := Ideal) m ρ c (Proc.devRef .tc main_v37) : S1x64.Idx → EReal) (ix2 (0 : Fin 1) cc) = r cc :=
  row_fn (by unfold W9; after_results_simp; rfl) r hr cc

end Cert.KernelIdeal.KAgg2

end
-- ==== Proof.KAgg3.lean ====
import proofs.«420888_j18519898980762_3_alg».proof.Proof.KAgg

noncomputable section

namespace Cert.KernelIdeal.KAgg3

open Cert.KernelIdeal Cert.KernelIdeal.Gen Cert.KernelIdeal.KAgg
open Idealize.ShloMosaic Idealize.ShloMosaic.TcCoe Idealize.ShloMosaic.ValueIdx Idealize.SL.Sem

variable (m : (ℓ : Loc nD τ sig) → Buf (Elt Ideal) ℓ) (ρ : Dev nD → PrngReg) (c : Dev nD)

-- The gathered rows are `takeFn` of the table and the source words held before the gather's operations.
theorem read_take : (W13 (F := Ideal) m ρ c (Proc.devRef .tc main_v48) : S850000x64.Idx → EReal)
    = takeFn (W12 (F := Ideal) m ρ c (Proc.devRef .tc main_v47)) (W12 (F := Ideal) m ρ c (Proc.devRef .tc main_v3)) := by
  have t : ∀ Y, (StableHlo.TRef.of main_v48 : StableHlo.TRef sig ⟨S850000x64, .f32⟩).toBuf (Val := Elt Ideal) Y = Y := fun _ => rfl
  have a : ∀ Y, (StableHlo.TRef.of main_v47 : StableHlo.TRef sig ⟨S50000x64, .f32⟩).ofBuf (Val := Elt Ideal) Y = Y := fun _ => rfl
  have s : ∀ Y, (StableHlo.TRef.of main_v3 : StableHlo.TRef sig ⟨S850000, .i32⟩).ofBuf (Val := Elt Ideal) Y = Y := fun _ => rfl
  show StableHlo.after hostOps5 _ _ = _
  after_results_simp
  simp only [ofBuf_toBuf, t, a, s]
  rfl

-- The summed rows are `aggFn` of the destination words and the gathered rows held before the sum's operations.
theorem read_agg : (W14 (F := Ideal) m ρ c (Proc.devRef .tc main_v51) : S50000x64.Idx → EReal)
    = aggFn (W13 (F := Ideal) m ρ c (Proc.devRef .tc main_v6)) (W13 (F := Ideal) m ρ c (Proc.devRef .tc main_v48)) := by
  unfold W14
  after_results_simp
  rfl

theorem agg3 (ei : Cert.Gcn.EdgeIx) (hsrc : Cert.Gcn.SrcInRange ei) (H : Cert.Gcn.Act)
    (hH : ∀ n cc, (W12 (F := Ideal) m ρ c (Proc.devRef .tc main_v47) : S50000x64.Idx → EReal) (ix2 n cc) = H n cc)
    (hs : ∀ e : Fin 850000, (W12 (F := Ideal) m ρ c (Proc.devRef .tc main_v3) : S850000.Idx → BitVec 32) (ix1 e) = Cert.Gcn.srcI ei e)
    (hd : ∀ e : Fin 850000, (W13 (F := Ideal) m ρ c (Proc.devRef .tc main_v6) : S850000.Idx → BitVec 32) (ix1 e) = Cert.Gcn.dstI ei e)
    (n : Fin 50000) (cc : Fin 64) :
    (W14 (F := Ideal) m ρ c (Proc.devRef .tc main_v51) : S50000x64.Idx → EReal) (ix2 n cc)
      = Cert.Gcn.agg (Cert.Gcn.hit ei) (fun e c' => H (Cert.Gcn.srcRow ei e) c') n cc := by
  rw [read_agg, read_take]
  exact agg_fn _ _ _ ei hsrc H hH hs hd n cc

theorem row3_b (r : Cert.Gcn.Row)
    (hr : ∀ cc : Fin 64, (W13 (F := Ideal) m ρ c (Proc.devRef .tc main_arg12) : S64.Idx → EReal) (ix1 cc) = r cc) (cc : Fin 64) :
    (W14 (F := Ideal) m ρ c (Proc.devRef .tc main_v52) : S1x64.Idx → EReal) (ix2 (0 : Fin 1) cc) = r cc :=
  row_fn (by unfold W14; after_results_simp; rfl) r hr cc
theorem row3_g (r : Cert.Gcn.Row)
    (hr : ∀ cc : Fin 64, (W13 (F := Ideal) m ρ c (Proc.devRef .tc main_arg13) : S64.Idx → EReal) (ix1 cc) = r cc) (cc : Fin 64) :
    (W14 (F := Ideal) m ρ c (Proc.devRef .tc main_v53) : S1x64.Idx → EReal) (ix2 (0 : Fin 1) cc) = r cc :=
  row_fn (by unfold W14; after_results_simp; rfl) r hr cc
theorem row3_be (r : Cert.Gcn.Row)
    (hr : ∀ cc : Fin 64, (W13 (F := Ideal) m ρ c (Proc.devRef .tc main_arg14) : S64.Idx → EReal) (ix1 cc) = r cc) (cc : Fin 64) :
    (W14 (F := Ideal) m ρ c (Proc.devRef .tc main_v54) : S1x64.Idx → EReal) (ix2 (0 : Fin 1) cc) = r cc :=
  row_fn (by unfold W14; after_results_simp; rfl) r hr cc

end Cert.KernelIdeal.KAgg3

end
-- ==== Proof.RegionStats1.lean ====
import proofs.«420888_j18519898980762_3_alg».proof.Proof.Gen.KernelIdeal.Frame
import proofs.«420888_j18519898980762_3_alg».proof.Proof.RegionStats

noncomputable section

namespace Cert.KernelIdeal.RegionStats1

open Gen RegionStats Idealize.ShloMosaic Idealize.ShloMosaic.ValueIdx Idealize.ShloMosaic.TcCoe Idealize.SL.Sem

section Pieces

variable {F : FTy → Type} [FloatOps F] {c : Dev nD} {i : grid1.Coords}
  {a1 : Memref sig .tc .vmem S5000x64 .f32} {h1 : a1.IsWhole} {a2 : Memref sig .tc .vmem S5000x1 .f32} {h2 : a2.IsWhole}
  {a3 : Memref sig .tc .vmem S1x64 .f32} {h3 : a3.IsWhole} {a4 : Memref sig .tc .vmem S1x64 .f32} {h4 : a4.IsWhole}
  {a5 : Memref sig .tc .vmem S1x64 .f32} {h5 : a5.IsWhole}
  {x0 : Vec F S5000x64 .f32} {x1 : Vec F S5000x1 .f32} {x2 : Vec F S1x64 .f32} {xo3 xo4 : Vec F S1x64 .f32}

-- At the first point each accumulator is set to zero, read back, and left at zero plus its column sums of the block.
theorem piece_A {hc : cond1_0 i} :
    (out1_A_3 c i a1 h1 a2 h2 a3 h3 a4 h4 a5 h5 hc x0 x1 x2, out1_A_4 c i a1 h1 a2 h2 a3 h3 a4 h4 a5 h5 hc x0 x1 x2)
      = (k1_pay4 x0 x1 x2 (k1_pay1 (F := F)), k1_pay5 x0 x1 x2 (k1_pay2 (F := F))) := by
  unfold out1_A_3 out1_A_4
  rw [View.read_writes_eq_canon _ _ _ (cover1_A_3 c i a1 h1 a2 h2 a3 h3 a4 h4 a5 h5 hc x0 x1 x2), View.read_writes_eq_canon _ _ _ (cover1_A_4 c i a1 h1 a2 h2 a3 h3 a4 h4 a5 h5 hc x0 x1 x2)]
  unfold kernelRun1_A
  dsimp only
  sl_unfold_words
  simp only [View.canon_cons_unit_zero (S := S1x64) hz, View.readCov_unit_zero (S := S1x64) _ hz, View.readAt_eq_ld,
    h1.read_unread, h2.read_unread, h3.read_unread,
    View.ld_unit_zero (S := S5000x64) hz, View.ld_unit_zero (S := S5000x1) hz, View.ld_unit_zero (S := S1x64) hz]

-- At a later point each accumulator is left at what it held plus its column sums of the block.
theorem piece_B {hc : ¬cond1_0 i} :
    (out1_B_3 c i a1 h1 a2 h2 a3 h3 a4 h4 a5 h5 hc x0 x1 x2 xo3 xo4, out1_B_4 c i a1 h1 a2 h2 a3 h3 a4 h4 a5 h5 hc x0 x1 x2 xo3 xo4) = (k1_pay4 x0 x1 x2 xo3, k1_pay5 x0 x1 x2 xo4) := by
  unfold out1_B_3 out1_B_4
  rw [View.read_writes_eq_canon _ _ _ (cover1_B_3 c i a1 h1 a2 h2 a3 h3 a4 h4 a5 h5 hc x0 x1 x2 xo3 xo4), View.read_writes_eq_canon _ _ _ (cover1_B_4 c i a1 h1 a2 h2 a3 h3 a4 h4 a5 h5 hc x0 x1 x2 xo3 xo4)]
  unfold kernelRun1_B
  dsimp only
  sl_unfold_words
  simp only [View.canon_unit_zero (S := S1x64) hz, View.readAt_eq_ld,
    h1.read_unread, h2.read_unread, h3.read_unread, h4.read_unread, h5.read_unread,
    View.ld_unit_zero (S := S5000x64) hz, View.ld_unit_zero (S := S5000x1) hz, View.ld_unit_zero (S := S1x64) hz]

end Pieces

section Region

variable (V : (c : Dev nD) → (b : Ref sig .tc) → Buf (Elt Ideal) ((c : Thread nD τ).loc b))

def z1 (c : Dev nD) (n : Fin 50000) (cc : Fin 64) : EReal :=
  @HAdd.hAdd EReal EReal EReal instHAdd
    (@HMul.hMul EReal EReal EReal instHMul ((V c main_v17 : S50000x64.Idx → EReal) (ix2 n cc))
      ((V c main_v12 : S50000x1.Idx → EReal) (ix2 n (0 : Fin 1))))
    ((V c main_v18 : S1x64.Idx → EReal) (ix2 (0 : Fin 1) cc))

theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0 :=
  (by decide +kernel : ∀ t : Fin grid1.N, _)

-- Row r of the blocks at point t is row 5000 t + r of the two row-blocked arrays; the one-row array is its own block.
theorem zblk_apply (c : Dev nD) (t : Fin cfg1.N) (r : Fin 5000) (cc : Fin 64) (h : 5000 * t.val + r.val < 50000) :
    k1_pay3 (F := Ideal) (iblk1 V c 0 t) (iblk1 V c 1 t) (iblk1 V c 2 t) (ix2 r cc) = z1 V c ⟨5000 * t.val + r.val, h⟩ cc := by
  obtain ⟨e0, e1, e2, e3, e4, e5⟩ := idx_facts t
  refine (pay3_apply _ _ _ r cc).trans (congrArg₂ (· + ·) (congrArg₂ (· * ·) ?_ ?_) ?_)
  · show V c main_v17 _ = V c main_v17 _
    refine congrArg _ (funext fun a => Fin.ext ?_)
    match a with
    | ⟨0, _⟩ => show win1_0.index t (0 : Fin 2) * 5000 + 1 * r.val = 5000 * t.val + r.val; omega
    | ⟨1, _⟩ => show win1_0.index t (1 : Fin 2) * 64 + 1 * cc.val = cc.val; omega
  · show V c main_v12 _ = V c main_v12 _
    refine congrArg _ (funext fun a => Fin.ext ?_)
    match a with
    | ⟨0, _⟩ => show win1_1.index t (0 : Fin 2) * 5000 + 1 * r.val = 5000 * t.val + r.val; omega
    | ⟨1, _⟩ => show win1_1.index t (1 : Fin 2) * 1 + 1 * 0 = 0; omega
  · show V c main_v18 _ = V c main_v18 _
    refine congrArg _ (funext fun a => Fin.ext ?_)
    match a with
    | ⟨0, _⟩ => show win1_2.index t (0 : Fin 2) * 1 + 1 * 0 = 0; omega
    | ⟨1, _⟩ => show win1_2.index t (1 : Fin 2) * 64 + 1 * cc.val = cc.val; omega

-- The accumulators after the last point hold the two sums over all 50000 rows.
theorem stats (c : Dev nD) (cc : Fin 64) :
    ((outsAt1 V c t1_9.val t1_9.isLt).1 : S1x64.Idx → EReal) (ix2 (0 : Fin 1) cc) = ∑ n : Fin 50000, z1 V c n cc
      ∧ ((outsAt1 V c t1_9.val t1_9.isLt).2 : S1x64.Idx → EReal) (ix2 (0 : Fin 1) cc) = ∑ n : Fin 50000, z1 V c n cc * z1 V c n cc :=
  RegionStats.stats N_1 (iblk1 V c 0) (iblk1 V c 1) (iblk1 V c 2) (z1 V c) (zblk_apply V c) (outsAt1 V c)
    (fun h => (outsAt1_A V c ⟨0, h⟩ rfl).trans piece_A)
    (fun n h => (outsAt1_B V c ⟨n + 1, h⟩ (by have := N_1; have := h; dsimp only; omega)).trans piece_B)
    t1_9.isLt cc

abbrev result3 (c : Dev nD) : Buf (Elt Ideal) ((c : Thread nD τ).loc main_v21_0) := (outsAt1 V c t1_9.val t1_9.isLt).1
abbrev result4 (c : Dev nD) : Buf (Elt Ideal) ((c : Thread nD τ).loc main_v21_1) := (outsAt1 V c t1_9.val t1_9.isLt).2

-- The last point's block is the whole result array, so the array ends at that point's accumulator.
theorem final_3 (c : Dev nD) : (dat1 (F := Ideal) V c).arrAt 3 cfg1.N = result3 V c := by
  have hN : cfg1.N = 10 := N_1
  have hz' : (fun a => win1_3.index t1_9 a * main_v21_0.ty.shape.size a) = fun _ => 0 := funext (by decide +kernel)
  refine (dat1 (F := Ideal) V c).arrAt_eq_of_cover 3 (result3 V c) (fun t hf => ?_) fun i => ⟨t1_9, (flush1_3 t1_9).mpr rfl, ?_⟩
  · obtain rfl : t = t1_9 := Fin.ext (show t.val = 9 by have := (flush1_3 t).mp hf; have := t.isLt; omega)
    show (cfg1.win 3).cut (grid1.coords t1_9) ((dat1 (F := Ideal) V c).after 3 t1_9) = _
    rw [after1_3]
    exact (Memref.read_access_unit_zero (Elt Ideal) main_v21_0 hz' (fun a => by rw [congrFun hz' a]; simp) (result3 V c)).symm
  · show i ∈ ((View.whole main_v21_0).slice (win1_3.rect t1_9)).set
    rw [View.set_slice_whole]
    exact mem_unit_all hz' (funext (by decide +kernel)) i

theorem final_4 (c : Dev nD) : (dat1 (F := Ideal) V c).arrAt 4 cfg1.N = result4 V c := by
  have hN : cfg1.N = 10 := N_1
  have hz' : (fun a => win1_4.index t1_9 a * main_v21_1.ty.shape.size a) = fun _ => 0 := funext (by decide +kernel)
  refine (dat1 (F := Ideal) V c).arrAt_eq_of_cover 4 (result4 V c) (fun t hf => ?_) fun i => ⟨t1_9, (flush1_4 t1_9).mpr rfl, ?_⟩
  · obtain rfl : t = t1_9 := Fin.ext (show t.val = 9 by have := (flush1_4 t).mp hf; have := t.isLt; omega)
    show (cfg1.win 4).cut (grid1.coords t1_9) ((dat1 (F := Ideal) V c).after 4 t1_9) = _
    rw [after1_4]
    exact (Memref.read_access_unit_zero (Elt Ideal) main_v21_1 hz' (fun a => by rw [congrFun hz' a]; simp) (result4 V c)).symm
  · show i ∈ ((View.whole main_v21_1).slice (win1_4.rect t1_9)).set
    rw [View.set_slice_whole]
    exact mem_unit_all hz' (funext (by decide +kernel)) i

theorem region1_sum (c : Dev nD) (cc : Fin 64) :
    ((dat1 (F := Ideal) V c).arrAt 3 cfg1.N : S1x64.Idx → EReal) (ix2 (0 : Fin 1) cc) = ∑ n : Fin 50000, z1 V c n cc :=
  (congrFun (final_3 V c) (ix2 (0 : Fin 1) cc)).trans (stats V c cc).1

theorem region1_sumsq (c : Dev nD) (cc : Fin 64) :
    ((dat1 (F := Ideal) V c).arrAt 4 cfg1.N : S1x64.Idx → EReal) (ix2 (0 : Fin 1) cc)
      = ∑ n : Fin 50000, z1 V c n cc * z1 V c n cc :=
  (congrFun (final_4 V c) (ix2 (0 : Fin 1) cc)).trans (stats V c cc).2

end Region

end Cert.KernelIdeal.RegionStats1

end
-- ==== Proof.RegionBnMm2.lean ====
import proofs.«420888_j18519898980762_3_alg».proof.Proof.LibRegion

noncomputable section

namespace Cert.KernelIdeal.RegionBnMm2

open Cert.KernelIdeal Cert.KernelIdeal.Gen Cert.Region Idealize.ShloMosaic Idealize.ShloMosaic.ValueIdx
open Idealize.ShloMosaic.TcCoe Idealize.SL.Sem

def epsLit : EReal := Ideal.ofBits .f32 0x3727C5AC#32

-- The block index of each window at each point: the two row-blocked inputs and the output move with the point along the rows, the other windows are whole.
theorem idx : ∀ (t : Fin cfg2.N) (w : Fin 9) (a : Fin (cfg2.win w).shape.rank),
    (cfg2.win w).index t a = if (w.val < 2 ∨ w.val = 8) ∧ a.val = 0 then t.val else 0 :=
  (by decide +kernel : ∀ t : Fin grid2.N, _)

variable (V : (c : Dev nD) → (b : Ref sig .tc) → Buf (Elt Ideal) ((c : Thread nD τ).loc b))

local infixl:70 " *ₑ " => @HMul.hMul EReal EReal EReal instHMul
local infixl:65 " +ₑ " => @HAdd.hAdd EReal EReal EReal instHAdd
local infixl:65 " -ₑ " => @HSub.hSub EReal EReal EReal instHSub

def y2 (c : Dev nD) (n : Fin 50000) (k : Fin 64) : EReal :=
  (V c main_v19 : S1x64.Idx → EReal) (ix2 (0 : Fin 1) k) *ₑ (((V c main_v17 : S50000x64.Idx → EReal) (ix2 n k) *ₑ (V c main_v12 : S50000x1.Idx → EReal) (ix2 n (0 : Fin 1)) +ₑ (V c main_v18 : S1x64.Idx → EReal) (ix2 (0 : Fin 1) k)) -ₑ (V c main_v23 : S1x64.Idx → EReal) (ix2 (0 : Fin 1) k)) *ₑ Ideal.rsqrt ((V c main_v29 : S1x64.Idx → EReal) (ix2 (0 : Fin 1) k) +ₑ epsLit) +ₑ (V c main_v20 : S1x64.Idx → EReal) (ix2 (0 : Fin 1) k)

-- Each block read is the matching rows of its array, so what point t leaves is block t of one function of the arrays.
theorem flushed_eq (c : Dev nD) (t : Fin cfg2.N) :
    (dat2 (F := Ideal) V c).flushed 8 t = ((cfg2.win 8).blk t).view.read (Elt Ideal)
      (bnmmArr (V c main_v17) (V c main_v12) (V c main_v18) (V c main_v19) (V c main_v20) (V c main_v23) (V c main_v29) (V c main_arg7)) := by
  funext j
  obtain ⟨p, q, rfl⟩ : ∃ (p : Fin 5000) (q : Fin 64), j = ix2 p q := ⟨j 0, j 1, eq_ix2 j⟩
  have hn : p.val + 5000 * t.val < 50000 := by have := p.isLt; have := lt_of_lt_of_eq t.isLt N_2; omega
  show (dat2 (F := Ideal) V c).after 8 t (ix2 p q) = bnmmArr _ _ _ _ _ _ _ _ (((cfg2.win 8).rect t).emb (ix2 p q))
  rw [after2_8, emb_eq (cfg2.win 8) t (idx t 8) (ix2 p q) (ix2 ⟨_, hn⟩ q) (Fin.forall_fin_two.2 ⟨rfl, rfl⟩)]
  exact out2_8_blk
    (fun k => congrArg (V c main_v17) (emb_eq (cfg2.win 0) t (idx t 0) (ix2 p k) (ix2 ⟨_, hn⟩ k) (Fin.forall_fin_two.2 ⟨rfl, rfl⟩)))
    (congrArg (V c main_v12) (emb_eq (cfg2.win 1) t (idx t 1) (ix2 p (0 : Fin 1)) (ix2 ⟨_, hn⟩ (0 : Fin 1)) (Fin.forall_fin_two.2 ⟨rfl, rfl⟩)))
    (funext fun y => congrArg (V c main_v18) (emb_eq (cfg2.win 2) t (idx t 2) y y fun _ => rfl))
    (funext fun y => congrArg (V c main_v19) (emb_eq (cfg2.win 3) t (idx t 3) y y fun _ => rfl))
    (funext fun y => congrArg (V c main_v20) (emb_eq (cfg2.win 4) t (idx t 4) y y fun _ => rfl))
    (funext fun y => congrArg (V c main_v23) (emb_eq (cfg2.win 5) t (idx t 5) y y fun _ => rfl))
    (funext fun y => congrArg (V c main_v29) (emb_eq (cfg2.win 6) t (idx t 6) y y fun _ => rfl))
    (funext fun y => congrArg (V c main_arg7) (emb_eq (cfg2.win 7) t (idx t 7) y y fun _ => rfl))

-- The ten row blocks fill the output array.
theorem cover (i : S50000x64.Idx) : ∃ t : Fin cfg2.N, (cfg2.win 8).flush t = true ∧ i ∈ ((cfg2.win 8).blk t).view.set :=
  (exists_mem_rect (cfg2.win 8) 0 (fun t => idx t 8 0) (fun t a ha => (idx t 8 a).trans (if_neg fun h => ha (Fin.ext h.2)))
    (by decide) (fun _ _ => rfl) i).imp fun t h => ⟨flush2_8 t, Eq.mpr (congrArg (i ∈ ·) (View.set_slice_whole main_v30 _)) h⟩

theorem region2_value (c : Dev nD) (n : Fin 50000) (cc : Fin 64) :
    ((dat2 (F := Ideal) V c).arrAt 8 cfg2.N : S50000x64.Idx → EReal) (ix2 n cc)
      = (∑ k : Fin 64, max (y2 V c n k) 0 *ₑ (V c main_arg7 : S64x64.Idx → EReal) (ix2 k cc)) *ₑ (V c main_v12 : S50000x1.Idx → EReal) (ix2 n (0 : Fin 1)) :=
  congrFun ((dat2 (F := Ideal) V c).arrAt_eq_of_cover 8 _ (fun t _ => flushed_eq V c t) cover) (ix2 n cc)

end Cert.KernelIdeal.RegionBnMm2

end
-- ==== Proof.KBn1.lean ====
import proofs.«420888_j18519898980762_3_alg».proof.Proof.KBn
import proofs.«420888_j18519898980762_3_alg».proof.Proof.RegionStats1
import proofs.«420888_j18519898980762_3_alg».proof.Proof.RegionBnMm2

noncomputable section

namespace Cert.KernelIdeal.KBn1

open Cert.KernelIdeal Cert.KernelIdeal.Gen Cert.KernelIdeal.KArgs Idealize.ShloMosaic Idealize.ShloMosaic.TcCoe
  Idealize.ShloMosaic.ValueIdx Idealize.SL.Sem

variable (m : (ℓ : Loc nD τ sig) → Buf (Elt Ideal) ℓ) (ρ : Dev nD → PrngReg) (c : Dev nD)

theorem W6_conv : W6 m ρ c (Proc.devRef .tc main_v17) = W4 m ρ c (Proc.devRef .tc main_v17) :=
  (KWalk.W6_W5 m ρ c main_v17 (by decide)).trans (KWalk.W5_in m ρ c 0 rfl)

theorem W6_dinv : W6 m ρ c (Proc.devRef .tc main_v12) = W4 m ρ c (Proc.devRef .tc main_v12) :=
  (KWalk.W6_W5 m ρ c main_v12 (by decide)).trans (KWalk.W5_in m ρ c 1 rfl)

theorem W6_bias : W6 m ρ c (Proc.devRef .tc main_v18) = W4 m ρ c (Proc.devRef .tc main_v18) :=
  (KWalk.W6_W5 m ρ c main_v18 (by decide)).trans (KWalk.W5_in m ρ c 2 rfl)

theorem W6_scale : W6 m ρ c (Proc.devRef .tc main_v19) = W4 m ρ c (Proc.devRef .tc main_v19) :=
  (KWalk.W6_W5 m ρ c main_v19 (by decide)).trans (W5_of_ne m ρ c main_v19 (by decide))

theorem W6_shift : W6 m ρ c (Proc.devRef .tc main_v20) = W4 m ρ c (Proc.devRef .tc main_v20) :=
  (KWalk.W6_W5 m ρ c main_v20 (by decide)).trans (W5_of_ne m ρ c main_v20 (by decide))

theorem W6_mean : (W6 m ρ c (Proc.devRef .tc main_v23) : S1x64.Idx → EReal)
    = KBn.meanRow (W5 m ρ c (Proc.devRef .tc main_v21_0)) := by
  unfold KBn.meanRow
  show StableHlo.after hostOps2 (W5 m ρ c) (Proc.devRef .tc main_v23) = _
  after_results

theorem W6_var : (W6 m ρ c (Proc.devRef .tc main_v29) : S1x64.Idx → EReal)
    = KBn.varRow (W5 m ρ c (Proc.devRef .tc main_v21_0)) (W5 m ρ c (Proc.devRef .tc main_v21_1)) := by
  unfold KBn.varRow KBn.meanRow
  show StableHlo.after hostOps2 (W5 m ρ c) (Proc.devRef .tc main_v29) = _
  after_results

theorem W5_sum (cc : Fin 64) :
    (W5 m ρ c (Proc.devRef .tc main_v21_0) : S1x64.Idx → EReal) (ix2 (0 : Fin 1) cc)
      = ∑ n : Fin 50000, RegionStats1.z1 (V4 m ρ) c n cc :=
  @Eq.trans EReal _ _ _ (congrFun (W5_arr m ρ c 3) (ix2 (0 : Fin 1) cc)) (RegionStats1.region1_sum (V4 m ρ) c cc)

theorem W5_sumsq (cc : Fin 64) :
    (W5 m ρ c (Proc.devRef .tc main_v21_1) : S1x64.Idx → EReal) (ix2 (0 : Fin 1) cc)
      = ∑ n : Fin 50000, RegionStats1.z1 (V4 m ρ) c n cc * RegionStats1.z1 (V4 m ρ) c n cc :=
  @Eq.trans EReal _ _ _ (congrFun (W5_arr m ρ c 4) (ix2 (0 : Fin 1) cc)) (RegionStats1.region1_sumsq (V4 m ρ) c cc)

theorem bn1 (A : Cert.Gcn.Act) (dvv : Cert.Gcn.NodeVec) (b g be : Cert.Gcn.Row) (Wn : Cert.Gcn.Wt)
    (hconv : ∀ n cc, (W4 (F := Ideal) m ρ c (Proc.devRef .tc main_v17) : S50000x64.Idx → EReal) (ix2 n cc) = A n cc)
    (hdv : ∀ n, (W4 (F := Ideal) m ρ c (Proc.devRef .tc main_v12) : S50000x1.Idx → EReal) (ix2 n (0 : Fin 1)) = dvv n)
    (hb : ∀ cc, (W4 (F := Ideal) m ρ c (Proc.devRef .tc main_v18) : S1x64.Idx → EReal) (ix2 (0 : Fin 1) cc) = b cc)
    (hg : ∀ cc, (W4 (F := Ideal) m ρ c (Proc.devRef .tc main_v19) : S1x64.Idx → EReal) (ix2 (0 : Fin 1) cc) = g cc)
    (hbe : ∀ cc, (W4 (F := Ideal) m ρ c (Proc.devRef .tc main_v20) : S1x64.Idx → EReal) (ix2 (0 : Fin 1) cc) = be cc)
    (hW : ∀ k cc, (W6 (F := Ideal) m ρ c (Proc.devRef .tc main_arg7) : S64x64.Idx → EReal) (ix2 k cc) = Wn k cc)
    (n : Fin 50000) (cc : Fin 64) :
    (W7 (F := Ideal) m ρ c (Proc.devRef .tc main_v30) : S50000x64.Idx → EReal) (ix2 n cc)
      = Cert.Gcn.mm (Cert.Gcn.relu (Cert.Gcn.bnK Cert.Gcn.d50kLit Cert.Gcn.epsLit g be (fun n c => A n c * dvv n + b c))) Wn n cc
          * dvv n := by
  refine @Eq.trans EReal _ _ _ (congrFun (W7_arr m ρ c 8) (ix2 n cc))
    (@Eq.trans EReal _ _ _ (RegionBnMm2.region2_value (V6 m ρ) c n cc) ?_)
  refine congrArg₂ (· * ·) (Finset.sum_congr rfl fun k _ => ?_)
    ((congrFun (W6_dinv m ρ c) (ix2 n (0 : Fin 1))).trans (hdv n))
  exact congrArg₂ (· * ·) (congrArg (max · 0)
    (KBn.bn_core _ _ _ _ _ _ _ _ _ _ _ _ _ _ A dvv b g be (W6_conv m ρ c) (W6_dinv m ρ c) (W6_bias m ρ c) (W6_scale m ρ c)
      (W6_shift m ρ c) hconv hdv hb hg hbe (W5_sum m ρ c) (W5_sumsq m ρ c) (W6_mean m ρ c) (W6_var m ρ c) n k)) (hW k cc)

end Cert.KernelIdeal.KBn1

end
-- ==== Proof.RegionStats3.lean ====
import proofs.«420888_j18519898980762_3_alg».proof.Proof.Gen.KernelIdeal.Frame
import proofs.«420888_j18519898980762_3_alg».proof.Proof.RegionStats

noncomputable section

namespace Cert.KernelIdeal.RegionStats3

open Gen RegionStats Idealize.ShloMosaic Idealize.ShloMosaic.ValueIdx Idealize.ShloMosaic.TcCoe Idealize.SL.Sem

section Pieces

variable {F : FTy → Type} [FloatOps F] {c : Dev nD} {i : grid3.Coords}
  {a1 : Memref sig .tc .vmem S5000x64 .f32} {h1 : a1.IsWhole} {a2 : Memref sig .tc .vmem S5000x1 .f32} {h2 : a2.IsWhole}
  {a3 : Memref sig .tc .vmem S1x64 .f32} {h3 : a3.IsWhole} {a4 : Memref sig .tc .vmem S1x64 .f32} {h4 : a4.IsWhole}
  {a5 : Memref sig .tc .vmem S1x64 .f32} {h5 : a5.IsWhole}
  {x0 : Vec F S5000x64 .f32} {x1 : Vec F S5000x1 .f32} {x2 : Vec F S1x64 .f32} {xo3 xo4 : Vec F S1x64 .f32}

-- At the first point each accumulator is set to zero, read back, and left at zero plus its column sums of the block.
theorem piece_A {hc : cond3_0 i} :
    (out3_A_3 c i a1 h1 a2 h2 a3 h3 a4 h4 a5 h5 hc x0 x1 x2, out3_A_4 c i a1 h1 a2 h2 a3 h3 a4 h4 a5 h5 hc x0 x1 x2)
      = (k3_pay4 x0 x1 x2 (k3_pay1 (F := F)), k3_pay5 x0 x1 x2 (k3_pay2 (F := F))) := by
  unfold out3_A_3 out3_A_4
  rw [View.read_writes_eq_canon _ _ _ (cover3_A_3 c i a1 h1 a2 h2 a3 h3 a4 h4 a5 h5 hc x0 x1 x2), View.read_writes_eq_canon _ _ _ (cover3_A_4 c i a1 h1 a2 h2 a3 h3 a4 h4 a5 h5 hc x0 x1 x2)]
  unfold kernelRun3_A
  dsimp only
  sl_unfold_words
  simp only [View.canon_cons_unit_zero (S := S1x64) hz, View.readCov_unit_zero (S := S1x64) _ hz, View.readAt_eq_ld,
    h1.read_unread, h2.read_unread, h3.read_unread,
    View.ld_unit_zero (S := S5000x64) hz, View.ld_unit_zero (S := S5000x1) hz, View.ld_unit_zero (S := S1x64) hz]

-- At a later point each accumulator is left at what it held plus its column sums of the block.
theorem piece_B {hc : ¬cond3_0 i} :
    (out3_B_3 c i a1 h1 a2 h2 a3 h3 a4 h4 a5 h5 hc x0 x1 x2 xo3 xo4, out3_B_4 c i a1 h1 a2 h2 a3 h3 a4 h4 a5 h5 hc x0 x1 x2 xo3 xo4) = (k3_pay4 x0 x1 x2 xo3, k3_pay5 x0 x1 x2 xo4) := by
  unfold out3_B_3 out3_B_4
  rw [View.read_writes_eq_canon _ _ _ (cover3_B_3 c i a1 h1 a2 h2 a3 h3 a4 h4 a5 h5 hc x0 x1 x2 xo3 xo4), View.read_writes_eq_canon _ _ _ (cover3_B_4 c i a1 h1 a2 h2 a3 h3 a4 h4 a5 h5 hc x0 x1 x2 xo3 xo4)]
  unfold kernelRun3_B
  dsimp only
  sl_unfold_words
  simp only [View.canon_unit_zero (S := S1x64) hz, View.readAt_eq_ld,
    h1.read_unread, h2.read_unread, h3.read_unread, h4.read_unread, h5.read_unread,
    View.ld_unit_zero (S := S5000x64) hz, View.ld_unit_zero (S := S5000x1) hz, View.ld_unit_zero (S := S1x64) hz]

end Pieces

section Region

variable (V : (c : Dev nD) → (b : Ref sig .tc) → Buf (Elt Ideal) ((c : Thread nD τ).loc b))

def z3 (c : Dev nD) (n : Fin 50000) (cc : Fin 64) : EReal :=
  @HAdd.hAdd EReal EReal EReal instHAdd
    (@HMul.hMul EReal EReal EReal instHMul ((V c main_v34 : S50000x64.Idx → EReal) (ix2 n cc))
      ((V c main_v12 : S50000x1.Idx → EReal) (ix2 n (0 : Fin 1))))
    ((V c main_v35 : S1x64.Idx → EReal) (ix2 (0 : Fin 1) cc))

theorem idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0 :=
  (by decide +kernel : ∀ t : Fin grid3.N, _)

-- Row r of the blocks at point t is row 5000 t + r of the two row-blocked arrays; the one-row array is its own block.
theorem zblk_apply (c : Dev nD) (t : Fin cfg3.N) (r : Fin 5000) (cc : Fin 64) (h : 5000 * t.val + r.val < 50000) :
    k1_pay3 (F := Ideal) (iblk3 V c 0 t) (iblk3 V c 1 t) (iblk3 V c 2 t) (ix2 r cc) = z3 V c ⟨5000 * t.val + r.val, h⟩ cc := by
  obtain ⟨e0, e1, e2, e3, e4, e5⟩ := idx_facts t
  refine (pay3_apply _ _ _ r cc).trans (congrArg₂ (· + ·) (congrArg₂ (· * ·) ?_ ?_) ?_)
  · show V c main_v34 _ = V c main_v34 _
    refine congrArg _ (funext fun a => Fin.ext ?_)
    match a with
    | ⟨0, _⟩ => show win3_0.index t (0 : Fin 2) * 5000 + 1 * r.val = 5000 * t.val + r.val; omega
    | ⟨1, _⟩ => show win3_0.index t (1 : Fin 2) * 64 + 1 * cc.val = cc.val; omega
  · show V c main_v12 _ = V c main_v12 _
    refine congrArg _ (funext fun a => Fin.ext ?_)
    match a with
    | ⟨0, _⟩ => show win3_1.index t (0 : Fin 2) * 5000 + 1 * r.val = 5000 * t.val + r.val; omega
    | ⟨1, _⟩ => show win3_1.index t (1 : Fin 2) * 1 + 1 * 0 = 0; omega
  · show V c main_v35 _ = V c main_v35 _
    refine congrArg _ (funext fun a => Fin.ext ?_)
    match a with
    | ⟨0, _⟩ => show win3_2.index t (0 : Fin 2) * 1 + 1 * 0 = 0; omega
    | ⟨1, _⟩ => show win3_2.index t (1 : Fin 2) * 64 + 1 * cc.val = cc.val; omega

-- The accumulators after the last point hold the two sums over all 50000 rows.
theorem stats (c : Dev nD) (cc : Fin 64) :
    ((outsAt3 V c t3_9.val t3_9.isLt).1 : S1x64.Idx → EReal) (ix2 (0 : Fin 1) cc) = ∑ n : Fin 50000, z3 V c n cc
      ∧ ((outsAt3 V c t3_9.val t3_9.isLt).2 : S1x64.Idx → EReal) (ix2 (0 : Fin 1) cc) = ∑ n : Fin 50000, z3 V c n cc * z3 V c n cc :=
  RegionStats.stats N_3 (iblk3 V c 0) (iblk3 V c 1) (iblk3 V c 2) (z3 V c) (zblk_apply V c) (outsAt3 V c)
    (fun h => (outsAt3_A V c ⟨0, h⟩ rfl).trans piece_A)
    (fun n h => (outsAt3_B V c ⟨n + 1, h⟩ (by have := N_3; have := h; dsimp only; omega)).trans piece_B)
    t3_9.isLt cc

abbrev result3 (c : Dev nD) : Buf (Elt Ideal) ((c : Thread nD τ).loc main_v38_0) := (outsAt3 V c t3_9.val t3_9.isLt).1
abbrev result4 (c : Dev nD) : Buf (Elt Ideal) ((c : Thread nD τ).loc main_v38_1) := (outsAt3 V c t3_9.val t3_9.isLt).2

-- The last point's block is the whole result array, so the array ends at that point's accumulator.
theorem final_3 (c : Dev nD) : (dat3 (F := Ideal) V c).arrAt 3 cfg3.N = result3 V c := by
  have hN : cfg3.N = 10 := N_3
  have hz' : (fun a => win3_3.index t3_9 a * main_v38_0.ty.shape.size a) = fun _ => 0 := funext (by decide +kernel)
  refine (dat3 (F := Ideal) V c).arrAt_eq_of_cover 3 (result3 V c) (fun t hf => ?_) fun i => ⟨t3_9, (flush3_3 t3_9).mpr rfl, ?_⟩
  · obtain rfl : t = t3_9 := Fin.ext (show t.val = 9 by have := (flush3_3 t).mp hf; have := t.isLt; omega)
    show (cfg3.win 3).cut (grid3.coords t3_9) ((dat3 (F := Ideal) V c).after 3 t3_9) = _
    rw [after3_3]
    exact (Memref.read_access_unit_zero (Elt Ideal) main_v38_0 hz' (fun a => by rw [congrFun hz' a]; simp) (result3 V c)).symm
  · show i ∈ ((View.whole main_v38_0).slice (win3_3.rect t3_9)).set
    rw [View.set_slice_whole]
    exact mem_unit_all hz' (funext (by decide +kernel)) i

theorem final_4 (c : Dev nD) : (dat3 (F := Ideal) V c).arrAt 4 cfg3.N = result4 V c := by
  have hN : cfg3.N = 10 := N_3
  have hz' : (fun a => win3_4.index t3_9 a * main_v38_1.ty.shape.size a) = fun _ => 0 := funext (by decide +kernel)
  refine (dat3 (F := Ideal) V c).arrAt_eq_of_cover 4 (result4 V c) (fun t hf => ?_) fun i => ⟨t3_9, (flush3_4 t3_9).mpr rfl, ?_⟩
  · obtain rfl : t = t3_9 := Fin.ext (show t.val = 9 by have := (flush3_4 t).mp hf; have := t.isLt; omega)
    show (cfg3.win 4).cut (grid3.coords t3_9) ((dat3 (F := Ideal) V c).after 4 t3_9) = _
    rw [after3_4]
    exact (Memref.read_access_unit_zero (Elt Ideal) main_v38_1 hz' (fun a => by rw [congrFun hz' a]; simp) (result4 V c)).symm
  · show i ∈ ((View.whole main_v38_1).slice (win3_4.rect t3_9)).set
    rw [View.set_slice_whole]
    exact mem_unit_all hz' (funext (by decide +kernel)) i

theorem region3_sum (c : Dev nD) (cc : Fin 64) :
    ((dat3 (F := Ideal) V c).arrAt 3 cfg3.N : S1x64.Idx → EReal) (ix2 (0 : Fin 1) cc) = ∑ n : Fin 50000, z3 V c n cc :=
  (congrFun (final_3 V c) (ix2 (0 : Fin 1) cc)).trans (stats V c cc).1

theorem region3_sumsq (c : Dev nD) (cc : Fin 64) :
    ((dat3 (F := Ideal) V c).arrAt 4 cfg3.N : S1x64.Idx → EReal) (ix2 (0 : Fin 1) cc)
      = ∑ n : Fin 50000, z3 V c n cc * z3 V c n cc :=
  (congrFun (final_4 V c) (ix2 (0 : Fin 1) cc)).trans (stats V c cc).2

end Region

end Cert.KernelIdeal.RegionStats3

end
-- ==== Proof.RegionBnMm4.lean ====
import proofs.«420888_j18519898980762_3_alg».proof.Proof.LibRegion

noncomputable section

namespace Cert.KernelIdeal.RegionBnMm4

open Cert.KernelIdeal Cert.KernelIdeal.Gen Cert.Region Idealize.ShloMosaic Idealize.ShloMosaic.ValueIdx
open Idealize.ShloMosaic.TcCoe Idealize.SL.Sem

def epsLit : EReal := Ideal.ofBits .f32 0x3727C5AC#32

-- The block index of each window at each point: the two row-blocked inputs and the output move with the point along the rows, the other windows are whole.
theorem idx : ∀ (t : Fin cfg4.N) (w : Fin 9) (a : Fin (cfg4.win w).shape.rank),
    (cfg4.win w).index t a = if (w.val < 2 ∨ w.val = 8) ∧ a.val = 0 then t.val else 0 :=
  (by decide +kernel : ∀ t : Fin grid4.N, _)

variable (V : (c : Dev nD) → (b : Ref sig .tc) → Buf (Elt Ideal) ((c : Thread nD τ).loc b))

local infixl:70 " *ₑ " => @HMul.hMul EReal EReal EReal instHMul
local infixl:65 " +ₑ " => @HAdd.hAdd EReal EReal EReal instHAdd
local infixl:65 " -ₑ " => @HSub.hSub EReal EReal EReal instHSub

def y4 (c : Dev nD) (n : Fin 50000) (k : Fin 64) : EReal :=
  (V c main_v36 : S1x64.Idx → EReal) (ix2 (0 : Fin 1) k) *ₑ (((V c main_v34 : S50000x64.Idx → EReal) (ix2 n k) *ₑ (V c main_v12 : S50000x1.Idx → EReal) (ix2 n (0 : Fin 1)) +ₑ (V c main_v35 : S1x64.Idx → EReal) (ix2 (0 : Fin 1) k)) -ₑ (V c main_v40 : S1x64.Idx → EReal) (ix2 (0 : Fin 1) k)) *ₑ Ideal.rsqrt ((V c main_v46 : S1x64.Idx → EReal) (ix2 (0 : Fin 1) k) +ₑ epsLit) +ₑ (V c main_v37 : S1x64.Idx → EReal) (ix2 (0 : Fin 1) k)

-- Each block read is the matching rows of its array, so what point t leaves is block t of one function of the arrays.
theorem flushed_eq (c : Dev nD) (t : Fin cfg4.N) :
    (dat4 (F := Ideal) V c).flushed 8 t = ((cfg4.win 8).blk t).view.read (Elt Ideal)
      (bnmmArr (V c main_v34) (V c main_v12) (V c main_v35) (V c main_v36) (V c main_v37) (V c main_v40) (V c main_v46) (V c main_arg11)) := by
  funext j
  obtain ⟨p, q, rfl⟩ : ∃ (p : Fin 5000) (q : Fin 64), j = ix2 p q := ⟨j 0, j 1, eq_ix2 j⟩
  have hn : p.val + 5000 * t.val < 50000 := by have := p.isLt; have := lt_of_lt_of_eq t.isLt N_4; omega
  show (dat4 (F := Ideal) V c).after 8 t (ix2 p q) = bnmmArr _ _ _ _ _ _ _ _ (((cfg4.win 8).rect t).emb (ix2 p q))
  rw [after4_8, emb_eq (cfg4.win 8) t (idx t 8) (ix2 p q) (ix2 ⟨_, hn⟩ q) (Fin.forall_fin_two.2 ⟨rfl, rfl⟩)]
  exact out2_8_blk
    (fun k => congrArg (V c main_v34) (emb_eq (cfg4.win 0) t (idx t 0) (ix2 p k) (ix2 ⟨_, hn⟩ k) (Fin.forall_fin_two.2 ⟨rfl, rfl⟩)))
    (congrArg (V c main_v12) (emb_eq (cfg4.win 1) t (idx t 1) (ix2 p (0 : Fin 1)) (ix2 ⟨_, hn⟩ (0 : Fin 1)) (Fin.forall_fin_two.2 ⟨rfl, rfl⟩)))
    (funext fun y => congrArg (V c main_v35) (emb_eq (cfg4.win 2) t (idx t 2) y y fun _ => rfl))
    (funext fun y => congrArg (V c main_v36) (emb_eq (cfg4.win 3) t (idx t 3) y y fun _ => rfl))
    (funext fun y => congrArg (V c main_v37) (emb_eq (cfg4.win 4) t (idx t 4) y y fun _ => rfl))
    (funext fun y => congrArg (V c main_v40) (emb_eq (cfg4.win 5) t (idx t 5) y y fun _ => rfl))
    (funext fun y => congrArg (V c main_v46) (emb_eq (cfg4.win 6) t (idx t 6) y y fun _ => rfl))
    (funext fun y => congrArg (V c main_arg11) (emb_eq (cfg4.win 7) t (idx t 7) y y fun _ => rfl))

-- The ten row blocks fill the output array.
theorem cover (i : S50000x64.Idx) : ∃ t : Fin cfg4.N, (cfg4.win 8).flush t = true ∧ i ∈ ((cfg4.win 8).blk t).view.set :=
  (exists_mem_rect (cfg4.win 8) 0 (fun t => idx t 8 0) (fun t a ha => (idx t 8 a).trans (if_neg fun h => ha (Fin.ext h.2)))
    (by decide) (fun _ _ => rfl) i).imp fun t h => ⟨flush4_8 t, Eq.mpr (congrArg (i ∈ ·) (View.set_slice_whole main_v47 _)) h⟩

theorem region4_value (c : Dev nD) (n : Fin 50000) (cc : Fin 64) :
    ((dat4 (F := Ideal) V c).arrAt 8 cfg4.N : S50000x64.Idx → EReal) (ix2 n cc)
      = (∑ k : Fin 64, max (y4 V c n k) 0 *ₑ (V c main_arg11 : S64x64.Idx → EReal) (ix2 k cc)) *ₑ (V c main_v12 : S50000x1.Idx → EReal) (ix2 n (0 : Fin 1)) :=
  congrFun ((dat4 (F := Ideal) V c).arrAt_eq_of_cover 8 _ (fun t _ => flushed_eq V c t) cover) (ix2 n cc)

end Cert.KernelIdeal.RegionBnMm4

end
-- ==== Proof.KBn2.lean ====
import proofs.«420888_j18519898980762_3_alg».proof.Proof.KBn
import proofs.«420888_j18519898980762_3_alg».proof.Proof.RegionStats3
import proofs.«420888_j18519898980762_3_alg».proof.Proof.RegionBnMm4

noncomputable section

namespace Cert.KernelIdeal.KBn2

open Cert.KernelIdeal Cert.KernelIdeal.Gen Cert.KernelIdeal.KArgs Idealize.ShloMosaic Idealize.ShloMosaic.TcCoe
  Idealize.ShloMosaic.ValueIdx Idealize.SL.Sem

variable (m : (ℓ : Loc nD τ sig) → Buf (Elt Ideal) ℓ) (ρ : Dev nD → PrngReg) (c : Dev nD)

theorem W11_conv : W11 m ρ c (Proc.devRef .tc main_v34) = W9 m ρ c (Proc.devRef .tc main_v34) :=
  (KWalk.W11_W10 m ρ c main_v34 (by decide)).trans (KWalk.W10_in m ρ c 0 rfl)

theorem W11_dinv : W11 m ρ c (Proc.devRef .tc main_v12) = W9 m ρ c (Proc.devRef .tc main_v12) :=
  (KWalk.W11_W10 m ρ c main_v12 (by decide)).trans (KWalk.W10_in m ρ c 1 rfl)

theorem W11_bias : W11 m ρ c (Proc.devRef .tc main_v35) = W9 m ρ c (Proc.devRef .tc main_v35) :=
  (KWalk.W11_W10 m ρ c main_v35 (by decide)).trans (KWalk.W10_in m ρ c 2 rfl)

theorem W11_scale : W11 m ρ c (Proc.devRef .tc main_v36) = W9 m ρ c (Proc.devRef .tc main_v36) :=
  (KWalk.W11_W10 m ρ c main_v36 (by decide)).trans (W10_of_ne m ρ c main_v36 (by decide))

theorem W11_shift : W11 m ρ c (Proc.devRef .tc main_v37) = W9 m ρ c (Proc.devRef .tc main_v37) :=
  (KWalk.W11_W10 m ρ c main_v37 (by decide)).trans (W10_of_ne m ρ c main_v37 (by decide))

theorem W11_mean : (W11 m ρ c (Proc.devRef .tc main_v40) : S1x64.Idx → EReal)
    = KBn.meanRow (W10 m ρ c (Proc.devRef .tc main_v38_0)) := by
  unfold KBn.meanRow
  show StableHlo.after hostOps4 (W10 m ρ c) (Proc.devRef .tc main_v40) = _
  after_results

theorem W11_var : (W11 m ρ c (Proc.devRef .tc main_v46) : S1x64.Idx → EReal)
    = KBn.varRow (W10 m ρ c (Proc.devRef .tc main_v38_0)) (W10 m ρ c (Proc.devRef .tc main_v38_1)) := by
  unfold KBn.varRow KBn.meanRow
  show StableHlo.after hostOps4 (W10 m ρ c) (Proc.devRef .tc main_v46) = _
  after_results

theorem W10_sum (cc : Fin 64) :
    (W10 m ρ c (Proc.devRef .tc main_v38_0) : S1x64.Idx → EReal) (ix2 (0 : Fin 1) cc)
      = ∑ n : Fin 50000, RegionStats3.z3 (V9 m ρ) c n cc :=
  @Eq.trans EReal _ _ _ (congrFun (W10_arr m ρ c 3) (ix2 (0 : Fin 1) cc)) (RegionStats3.region3_sum (V9 m ρ) c cc)

theorem W10_sumsq (cc : Fin 64) :
    (W10 m ρ c (Proc.devRef .tc main_v38_1) : S1x64.Idx → EReal) (ix2 (0 : Fin 1) cc)
      = ∑ n : Fin 50000, RegionStats3.z3 (V9 m ρ) c n cc * RegionStats3.z3 (V9 m ρ) c n cc :=
  @Eq.trans EReal _ _ _ (congrFun (W10_arr m ρ c 4) (ix2 (0 : Fin 1) cc)) (RegionStats3.region3_sumsq (V9 m ρ) c cc)

theorem bn2 (A : Cert.Gcn.Act) (dvv : Cert.Gcn.NodeVec) (b g be : Cert.Gcn.Row) (Wn : Cert.Gcn.Wt)
    (hconv : ∀ n cc, (W9 (F := Ideal) m ρ c (Proc.devRef .tc main_v34) : S50000x64.Idx → EReal) (ix2 n cc) = A n cc)
    (hdv : ∀ n, (W9 (F := Ideal) m ρ c (Proc.devRef .tc main_v12) : S50000x1.Idx → EReal) (ix2 n (0 : Fin 1)) = dvv n)
    (hb : ∀ cc, (W9 (F := Ideal) m ρ c (Proc.devRef .tc main_v35) : S1x64.Idx → EReal) (ix2 (0 : Fin 1) cc) = b cc)
    (hg : ∀ cc, (W9 (F := Ideal) m ρ c (Proc.devRef .tc main_v36) : S1x64.Idx → EReal) (ix2 (0 : Fin 1) cc) = g cc)
    (hbe : ∀ cc, (W9 (F := Ideal) m ρ c (Proc.devRef .tc main_v37) : S1x64.Idx → EReal) (ix2 (0 : Fin 1) cc) = be cc)
    (hW : ∀ k cc, (W11 (F := Ideal) m ρ c (Proc.devRef .tc main_arg11) : S64x64.Idx → EReal) (ix2 k cc) = Wn k cc)
    (n : Fin 50000) (cc : Fin 64) :
    (W12 (F := Ideal) m ρ c (Proc.devRef .tc main_v47) : S50000x64.Idx → EReal) (ix2 n cc)
      = Cert.Gcn.mm (Cert.Gcn.relu (Cert.Gcn.bnK Cert.Gcn.d50kLit Cert.Gcn.epsLit g be (fun n c => A n c * dvv n + b c))) Wn n cc
          * dvv n := by
  refine @Eq.trans EReal _ _ _ (congrFun (W12_arr m ρ c 8) (ix2 n cc))
    (@Eq.trans EReal _ _ _ (RegionBnMm4.region4_value (V11 m ρ) c n cc) ?_)
  refine congrArg₂ (· * ·) (Finset.sum_congr rfl fun k _ => ?_)
    ((congrFun (W11_dinv m ρ c) (ix2 n (0 : Fin 1))).trans (hdv n))
  exact congrArg₂ (· * ·) (congrArg (max · 0)
    (KBn.bn_core _ _ _ _ _ _ _ _ _ _ _ _ _ _ A dvv b g be (W11_conv m ρ c) (W11_dinv m ρ c) (W11_bias m ρ c) (W11_scale m ρ c)
      (W11_shift m ρ c) hconv hdv hb hg hbe (W10_sum m ρ c) (W10_sumsq m ρ c) (W11_mean m ρ c) (W11_var m ρ c) n k)) (hW k cc)

end Cert.KernelIdeal.KBn2

end
-- ==== Proof.KFinal.lean ====
import proofs.«420888_j18519898980762_3_alg».proof.Proof.KArgs
import proofs.«420888_j18519898980762_3_alg».proof.Proof.KStage0
import proofs.«420888_j18519898980762_3_alg».proof.Proof.KWalk
import proofs.«420888_j18519898980762_3_alg».proof.Proof.KAgg1
import proofs.«420888_j18519898980762_3_alg».proof.Proof.KAgg2
import proofs.«420888_j18519898980762_3_alg».proof.Proof.KAgg3
import proofs.«420888_j18519898980762_3_alg».proof.Proof.KBn1
import proofs.«420888_j18519898980762_3_alg».proof.Proof.KBn2
import proofs.«420888_j18519898980762_3_alg».proof.Proof.KBn3

noncomputable section

namespace Cert.KernelIdeal.KFinal

open Cert.KernelIdeal Cert.KernelIdeal.Gen Cert.KernelIdeal.KArgs Idealize.ShloMosaic Idealize.ShloMosaic.TcCoe
  Idealize.ShloMosaic.ValueIdx Idealize.SL.Sem

variable (m : (ℓ : Loc nD τ sig) → Buf (Elt Ideal) ℓ) (ρ : Dev nD → PrngReg) (c : Dev nD)

def act1 : Cert.Gcn.Act :=
  Cert.Gcn.relu (Cert.Gcn.bnK Cert.Gcn.d50kLit Cert.Gcn.epsLit (g1 m c) (be1 m c)
    (Cert.Gcn.zK (Cert.Gcn.srcRow (ei m c)) (Cert.Gcn.hit (ei m c)) (dv m c) (x m c) (w1 m c) (b1 m c)))

def act2 : Cert.Gcn.Act :=
  Cert.Gcn.relu (Cert.Gcn.bnK Cert.Gcn.d50kLit Cert.Gcn.epsLit (g2 m c) (be2 m c)
    (Cert.Gcn.zK (Cert.Gcn.srcRow (ei m c)) (Cert.Gcn.hit (ei m c)) (dv m c) (act1 m c) (w2 m c) (b2 m c)))

theorem zK_of_agg (ei : Cert.Gcn.EdgeIx) (dvv : Cert.Gcn.NodeVec) (a : Cert.Gcn.Act) (Wn : Cert.Gcn.Wt)
    (b : Cert.Gcn.Row) :
    (fun n c => Cert.Gcn.agg (Cert.Gcn.hit ei)
        (fun e c' => (fun n c' => Cert.Gcn.mm a Wn n c' * dvv n) (Cert.Gcn.srcRow ei e) c') n c * dvv n + b c)
      = Cert.Gcn.zK (Cert.Gcn.srcRow ei) (Cert.Gcn.hit ei) dvv a Wn b := rfl

theorem src_W2 (e : Fin 850000) : (W2 (F := Ideal) m ρ c (Proc.devRef .tc main_v3) : S850000.Idx → BitVec 32) (ix1 e) = Cert.Gcn.srcI (ei m c) e :=
  (congrFun (KWalk.v3_W2 m ρ c) (ix1 e)).trans (KStage0.W1_src m ρ c e)
theorem src_W7 (e : Fin 850000) : (W7 (F := Ideal) m ρ c (Proc.devRef .tc main_v3) : S850000.Idx → BitVec 32) (ix1 e) = Cert.Gcn.srcI (ei m c) e :=
  (congrFun (KWalk.v3_W7 m ρ c) (ix1 e)).trans (KStage0.W1_src m ρ c e)
theorem src_W12 (e : Fin 850000) : (W12 (F := Ideal) m ρ c (Proc.devRef .tc main_v3) : S850000.Idx → BitVec 32) (ix1 e) = Cert.Gcn.srcI (ei m c) e :=
  (congrFun (KWalk.v3_W12 m ρ c) (ix1 e)).trans (KStage0.W1_src m ρ c e)

theorem dst_W3 (e : Fin 850000) : (W3 (F := Ideal) m ρ c (Proc.devRef .tc main_v6) : S850000.Idx → BitVec 32) (ix1 e) = Cert.Gcn.dstI (ei m c) e :=
  (congrFun (KWalk.v6_W3 m ρ c) (ix1 e)).trans (KStage0.W1_dst m ρ c e)
theorem dst_W8 (e : Fin 850000) : (W8 (F := Ideal) m ρ c (Proc.devRef .tc main_v6) : S850000.Idx → BitVec 32) (ix1 e) = Cert.Gcn.dstI (ei m c) e :=
  (congrFun (KWalk.v6_W8 m ρ c) (ix1 e)).trans (KStage0.W1_dst m ρ c e)
theorem dst_W13 (e : Fin 850000) : (W13 (F := Ideal) m ρ c (Proc.devRef .tc main_v6) : S850000.Idx → BitVec 32) (ix1 e) = Cert.Gcn.dstI (ei m c) e :=
  (congrFun (KWalk.v6_W13 m ρ c) (ix1 e)).trans (KStage0.W1_dst m ρ c e)

theorem dinv_W4 (n : Fin 50000) : (W4 (F := Ideal) m ρ c (Proc.devRef .tc main_v12) : S50000x1.Idx → EReal) (ix2 n (0 : Fin 1)) = dv m c n :=
  (congrFun (KWalk.v12_W4 m ρ c) (ix2 n (0 : Fin 1))).trans (KStage0.W1_dinv m ρ c n)
theorem dinv_W9 (n : Fin 50000) : (W9 (F := Ideal) m ρ c (Proc.devRef .tc main_v12) : S50000x1.Idx → EReal) (ix2 n (0 : Fin 1)) = dv m c n :=
  (congrFun (KWalk.v12_W9 m ρ c) (ix2 n (0 : Fin 1))).trans (KStage0.W1_dinv m ρ c n)
theorem dinv_W14 (n : Fin 50000) : (W14 (F := Ideal) m ρ c (Proc.devRef .tc main_v12) : S50000x1.Idx → EReal) (ix2 n (0 : Fin 1)) = dv m c n :=
  (congrFun (KWalk.v12_W14 m ρ c) (ix2 n (0 : Fin 1))).trans (KStage0.W1_dinv m ρ c n)

theorem layer1_out (hsrc : Cert.Gcn.SrcInRange (ei m c)) (n : Fin 50000) (cc : Fin 64) :
    (W7 (F := Ideal) m ρ c (Proc.devRef .tc main_v30) : S50000x64.Idx → EReal) (ix2 n cc)
      = Cert.Gcn.mm (act1 m c) (w2 m c) n cc * dv m c n := by
  have hagg := KAgg1.agg1 m ρ c (ei m c) hsrc (fun n c' => Cert.Gcn.mm (x m c) (w1 m c) n c' * dv m c n)
    (KStage0.W2_hmm m ρ c) (src_W2 m ρ c) (dst_W3 m ρ c)
  have h := KBn1.bn1 m ρ c _ (dv m c) (b1 m c) (g1 m c) (be1 m c) (w2 m c) hagg (dinv_W4 m ρ c)
    (KAgg1.row1_b m ρ c (b1 m c) (fun cc => congrFun (KWalk.arg4_W3 m ρ c) (ix1 cc)))
    (KAgg1.row1_g m ρ c (g1 m c) (fun cc => congrFun (KWalk.arg5_W3 m ρ c) (ix1 cc)))
    (KAgg1.row1_be m ρ c (be1 m c) (fun cc => congrFun (KWalk.arg6_W3 m ρ c) (ix1 cc)))
    (fun k cc => congrFun (KWalk.arg7_W6 m ρ c) (ix2 k cc)) n cc
  rw [zK_of_agg] at h
  exact h

theorem layer2_out (hsrc : Cert.Gcn.SrcInRange (ei m c)) (n : Fin 50000) (cc : Fin 64) :
    (W12 (F := Ideal) m ρ c (Proc.devRef .tc main_v47) : S50000x64.Idx → EReal) (ix2 n cc)
      = Cert.Gcn.mm (act2 m c) (w3 m c) n cc * dv m c n := by
  have hagg := KAgg2.agg2 m ρ c (ei m c) hsrc (fun n c' => Cert.Gcn.mm (act1 m c) (w2 m c) n c' * dv m c n)
    (layer1_out m ρ c hsrc) (src_W7 m ρ c) (dst_W8 m ρ c)
  have h := KBn2.bn2 m ρ c _ (dv m c) (b2 m c) (g2 m c) (be2 m c) (w3 m c) hagg (dinv_W9 m ρ c)
    (KAgg2.row2_b m ρ c (b2 m c) (fun cc => congrFun (KWalk.arg8_W8 m ρ c) (ix1 cc)))
    (KAgg2.row2_g m ρ c (g2 m c) (fun cc => congrFun (KWalk.arg9_W8 m ρ c) (ix1 cc)))
    (KAgg2.row2_be m ρ c (be2 m c) (fun cc => congrFun (KWalk.arg10_W8 m ρ c) (ix1 cc)))
    (fun k cc => congrFun (KWalk.arg11_W11 m ρ c) (ix2 k cc)) n cc
  rw [zK_of_agg] at h
  exact h

theorem layer3_out (hsrc : Cert.Gcn.SrcInRange (ei m c)) (n : Fin 50000) (cc : Fin 64) :
    (W17 (F := Ideal) m ρ c (Proc.devRef .tc main_v64) : S50000x64.Idx → EReal) (ix2 n cc)
      = Cert.Gcn.bnK Cert.Gcn.d50kLit Cert.Gcn.epsLit (g3 m c) (be3 m c)
          (Cert.Gcn.zK (Cert.Gcn.srcRow (ei m c)) (Cert.Gcn.hit (ei m c)) (dv m c) (act2 m c) (w3 m c) (b3 m c)) n cc := by
  have hagg := KAgg3.agg3 m ρ c (ei m c) hsrc (fun n c' => Cert.Gcn.mm (act2 m c) (w3 m c) n c' * dv m c n)
    (layer2_out m ρ c hsrc) (src_W12 m ρ c) (dst_W13 m ρ c)
  have h := KBn3.bn3 m ρ c _ (dv m c) (b3 m c) (g3 m c) (be3 m c) hagg (dinv_W14 m ρ c)
    (KAgg3.row3_b m ρ c (b3 m c) (fun cc => congrFun (KWalk.arg12_W13 m ρ c) (ix1 cc)))
    (KAgg3.row3_g m ρ c (g3 m c) (fun cc => congrFun (KWalk.arg13_W13 m ρ c) (ix1 cc)))
    (KAgg3.row3_be m ρ c (be3 m c) (fun cc => congrFun (KWalk.arg14_W13 m ρ c) (ix1 cc))) n cc
  rw [zK_of_agg] at h
  exact h

theorem hfin_apply (hsrc : Cert.Gcn.SrcInRange (ei m c)) (n : Fin 50000) (cc : Fin 64) :
    (W17 (F := Ideal) m ρ c (Proc.devRef .tc main_v64) : S50000x64.Idx → EReal) (ix2 n cc)
      = Cert.Gcn.outK (Cert.Gcn.srcRow (ei m c)) (Cert.Gcn.hit (ei m c)) Cert.Gcn.oneLit Cert.Gcn.d50kLit
          Cert.Gcn.epsLit (x m c) (w1 m c) (b1 m c) (g1 m c) (be1 m c) (w2 m c) (b2 m c) (g2 m c) (be2 m c)
          (w3 m c) (b3 m c) (g3 m c) (be3 m c) n cc :=
  layer3_out m ρ c hsrc n cc

end Cert.KernelIdeal.KFinal

end
-- ==== Proof.RStage0.lean ====
import proofs.«420888_j18519898980762_3_alg».proof.Proof.RefRead
import proofs.«420888_j18519898980762_3_alg».proof.Proof.Views
import proofs.«420888_j18519898980762_3_alg».proof.Proof.LibScatterAdd
import Idealize.ShloMosaic.Lib.StableHlo.Predicate
import Idealize.ShloMosaic.Lib.Pipeline.Value
import Idealize.ShloMosaic.Lib.ValueIdx

open scoped BigOperators

noncomputable section

namespace Cert.ReferenceIdeal.RStage0

open Cert.ReferenceIdeal Cert.ReferenceIdeal.Read Idealize.ShloMosaic Idealize.ShloMosaic.ValueIdx
open Idealize.ShloMosaic.StableHlo.Predicate (ixP)

abbrev EdgeArg := (⟨S2x800000, .i32⟩ : BufTy).Contents (Elt Ideal)

theorem row0_apply (x1 : EdgeArg) (p : Fin 800000) :
    val_main_v2 (F := Ideal) x1 (ix1 p) = x1 (ix2 (0 : Fin 2) p) := by
  rw [val_main_v2_apply, val_main_v1_apply]
  refine congrArg x1 ?_
  funext a
  match a with
  | ⟨0, _⟩ => exact Fin.ext rfl
  | ⟨1, _⟩ => exact Fin.ext (Nat.mod_eq_of_lt p.isLt)

theorem row1_apply (x1 : EdgeArg) (p : Fin 800000) :
    val_main_v5 (F := Ideal) x1 (ix1 p) = x1 (ix2 (1 : Fin 2) p) := by
  rw [val_main_v5_apply, val_main_v4_apply]
  refine congrArg x1 ?_
  funext a
  match a with
  | ⟨0, _⟩ => exact Fin.ext rfl
  | ⟨1, _⟩ => exact Fin.ext (Nat.mod_eq_of_lt p.isLt)

theorem src_apply (x1 : EdgeArg) (e : Fin 850000) :
    val_main_v3 (F := Ideal) x1 (ix1 e) = Cert.Gcn.srcI x1 e := by
  unfold val_main_v3 Cert.Gcn.srcI
  by_cases h : e.val < 800000
  · rw [dif_pos h]
    refine (concatenate_pair_apply_left (t := S850000) (s₁ := S800000) (s₂ := S50000) (0 : Fin 1) _ _ _ (ix1 e) rfl (ix1 (⟨e.val, h⟩ : Fin 800000)) ?_).trans ?_
    · intro b
      match b with
      | ⟨0, _⟩ => rfl
    · exact row0_apply x1 ⟨e.val, h⟩
  · rw [dif_neg h]
    have he := e.isLt
    refine (concatenate_pair_apply_right (t := S850000) (s₁ := S800000) (s₂ := S50000) (0 : Fin 1) _ _ _ (ix1 e) rfl rfl
      (ix1 (⟨e.val - 800000, by omega⟩ : Fin 50000)) ?_ ?_).trans ?_
    · intro b hb
      exact absurd (Subsingleton.elim _ _) hb
    · show e.val - 800000 + 800000 = e.val
      omega
    · rfl

theorem dst_apply (x1 : EdgeArg) (e : Fin 850000) :
    val_main_v6 (F := Ideal) x1 (ix1 e) = Cert.Gcn.dstI x1 e := by
  unfold val_main_v6 Cert.Gcn.dstI
  by_cases h : e.val < 800000
  · rw [dif_pos h]
    refine (concatenate_pair_apply_left (t := S850000) (s₁ := S800000) (s₂ := S50000) (0 : Fin 1) _ _ _ (ix1 e) rfl (ix1 (⟨e.val, h⟩ : Fin 800000)) ?_).trans ?_
    · intro b
      match b with
      | ⟨0, _⟩ => rfl
    · exact row1_apply x1 ⟨e.val, h⟩
  · rw [dif_neg h]
    have he := e.isLt
    refine (concatenate_pair_apply_right (t := S850000) (s₁ := S800000) (s₂ := S50000) (0 : Fin 1) _ _ _ (ix1 e) rfl rfl
      (ix1 (⟨e.val - 800000, by omega⟩ : Fin 50000)) ?_ ?_).trans ?_
    · intro b hb
      exact absurd (Subsingleton.elim _ _) hb
    · show e.val - 800000 + 800000 = e.val
      omega
    · rfl

theorem scat_vec (x : (⟨S50000, .f32⟩ : BufTy).Contents (Elt Ideal)) (idx : (⟨S850000x1, .i32⟩ : BufTy).Contents (Elt Ideal))
    (upd : (⟨S850000, .f32⟩ : BufTy).Contents (Elt Ideal)) (n : Fin 50000) :
    Host.scatterAdd (F := Ideal) (φ := .f32) scatter_S50000_S850000x1_S850000_n_0_0_1 x idx upd (ix1 n)
      = x (ix1 n) + ∑ e ∈ Finset.univ.filter (fun e : Fin 850000 => (idx (ixP e)).toInt = (n.val : ℤ)), upd (ix1 e) :=
  Cert.LibScatterAdd.scatterAdd_vec_apply scatter_S50000_S850000x1_S850000_n_0_0_1 rfl rfl rfl rfl x idx upd n

theorem deg_scatter (x1 : EdgeArg) (n : Fin 50000) :
    val_main_v10 (F := Ideal) x1 (ix1 n) = val_main_v8 (F := Ideal) (ix1 n)
      + ∑ e ∈ Finset.univ.filter (fun e : Fin 850000 => (val_main_v9 (F := Ideal) x1 (ixP e)).toInt = (n.val : ℤ)),
          val_main_v7 (F := Ideal) (ix1 e) :=
  scat_vec (val_main_v8 (F := Ideal)) (val_main_v9 (F := Ideal) x1) (val_main_v7 (F := Ideal)) n

theorem zeros_apply (n : Fin 50000) : val_main_v8 (F := Ideal) (ix1 n) = 0 := by
  rw [val_main_v8_apply, val_main_cst_0_apply, Ideal.ofBits_def]
  exact Ideal.ofBits_zero_f32

theorem ones_apply (e : Fin 850000) : val_main_v7 (F := Ideal) (ix1 e) = Cert.Gcn.oneLit := by
  rw [val_main_v7_apply, val_main_cst_apply, Ideal.ofBits_def]
  rfl

theorem dstcol_apply (x1 : EdgeArg) (e : Fin 850000) :
    val_main_v9 (F := Ideal) x1 (ixP e) = Cert.Gcn.dstI x1 e := by
  have hi : idx_main_v9 (ixP e) = ix1 e := by
    funext a
    match a with
    | ⟨0, _⟩ => rfl
  rw [val_main_v9_apply, hi]
  exact dst_apply x1 e

theorem deg_def (x1 : EdgeArg) (n : Fin 50000) :
    Cert.Gcn.deg (Cert.Gcn.hit x1) Cert.Gcn.oneLit n
      = ∑ e ∈ Finset.univ.filter (fun e : Fin 850000 => Cert.Gcn.hit x1 e n), Cert.Gcn.oneLit := rfl

theorem deg_apply (x1 : EdgeArg) (n : Fin 50000) :
    val_main_v10 (F := Ideal) x1 (ix1 n) = Cert.Gcn.deg (Cert.Gcn.hit x1) Cert.Gcn.oneLit n := by
  refine ((deg_scatter x1 n).trans ?_).trans (deg_def x1 n).symm
  refine (congrArg (fun t => t + _) (zeros_apply n)).trans ?_
  refine (zero_add _).trans ?_
  refine Finset.sum_congr (Finset.filter_congr ?_) ?_
  · intro e _
    rw [dstcol_apply]
    exact Iff.rfl
  · intro e _
    exact ones_apply e

theorem dinv_apply (x1 : EdgeArg) (n : Fin 50000) :
    val_main_v11 (F := Ideal) x1 (ix1 n) = Cert.Gcn.dv x1 n := by
  unfold Cert.Gcn.dv Cert.Gcn.dinv
  rw [val_main_v11_apply, Ideal.hostUnary_rsqrt_def]
  exact congrArg Ideal.rsqrt (deg_apply x1 n)

theorem wsrc_apply (x1 : EdgeArg) (e : Fin 850000) :
    val_main_v17 (F := Ideal) x1 (ixP e) = Cert.Gcn.wrapI (Cert.Gcn.srcI x1 e) := by
  have hi : idx_main_v17 (ixP e) = ix1 e := by
    funext a
    match a with
    | ⟨0, _⟩ => rfl
  rw [val_main_v17_apply, hi, val_main_v16_apply, val_main_v13_apply, val_main_v15_apply, val_main_v12_apply,
    val_main_v14_apply, val_main_c_apply, val_main_c_1_apply, src_apply]
  rfl

theorem wdst_apply (x1 : EdgeArg) (e : Fin 850000) :
    val_main_v24 (F := Ideal) x1 (ixP e) = Cert.Gcn.wrapI (Cert.Gcn.dstI x1 e) := by
  have hi : idx_main_v24 (ixP e) = ix1 e := by
    funext a
    match a with
    | ⟨0, _⟩ => rfl
  rw [val_main_v24_apply, hi, val_main_v23_apply, val_main_v20_apply, val_main_v22_apply, val_main_v19_apply,
    val_main_v21_apply, val_main_c_2_apply, val_main_c_3_apply, dst_apply]
  rfl

theorem ix1_eq_ofFin {n : Nat} (p : Fin n) : (ix1 p : (⟨1, ![n]⟩ : Shape).Idx) = Shape.Idx.ofFin p :=
  Shape.Idx.eq_ofFin (ix1 p)

theorem take_vec (x : (⟨S50000, .f32⟩ : BufTy).Contents (Elt Ideal)) (idx : (⟨S850000x1, .i32⟩ : BufTy).Contents (Elt Ideal))
    (e : Fin 850000) :
    Host.gather gather_S50000_S850000x1_S850000_n_0_n_n_0_1_1 x idx (ix1 e)
      = x (ix1 (⟨min (idx (ixP e)).toInt.toNat (50000 - 1), by omega⟩ : Fin 50000)) :=
  (congrArg (Host.gather gather_S50000_S850000x1_S850000_n_0_n_n_0_1_1 x idx) (ix1_eq_ofFin e)).trans
    ((Idealize.ShloMosaic.StableHlo.Predicate.gather_take gather_S50000_S850000x1_S850000_n_0_n_n_0_1_1
      rfl rfl rfl rfl x idx e (by decide)).trans (congrArg x (ix1_eq_ofFin _).symm))

theorem dsrc_apply (x1 : EdgeArg) (e : Fin 850000) :
    val_main_v18 (F := Ideal) x1 (ix1 e) = Cert.Gcn.dv x1 (Cert.Gcn.srcRow x1 e) := by
  refine (take_vec (val_main_v11 (F := Ideal) x1) (val_main_v17 (F := Ideal) x1) e).trans ?_
  refine (dinv_apply x1 _).trans ?_
  refine congrArg (Cert.Gcn.dv x1) (Fin.ext ?_)
  show min ((val_main_v17 (F := Ideal) x1 (ixP e)).toInt.toNat) (50000 - 1)
    = min ((Cert.Gcn.wrapI (Cert.Gcn.srcI x1 e)).toInt.toNat) (50000 - 1)
  rw [wsrc_apply]

theorem ddst_apply (x1 : EdgeArg) (e : Fin 850000) :
    val_main_v25 (F := Ideal) x1 (ix1 e) = Cert.Gcn.dv x1 (Cert.Gcn.dstRow x1 e) := by
  refine (take_vec (val_main_v11 (F := Ideal) x1) (val_main_v24 (F := Ideal) x1) e).trans ?_
  refine (dinv_apply x1 _).trans ?_
  refine congrArg (Cert.Gcn.dv x1) (Fin.ext ?_)
  show min ((val_main_v24 (F := Ideal) x1 (ixP e)).toInt.toNat) (50000 - 1)
    = min ((Cert.Gcn.wrapI (Cert.Gcn.dstI x1 e)).toInt.toNat) (50000 - 1)
  rw [wdst_apply]

theorem norm_apply (x1 : EdgeArg) (e : Fin 850000) :
    val_main_v26 (F := Ideal) x1 (ix1 e)
      = Cert.Gcn.dv x1 (Cert.Gcn.srcRow x1 e) * Cert.Gcn.dv x1 (Cert.Gcn.dstRow x1 e) := by
  rw [val_main_v26_apply, Ideal.mulf_def, dsrc_apply, ddst_apply]

end Cert.ReferenceIdeal.RStage0

end
-- ==== Proof.RLayer1.lean ====
import proofs.«420888_j18519898980762_3_alg».proof.Proof.LibGatherRows
import proofs.«420888_j18519898980762_3_alg».proof.Proof.RStage0

noncomputable section

namespace Cert.ReferenceIdeal.RLayer1

open Cert.ReferenceIdeal Cert.ReferenceIdeal.Read Idealize.ShloMosaic Idealize.ShloMosaic.ValueIdx Cert.Gcn
open Idealize.ShloMosaic.StableHlo.Predicate (ixP)

variable (x0 : (⟨S50000x64, .f32⟩ : BufTy).Contents (Elt Ideal)) (x1 : (⟨S2x800000, .i32⟩ : BufTy).Contents (Elt Ideal))
  (x3 : (⟨S64x64, .f32⟩ : BufTy).Contents (Elt Ideal)) (x4 x5 x6 : (⟨S64, .f32⟩ : BufTy).Contents (Elt Ideal))

abbrev zOf : Act :=
  zR (srcRow x1) (dstRow x1) (hit x1) (dv x1) (actOf x0) (wtOf x3) (rowVec x4)

theorem dot_apply (n : Fin 50000) (c : Fin 64) :
    val_main_v27 (F := Ideal) x0 x3 (ix2 n c) = mm (actOf x0) (wtOf x3) n c := by
  rw [val_main_v27_apply]
  unfold mm actOf wtOf
  refine Finset.sum_congr rfl fun k _ => ?_
  have el : lidx_main_v27 (ix2 n c) k = ix2 n k := eq_ix2 _
  have er : ridx_main_v27 (ix2 n c) k = ix2 k c := eq_ix2 _
  rw [el, er]

-- A message is the product's row at its wrapped, clamped source, times the inverse square-root degrees of its two ends.
theorem msg_apply (e : Fin 850000) (c : Fin 64) :
    val_main_v37 (F := Ideal) x0 x1 x3 (ix2 e c)
      = mm (actOf x0) (wtOf x3) (srcRow x1 e) c * (dv x1 (srcRow x1 e) * dv x1 (dstRow x1 e)) := by
  have e1 : idx_main_v33 (ixP e) = ix1 e := eq_ix1 _
  have e2 : idx_main_v35 (idx_main_v36 (ix2 e c)) = ix1 e := eq_ix1 _
  have hw : val_main_v33 (F := Ideal) x1 (ixP e) = wrapI (srcI x1 e) := by
    rw [val_main_v33_apply, e1, val_main_v32_apply, val_main_v29_apply, val_main_v31_apply, val_main_v28_apply,
      val_main_v30_apply, RStage0.src_apply]
    rfl
  rw [val_main_v37_apply, val_main_v36_apply, val_main_v35_apply, e2, RStage0.norm_apply, Ideal.mulf_def]
  refine congrArg (fun t : EReal => t * (dv x1 (srcRow x1 e) * dv x1 (dstRow x1 e))) ?_
  unfold val_main_v34
  refine (Cert.LibGatherRows.gather_rows_apply gather_S50000x64_S850000x1_S850000x64_1_0_n_n_0_1_164 rfl rfl rfl rfl rfl _ _ e c (by decide)).trans
    ((dot_apply x0 x3 _ c).trans ?_)
  exact congrArg (fun r => mm (actOf x0) (wtOf x3) r c)
    (Fin.ext (congrArg (fun t : BitVec 32 => min t.toInt.toNat (50000 - 1)) hw))

theorem scat_rows (x : (⟨S50000x64, .f32⟩ : BufTy).Contents (Elt Ideal)) (idx : (⟨S850000x1, .i32⟩ : BufTy).Contents (Elt Ideal))
    (upd : (⟨S850000x64, .f32⟩ : BufTy).Contents (Elt Ideal)) (n : Fin 50000) (c : Fin 64) :
    Host.scatterAdd (F := Ideal) (φ := .f32) scatter_S50000x64_S850000x1_S850000x64_1_0_0_1 x idx upd (ix2 n c)
      = x (ix2 n c) + ∑ e ∈ Finset.univ.filter (fun e : Fin 850000 => (idx (ixP e)).toInt = (n.val : ℤ)), upd (ix2 e c) :=
  Cert.LibScatterAdd.scatterAdd_rows_apply scatter_S50000x64_S850000x1_S850000x64_1_0_0_1 rfl rfl rfl rfl x idx upd n c

-- Before normalisation: the messages whose destination word is the node, summed into zeros, plus the bias.
theorem z_apply (n : Fin 50000) (c : Fin 64) :
    val_main_v43 (F := Ideal) x0 x1 x3 x4 (ix2 n c) = zOf x0 x1 x3 x4 n c := by
  have eb : idx_main_v41 (idx_main_v42 (ix2 n c)) = ix1 c := eq_ix1 _
  rw [val_main_v43_apply, val_main_v42_apply, val_main_v41_apply, eb, Ideal.addf_def]
  unfold zOf zR agg rowVec
  refine congrArg (fun t : EReal => t + x4 (ix1 c)) ?_
  unfold val_main_v40
  generalize hu : val_main_v37 (F := Ideal) x0 x1 x3 = upd
  generalize hi : val_main_v39 (F := Ideal) x1 = col
  refine (scat_rows (val_main_v38 (F := Ideal)) col upd n c).trans ?_
  subst hu hi
  rw [val_main_v38_apply, val_main_cst_6_apply, Ideal.ofBits_def, Ideal.ofBits_zero_f32, zero_add]
  refine Finset.sum_congr (Finset.filter_congr fun e _ => ?_) (fun e _ => msg_apply x0 x1 x3 e c)
  have e9 : idx_main_v39 (ixP e) = ix1 e := eq_ix1 _
  rw [val_main_v39_apply, e9, RStage0.dst_apply]
  exact Iff.rfl

theorem mean_apply (c : Fin 64) :
    val_main_v46 (F := Ideal) x0 x1 x3 x4 (ix1 c) = meanOf d50kLit (zOf x0 x1 x3 x4) c := by
  rw [val_main_v46_apply, val_main_v44_apply, val_main_v45_apply, val_main_cst_7_apply, val_main_cst_8_apply,
    Ideal.hostDivf_def, Ideal.ofBits_def, Ideal.ofBits_def, Ideal.ofBits_zero_f32, zero_add]
  unfold meanOf
  refine congrArg (fun t : EReal => Ideal.div t d50kLit) (Finset.sum_congr rfl fun k _ => ?_)
  have ek : idx_main_v44 (ix1 c) k = ix2 k c := eq_ix2 _
  rw [ek]
  exact z_apply x0 x1 x3 x4 k c

theorem centred_apply (n : Fin 50000) (c : Fin 64) :
    val_main_v49 (F := Ideal) x0 x1 x3 x4 (ix2 n c)
      = zOf x0 x1 x3 x4 n c - meanOf d50kLit (zOf x0 x1 x3 x4) c := by
  have em : idx_main_v47 (idx_main_v48 (ix2 n c)) = ix1 c := eq_ix1 _
  rw [val_main_v49_apply, val_main_v48_apply, val_main_v47_apply, em, z_apply, mean_apply, Ideal.subf_def]

theorem var_apply (c : Fin 64) :
    val_main_v53 (F := Ideal) x0 x1 x3 x4 (ix1 c) = varR d50kLit (zOf x0 x1 x3 x4) c := by
  rw [val_main_v53_apply, val_main_v51_apply, val_main_v52_apply, val_main_cst_9_apply, val_main_cst_10_apply,
    Ideal.hostDivf_def, Ideal.ofBits_def, Ideal.ofBits_def, Ideal.ofBits_zero_f32, zero_add]
  unfold varR
  refine congrArg (fun t : EReal => Ideal.div t d50kLit) (Finset.sum_congr rfl fun k _ => ?_)
  have ek : idx_main_v51 (ix1 c) k = ix2 k c := eq_ix2 _
  rw [ek, val_main_v50_apply, centred_apply, Ideal.mulf_def]

-- The normalised layer before the cut at zero; the second centred array is the first one again.
theorem bn_apply (n : Fin 50000) (cc : Fin 64) :
    val_main_v68 (F := Ideal) x0 x1 x3 x4 x5 x6 (ix2 n cc)
      = bnR d50kLit epsLit (rowVec x5) (rowVec x6) (zOf x0 x1 x3 x4) n cc := by
  have eg : idx_main_v57 (idx_main_v58 (ix2 n cc)) = ix1 cc := eq_ix1 _
  have eb : idx_main_v66 (idx_main_v67 (ix2 n cc)) = ix1 cc := eq_ix1 _
  have er : idx_main_v63 (idx_main_v64 (ix2 n cc)) = ix1 cc := eq_ix1 _
  rw [val_main_v68_apply, val_main_v65_apply, val_main_v59_apply, val_main_v58_apply, val_main_v57_apply, eg,
    val_main_v67_apply, val_main_v66_apply, eb,
    show val_main_v56 (F := Ideal) x0 x1 x3 x4 = val_main_v49 (F := Ideal) x0 x1 x3 x4 from rfl, centred_apply,
    val_main_v64_apply, val_main_v63_apply, er, val_main_v62_apply, val_main_v61_apply, val_main_v60_apply,
    val_main_cst_11_apply, var_apply, Ideal.hostUnary_rsqrt_def, Ideal.addf_def, Ideal.addf_def, Ideal.mulf_def,
    Ideal.mulf_def, Ideal.ofBits_def]
  rfl

theorem layer1_apply (n : Fin 50000) (cc : Fin 64) :
    val_main_v69 (F := Ideal) x0 x1 x3 x4 x5 x6 (ix2 n cc)
      = Cert.Gcn.relu (Cert.Gcn.bnR Cert.Gcn.d50kLit Cert.Gcn.epsLit (Cert.Gcn.rowVec x5) (Cert.Gcn.rowVec x6) (Cert.Gcn.zR (Cert.Gcn.srcRow x1) (Cert.Gcn.dstRow x1) (Cert.Gcn.hit x1) (Cert.Gcn.dv x1) (Cert.Gcn.actOf x0) (Cert.Gcn.wtOf x3) (Cert.Gcn.rowVec x4))) n cc := by
  rw [val_main_v69_apply, val_main_call0_v0_apply, val_main_call0_cst_apply, bn_apply, Ideal.maximumf_def,
    Ideal.ofBits_def, Ideal.ofBits_zero_f32]
  rfl

end Cert.ReferenceIdeal.RLayer1

end
-- ==== Proof.RLayer3.lean ====
import proofs.«420888_j18519898980762_3_alg».proof.Proof.RLayer1

noncomputable section

namespace Cert.ReferenceIdeal.RLayer3

open Cert.ReferenceIdeal Cert.ReferenceIdeal.Read Cert.ReferenceIdeal.Gen Idealize.ShloMosaic Idealize.ShloMosaic.ValueIdx

variable (x0 : (⟨S50000x64, .f32⟩ : BufTy).Contents (Elt Ideal)) (x1 : (⟨S2x800000, .i32⟩ : BufTy).Contents (Elt Ideal))
  (x2 : (⟨S50000, .i32⟩ : BufTy).Contents (Elt Ideal))
  (x3 : (⟨S64x64, .f32⟩ : BufTy).Contents (Elt Ideal)) (x4 x5 x6 : (⟨S64, .f32⟩ : BufTy).Contents (Elt Ideal))
  (x7 : (⟨S64x64, .f32⟩ : BufTy).Contents (Elt Ideal)) (x8 x9 x10 : (⟨S64, .f32⟩ : BufTy).Contents (Elt Ideal))
  (x11 : (⟨S64x64, .f32⟩ : BufTy).Contents (Elt Ideal)) (x12 x13 x14 : (⟨S64, .f32⟩ : BufTy).Contents (Elt Ideal))

-- Layer 3 is layer 1's function, before the cut at zero, of layer 2's result.
theorem layer3_apply (n : Fin 50000) (cc : Fin 64) :
    val_main_v154 (F := Ideal) x0 x1 x3 x4 x5 x6 x7 x8 x9 x10 x11 x12 x13 x14 (ix2 n cc)
      = Cert.Gcn.bnR Cert.Gcn.d50kLit Cert.Gcn.epsLit (Cert.Gcn.rowVec x13) (Cert.Gcn.rowVec x14)
          (Cert.Gcn.zR (Cert.Gcn.srcRow x1) (Cert.Gcn.dstRow x1) (Cert.Gcn.hit x1) (Cert.Gcn.dv x1)
            (Cert.Gcn.actOf (val_main_v112 (F := Ideal) x0 x1 x3 x4 x5 x6 x7 x8 x9 x10)) (Cert.Gcn.wtOf x11) (Cert.Gcn.rowVec x12)) n cc :=
  RLayer1.bn_apply (val_main_v112 (F := Ideal) x0 x1 x3 x4 x5 x6 x7 x8 x9 x10) x1 x11 x12 x13 x14 n cc

def tailR (h : S50000x64.Idx → EReal) (bt : IVec S50000 32) : S500x64.Idx → EReal :=
  Host.divf (F := Ideal)
    (Host.scatterAdd (F := Ideal) scatter_S500x64_S50000x1_S50000x64_1_0_0_1
      (broadcastInDim S500x64 ![] bcast_S_S500x64 (constant (F := Ideal) S_ .f32 0x00000000#32))
      (broadcastInDim S50000x1 ![0] bcast_S50000_S50000x1_0 bt) h)
    (broadcastInDim S500x64 ![0, 1] bcast_S500x1_S500x64_0_1
      (broadcastInDim S500x1 ![0] bcast_S500_S500x1_0
        (maximumf (F := Ideal)
          (Host.scatterAdd (F := Ideal) scatter_S500_S50000x1_S50000_n_0_0_1
            (broadcastInDim S500 ![] bcast_S_S500 (constant (F := Ideal) S_ .f32 0x00000000#32))
            (broadcastInDim S50000x1 ![0] bcast_S50000_S50000x1_0 bt)
            (broadcastInDim S50000 ![] bcast_S_S50000 (constant (F := Ideal) S_ .f32 0x3F800000#32)))
          (broadcastInDim S500 ![] bcast_S_S500 (constant (F := Ideal) S_ .f32 0x3F800000#32)))))

theorem tail_eq :
    val_main_v166 (F := Ideal) x0 x1 x2 x3 x4 x5 x6 x7 x8 x9 x10 x11 x12 x13 x14
      = tailR (val_main_v154 (F := Ideal) x0 x1 x3 x4 x5 x6 x7 x8 x9 x10 x11 x12 x13 x14) x2 := rfl

end Cert.ReferenceIdeal.RLayer3

end
-- ==== Proof.RLayer2.lean ====
import proofs.«420888_j18519898980762_3_alg».proof.Proof.RLayer1

noncomputable section

namespace Cert.ReferenceIdeal.RLayer2

open Cert.ReferenceIdeal Cert.ReferenceIdeal.Read Idealize.ShloMosaic Idealize.ShloMosaic.ValueIdx

-- Layer 2 is layer 1's function of layer 1's result: the same operations in the same order.
theorem layer2_apply (x0 : (⟨S50000x64, .f32⟩ : BufTy).Contents (Elt Ideal)) (x1 : (⟨S2x800000, .i32⟩ : BufTy).Contents (Elt Ideal)) (x3 : (⟨S64x64, .f32⟩ : BufTy).Contents (Elt Ideal)) (x4 x5 x6 : (⟨S64, .f32⟩ : BufTy).Contents (Elt Ideal)) (x7 : (⟨S64x64, .f32⟩ : BufTy).Contents (Elt Ideal)) (x8 x9 x10 : (⟨S64, .f32⟩ : BufTy).Contents (Elt Ideal)) (n : Fin 50000) (cc : Fin 64) :
    val_main_v112 (F := Ideal) x0 x1 x3 x4 x5 x6 x7 x8 x9 x10 (ix2 n cc)
      = Cert.Gcn.relu (Cert.Gcn.bnR Cert.Gcn.d50kLit Cert.Gcn.epsLit (Cert.Gcn.rowVec x9) (Cert.Gcn.rowVec x10)
          (Cert.Gcn.zR (Cert.Gcn.srcRow x1) (Cert.Gcn.dstRow x1) (Cert.Gcn.hit x1) (Cert.Gcn.dv x1)
            (Cert.Gcn.actOf (val_main_v69 (F := Ideal) x0 x1 x3 x4 x5 x6)) (Cert.Gcn.wtOf x7) (Cert.Gcn.rowVec x8))) n cc :=
  RLayer1.layer1_apply (val_main_v69 (F := Ideal) x0 x1 x3 x4 x5 x6) x1 x7 x8 x9 x10 n cc

end Cert.ReferenceIdeal.RLayer2

end
-- ==== Proof.RFinal.lean ====
import proofs.«420888_j18519898980762_3_alg».proof.Proof.Views
import proofs.«420888_j18519898980762_3_alg».proof.Proof.RefRead
import proofs.«420888_j18519898980762_3_alg».proof.Proof.RLayer1
import proofs.«420888_j18519898980762_3_alg».proof.Proof.RLayer2
import proofs.«420888_j18519898980762_3_alg».proof.Proof.RLayer3

noncomputable section

namespace Cert.ReferenceIdeal.RFinal

open Cert.ReferenceIdeal Cert.ReferenceIdeal.Read Idealize.ShloMosaic Idealize.ShloMosaic.ValueIdx

theorem hfinR_apply (x0 : (⟨S50000x64, .f32⟩ : BufTy).Contents (Elt Ideal)) (x1 : (⟨S2x800000, .i32⟩ : BufTy).Contents (Elt Ideal))
    (x3 : (⟨S64x64, .f32⟩ : BufTy).Contents (Elt Ideal)) (x4 x5 x6 : (⟨S64, .f32⟩ : BufTy).Contents (Elt Ideal))
    (x7 : (⟨S64x64, .f32⟩ : BufTy).Contents (Elt Ideal)) (x8 x9 x10 : (⟨S64, .f32⟩ : BufTy).Contents (Elt Ideal))
    (x11 : (⟨S64x64, .f32⟩ : BufTy).Contents (Elt Ideal)) (x12 x13 x14 : (⟨S64, .f32⟩ : BufTy).Contents (Elt Ideal))
    (n : Fin 50000) (cc : Fin 64) :
    val_main_v154 (F := Ideal) x0 x1 x3 x4 x5 x6 x7 x8 x9 x10 x11 x12 x13 x14 (ix2 n cc)
      = Cert.Gcn.outR (Cert.Gcn.srcRow x1) (Cert.Gcn.dstRow x1) (Cert.Gcn.hit x1) Cert.Gcn.oneLit Cert.Gcn.d50kLit Cert.Gcn.epsLit
          (Cert.Gcn.actOf x0) (Cert.Gcn.wtOf x3) (Cert.Gcn.rowVec x4) (Cert.Gcn.rowVec x5) (Cert.Gcn.rowVec x6)
          (Cert.Gcn.wtOf x7) (Cert.Gcn.rowVec x8) (Cert.Gcn.rowVec x9) (Cert.Gcn.rowVec x10)
          (Cert.Gcn.wtOf x11) (Cert.Gcn.rowVec x12) (Cert.Gcn.rowVec x13) (Cert.Gcn.rowVec x14) n cc := by

  have h1 : Cert.Gcn.actOf (val_main_v69 (F := Ideal) x0 x1 x3 x4 x5 x6)
      = Cert.Gcn.relu (Cert.Gcn.bnR Cert.Gcn.d50kLit Cert.Gcn.epsLit (Cert.Gcn.rowVec x5) (Cert.Gcn.rowVec x6) (Cert.Gcn.zR (Cert.Gcn.srcRow x1) (Cert.Gcn.dstRow x1) (Cert.Gcn.hit x1) (Cert.Gcn.dv x1) (Cert.Gcn.actOf x0) (Cert.Gcn.wtOf x3) (Cert.Gcn.rowVec x4))) := by
    funext m k
    exact RLayer1.layer1_apply x0 x1 x3 x4 x5 x6 m k

  have h2 : Cert.Gcn.actOf (val_main_v112 (F := Ideal) x0 x1 x3 x4 x5 x6 x7 x8 x9 x10)
      = Cert.Gcn.relu (Cert.Gcn.bnR Cert.Gcn.d50kLit Cert.Gcn.epsLit (Cert.Gcn.rowVec x9) (Cert.Gcn.rowVec x10) (Cert.Gcn.zR (Cert.Gcn.srcRow x1) (Cert.Gcn.dstRow x1) (Cert.Gcn.hit x1) (Cert.Gcn.dv x1) (Cert.Gcn.relu (Cert.Gcn.bnR Cert.Gcn.d50kLit Cert.Gcn.epsLit (Cert.Gcn.rowVec x5) (Cert.Gcn.rowVec x6) (Cert.Gcn.zR (Cert.Gcn.srcRow x1) (Cert.Gcn.dstRow x1) (Cert.Gcn.hit x1) (Cert.Gcn.dv x1) (Cert.Gcn.actOf x0) (Cert.Gcn.wtOf x3) (Cert.Gcn.rowVec x4)))) (Cert.Gcn.wtOf x7) (Cert.Gcn.rowVec x8))) := by
    funext m k
    refine (RLayer2.layer2_apply x0 x1 x3 x4 x5 x6 x7 x8 x9 x10 m k).trans ?_
    rw [h1]

  refine (RLayer3.layer3_apply x0 x1 x3 x4 x5 x6 x7 x8 x9 x10 x11 x12 x13 x14 n cc).trans ?_
  rw [h2]
  unfold Cert.Gcn.outR Cert.Gcn.dv
  rfl

end Cert.ReferenceIdeal.RFinal

end
-- ==== Proof.MathBn.lean ====
import proofs.«420888_j18519898980762_3_alg».proof.Proof.Model
import Mathlib.Data.EReal.Operations
import Mathlib.Algebra.BigOperators.Ring.Finset
import Mathlib.Algebra.Order.BigOperators.Group.Finset
import Mathlib.Tactic.Ring
import Mathlib.Tactic.NormNum

noncomputable section

namespace Cert.Gcn

open Idealize.ShloMosaic

theorem IsR.add {x y : EReal} (hx : IsR x) (hy : IsR y) : IsR (x + y) := by
  obtain ⟨a, rfl⟩ := hx
  obtain ⟨b, rfl⟩ := hy
  exact ⟨a + b, (EReal.coe_add a b).symm⟩

theorem IsR.sub {x y : EReal} (hx : IsR x) (hy : IsR y) : IsR (x - y) := by
  obtain ⟨a, rfl⟩ := hx
  obtain ⟨b, rfl⟩ := hy
  exact ⟨a - b, (EReal.coe_sub a b).symm⟩

theorem IsR.mul {x y : EReal} (hx : IsR x) (hy : IsR y) : IsR (x * y) := by
  obtain ⟨a, rfl⟩ := hx
  obtain ⟨b, rfl⟩ := hy
  exact ⟨a * b, (EReal.coe_mul a b).symm⟩

theorem IsR.max0 {x : EReal} (hx : IsR x) : IsR (max x 0) := by
  obtain ⟨a, rfl⟩ := hx
  rcases le_total 0 a with h | h
  · exact ⟨a, max_eq_left (EReal.coe_nonneg.2 h)⟩
  · exact ⟨0, (max_eq_right (EReal.coe_nonpos.2 h)).trans EReal.coe_zero.symm⟩

theorem IsR.sum {ι : Type} (s : Finset ι) (f : ι → EReal) (h : ∀ i ∈ s, IsR (f i)) :
    IsR (∑ i ∈ s, f i) := by
  classical
  induction s using Finset.induction_on with
  | empty => exact ⟨0, by rw [Finset.sum_empty, EReal.coe_zero]⟩
  | insert a s ha ih =>
    rw [Finset.sum_insert ha]
    exact IsR.add (h a (Finset.mem_insert_self a s))
      (ih (fun i hi => h i (Finset.mem_insert_of_mem hi)))

private theorem coe_sum {ι : Type} (s : Finset ι) (f : ι → ℝ) :
    ∑ i ∈ s, ((f i : ℝ) : EReal) = ((∑ i ∈ s, f i : ℝ) : EReal) := by
  classical
  induction s using Finset.induction_on with
  | empty => rw [Finset.sum_empty, Finset.sum_empty, EReal.coe_zero]
  | insert a s ha ih => rw [Finset.sum_insert ha, Finset.sum_insert ha, ih, EReal.coe_add]

private theorem sum_sq_dev (x : Fin 50000 → ℝ) (m : ℝ) :
    ∑ n : Fin 50000, (x n - m) * (x n - m)
      = (∑ n : Fin 50000, x n * x n) - 2 * m * (∑ n : Fin 50000, x n) + 50000 * (m * m) := by
  have h : ∀ n : Fin 50000, (x n - m) * (x n - m) = x n * x n - 2 * m * x n + m * m :=
    fun n => by ring
  simp only [h, Finset.sum_add_distrib, Finset.sum_sub_distrib, ← Finset.mul_sum, Finset.sum_const,
    Finset.card_univ, Fintype.card_fin, nsmul_eq_mul, Nat.cast_ofNat]
  ring

private theorem var_identity (x : Fin 50000 → ℝ) :
    (∑ n : Fin 50000, x n * x n) * (1 / 50000)
        - (∑ n : Fin 50000, x n) * (1 / 50000) * ((∑ n : Fin 50000, x n) * (1 / 50000))
      = (∑ n : Fin 50000, (x n - (∑ n : Fin 50000, x n) * (1 / 50000))
          * (x n - (∑ n : Fin 50000, x n) * (1 / 50000))) * (1 / 50000) := by
  rw [sum_sq_dev]
  ring

private theorem var_nonneg (x : Fin 50000 → ℝ) (m : ℝ) :
    0 ≤ (∑ n : Fin 50000, (x n - m) * (x n - m)) * (1 / 50000) :=
  mul_nonneg (Finset.sum_nonneg fun n _ => mul_self_nonneg (x n - m)) (by norm_num)

private theorem fifty_ne : (50000 : ℝ) ≠ 0 := by norm_num

private theorem meanOf_coe (zr : Fin 50000 → Fin 64 → ℝ) (c : Fin 64) :
    meanOf ((50000 : ℝ) : EReal) (fun n c => ((zr n c : ℝ) : EReal)) c
      = (((∑ n : Fin 50000, zr n c) * (1 / 50000) : ℝ) : EReal) := by
  show Ideal.div (∑ n : Fin 50000, ((zr n c : ℝ) : EReal)) ((50000 : ℝ) : EReal) = _
  rw [Ideal.div_coe fifty_ne, coe_sum, ← EReal.coe_mul]

private theorem varR_coe (zr : Fin 50000 → Fin 64 → ℝ) (c : Fin 64) :
    varR ((50000 : ℝ) : EReal) (fun n c => ((zr n c : ℝ) : EReal)) c
      = (((∑ n : Fin 50000, (zr n c - (∑ n : Fin 50000, zr n c) * (1 / 50000))
            * (zr n c - (∑ n : Fin 50000, zr n c) * (1 / 50000))) * (1 / 50000) : ℝ) : EReal) := by
  show Ideal.div (∑ n : Fin 50000,
      (((zr n c : ℝ) : EReal) - meanOf ((50000 : ℝ) : EReal) (fun n c => ((zr n c : ℝ) : EReal)) c)
        * (((zr n c : ℝ) : EReal) - meanOf ((50000 : ℝ) : EReal) (fun n c => ((zr n c : ℝ) : EReal)) c))
      ((50000 : ℝ) : EReal) = _
  rw [meanOf_coe, Ideal.div_coe fifty_ne]
  simp only [← EReal.coe_sub, ← EReal.coe_mul]
  rw [coe_sum, ← EReal.coe_mul]

private theorem varK_coe (zr : Fin 50000 → Fin 64 → ℝ) (c : Fin 64) :
    varK ((50000 : ℝ) : EReal) (fun n c => ((zr n c : ℝ) : EReal)) c
      = (((∑ n : Fin 50000, (zr n c - (∑ n : Fin 50000, zr n c) * (1 / 50000))
            * (zr n c - (∑ n : Fin 50000, zr n c) * (1 / 50000))) * (1 / 50000) : ℝ) : EReal) := by
  show max (Ideal.div (∑ n : Fin 50000, ((zr n c : ℝ) : EReal) * ((zr n c : ℝ) : EReal))
        ((50000 : ℝ) : EReal)
      - meanOf ((50000 : ℝ) : EReal) (fun n c => ((zr n c : ℝ) : EReal)) c
        * meanOf ((50000 : ℝ) : EReal) (fun n c => ((zr n c : ℝ) : EReal)) c) 0 = _
  rw [meanOf_coe, Ideal.div_coe fifty_ne]
  simp only [← EReal.coe_mul]
  rw [coe_sum, ← EReal.coe_mul, ← EReal.coe_sub, var_identity (fun n => zr n c)]
  exact max_eq_left (EReal.coe_nonneg.2 (var_nonneg (fun n => zr n c) _))

theorem bnK_eq_bnR (d50k eps : EReal) (hd : d50k = ((50000 : ℝ) : EReal))
    (heps : ∃ r : ℝ, 0 < r ∧ eps = (r : EReal)) (g beta : Row) (z : Act)
    (hz : ∀ n c, IsR (z n c)) : bnK d50k eps g beta z = bnR d50k eps g beta z := by
  subst hd
  choose zr hzr using hz
  have hz' : z = fun n c => ((zr n c : ℝ) : EReal) := funext fun n => funext fun c => hzr n c
  subst hz'
  have hv : varK ((50000 : ℝ) : EReal) (fun n c => ((zr n c : ℝ) : EReal))
      = varR ((50000 : ℝ) : EReal) (fun n c => ((zr n c : ℝ) : EReal)) :=
    funext fun c => (varK_coe zr c).trans (varR_coe zr c).symm
  unfold bnK bnR
  rw [hv]

private theorem rsqrt_isR {v : ℝ} (hv : 0 < v) : IsR (Ideal.rsqrt (v : EReal)) :=
  ⟨(Real.sqrt v)⁻¹, by rw [Ideal.rsqrt_coe, if_neg (not_lt.2 hv.le), if_neg hv.ne']⟩

theorem bnR_isR (d50k eps : EReal) (hd : d50k = ((50000 : ℝ) : EReal))
    (heps : ∃ r : ℝ, 0 < r ∧ eps = (r : EReal)) (g beta : Row) (hg : ∀ c, IsR (g c))
    (hbeta : ∀ c, IsR (beta c)) (z : Act) (hz : ∀ n c, IsR (z n c)) :
    ∀ n c, IsR (bnR d50k eps g beta z n c) := by
  intro n c
  obtain ⟨r, hr, rfl⟩ := heps
  subst hd
  have hzn : IsR (z n c) := hz n c
  choose zr hzr using hz
  have hz' : z = fun n c => ((zr n c : ℝ) : EReal) := funext fun n => funext fun c => hzr n c
  subst hz'
  show IsR (g c * (((zr n c : ℝ) : EReal)
      - meanOf ((50000 : ℝ) : EReal) (fun n c => ((zr n c : ℝ) : EReal)) c)
    * Ideal.rsqrt (varR ((50000 : ℝ) : EReal) (fun n c => ((zr n c : ℝ) : EReal)) c + (r : EReal))
    + beta c)
  rw [meanOf_coe, varR_coe, ← EReal.coe_add]
  exact IsR.add (IsR.mul (IsR.mul (hg c) (IsR.sub ⟨_, rfl⟩ ⟨_, rfl⟩))
    (rsqrt_isR (add_pos_of_nonneg_of_pos (var_nonneg (fun n => zr n c) _) hr))) (hbeta c)

theorem relu_isR (y : Act) (hy : ∀ n c, IsR (y n c)) : ∀ n c, IsR (relu y n c) :=
  fun n c => IsR.max0 (hy n c)

end Cert.Gcn

end
-- ==== Proof.MathLayer.lean ====
import proofs.«420888_j18519898980762_3_alg».proof.Proof.Model
import proofs.«420888_j18519898980762_3_alg».proof.Proof.MathBn
import Mathlib.Data.EReal.Basic
import Mathlib.Algebra.BigOperators.Group.Finset.Basic

namespace Cert.Gcn

open Idealize.ShloMosaic

theorem sum_mul_isR {ι : Type} [DecidableEq ι] (s : Finset ι) (f : ι → EReal) (q : EReal)
    (hf : ∀ i ∈ s, IsR (f i)) (hq : IsR q) : (∑ i ∈ s, f i) * q = ∑ i ∈ s, f i * q := by
  induction s using Finset.induction_on with
  | empty => rw [Finset.sum_empty, Finset.sum_empty, zero_mul]
  | insert a s ha ih =>
    have hs : ∀ i ∈ s, IsR (f i) := fun i hi => hf i (Finset.mem_insert_of_mem hi)
    obtain ⟨x, hx⟩ := hf a (Finset.mem_insert_self a s)
    obtain ⟨y, hy⟩ := IsR.sum s f hs
    obtain ⟨r, hr⟩ := hq
    rw [Finset.sum_insert ha, Finset.sum_insert ha, ← ih hs, hx, hy, hr]
    calc ((x : EReal) + (y : EReal)) * (r : EReal)
        = (((x + y) * r : ℝ) : EReal) := by rw [EReal.coe_mul, EReal.coe_add]
      _ = ((x * r + y * r : ℝ) : EReal) := by rw [add_mul]
      _ = (x : EReal) * (r : EReal) + (y : EReal) * (r : EReal) := by
          rw [EReal.coe_add, EReal.coe_mul, EReal.coe_mul]

section

variable (srcRow dstRow : Fin 850000 → Fin 50000) (hit : Fin 850000 → Fin 50000 → Prop)
  [∀ e n, Decidable (hit e n)]

theorem dinv_isR (one : EReal) (hone : one = 1) (hself : ∀ n, ∃ e, hit e n) :
    ∀ n, IsR (dinv hit one n) := by
  intro n
  subst hone
  obtain ⟨e, he⟩ := hself n
  have hpos : 0 < (Finset.univ.filter (fun e => hit e n)).card :=
    Finset.card_pos.2 ⟨e, Finset.mem_filter.2 ⟨Finset.mem_univ e, he⟩⟩
  have hposR : (0 : ℝ) < (((Finset.univ.filter (fun e => hit e n)).card : ℕ) : ℝ) :=
    Nat.cast_pos.2 hpos
  have hdeg : deg hit 1 n = ((((Finset.univ.filter (fun e => hit e n)).card : ℕ) : ℝ) : EReal) := by
    unfold deg
    rw [Finset.sum_const, nsmul_one]
    exact EReal.coe_natCast.symm
  unfold dinv
  rw [hdeg, Ideal.rsqrt_coe, if_neg (not_lt.2 hposR.le), if_neg hposR.ne']
  exact ⟨_, rfl⟩

theorem mm_isR (a : Act) (W : Wt) (ha : ∀ n k, IsR (a n k)) (hW : ∀ k c, IsR (W k c)) :
    ∀ n c, IsR (mm a W n c) := by
  intro n c
  unfold mm
  exact IsR.sum Finset.univ (fun k => a n k * W k c) (fun k _ => IsR.mul (ha n k) (hW k c))

theorem zK_eq_zR (hdst : ∀ e n, hit e n → dstRow e = n) (dv : NodeVec) (hdv : ∀ n, IsR (dv n))
    (a : Act) (W : Wt) (b : Row) (ha : ∀ n k, IsR (a n k)) (hW : ∀ k c, IsR (W k c)) :
    zK srcRow hit dv a W b = zR srcRow dstRow hit dv a W b := by
  funext n c
  unfold zK zR agg
  refine congrArg (· + b c) ?_
  refine (sum_mul_isR (Finset.univ.filter (fun e => hit e n))
    (fun e => mm a W (srcRow e) c * dv (srcRow e)) (dv n)
    (fun e _ => IsR.mul (mm_isR a W ha hW (srcRow e) c) (hdv (srcRow e))) (hdv n)).trans ?_
  refine Finset.sum_congr rfl (fun e he => ?_)
  have hd : dstRow e = n := hdst e n (Finset.mem_filter.1 he).2
  show mm a W (srcRow e) c * dv (srcRow e) * dv n
    = mm a W (srcRow e) c * (dv (srcRow e) * dv (dstRow e))
  rw [hd]
  exact mul_assoc _ _ _

theorem zR_isR (dv : NodeVec) (hdv : ∀ n, IsR (dv n)) (a : Act) (W : Wt) (b : Row)
    (ha : ∀ n k, IsR (a n k)) (hW : ∀ k c, IsR (W k c)) (hb : ∀ c, IsR (b c)) :
    ∀ n c, IsR (zR srcRow dstRow hit dv a W b n c) := by
  intro n c
  unfold zR agg
  exact IsR.add (IsR.sum _ _ (fun e _ =>
    IsR.mul (mm_isR a W ha hW (srcRow e) c) (IsR.mul (hdv (srcRow e)) (hdv (dstRow e))))) (hb c)

theorem outK_eq_outR (one d50k eps : EReal) (hone : one = 1) (hd : d50k = ((50000 : ℝ) : EReal))
    (heps : ∃ r : ℝ, 0 < r ∧ eps = (r : EReal)) (hself : ∀ n, ∃ e, hit e n)
    (hdst : ∀ e n, hit e n → dstRow e = n)
    (x : Act) (W1 : Wt) (b1 g1 be1 : Row) (W2 : Wt) (b2 g2 be2 : Row) (W3 : Wt) (b3 g3 be3 : Row)
    (hx : ∀ n k, IsR (x n k))
    (hW1 : ∀ k c, IsR (W1 k c)) (hb1 : ∀ c, IsR (b1 c)) (hg1 : ∀ c, IsR (g1 c))
    (hbe1 : ∀ c, IsR (be1 c))
    (hW2 : ∀ k c, IsR (W2 k c)) (hb2 : ∀ c, IsR (b2 c)) (hg2 : ∀ c, IsR (g2 c))
    (hbe2 : ∀ c, IsR (be2 c))
    (hW3 : ∀ k c, IsR (W3 k c)) (hb3 : ∀ c, IsR (b3 c)) (hg3 : ∀ c, IsR (g3 c))
    (hbe3 : ∀ c, IsR (be3 c)) :
    outK srcRow hit one d50k eps x W1 b1 g1 be1 W2 b2 g2 be2 W3 b3 g3 be3
      = outR srcRow dstRow hit one d50k eps x W1 b1 g1 be1 W2 b2 g2 be2 W3 b3 g3 be3 := by
  have hdv : ∀ n, IsR (dinv hit one n) := dinv_isR hit one hone hself

  have r1 := zR_isR srcRow dstRow hit (dinv hit one) hdv x W1 b1 hx hW1 hb1
  have a1 := relu_isR _ (bnR_isR d50k eps hd heps g1 be1 hg1 hbe1 _ r1)

  have r2 := zR_isR srcRow dstRow hit (dinv hit one) hdv _ W2 b2 a1 hW2 hb2
  have a2 := relu_isR _ (bnR_isR d50k eps hd heps g2 be2 hg2 hbe2 _ r2)

  have r3 := zR_isR srcRow dstRow hit (dinv hit one) hdv _ W3 b3 a2 hW3 hb3
  unfold outK outR
  rw [zK_eq_zR srcRow dstRow hit hdst (dinv hit one) hdv x W1 b1 hx hW1,
    bnK_eq_bnR d50k eps hd heps g1 be1 _ r1,
    zK_eq_zR srcRow dstRow hit hdst (dinv hit one) hdv _ W2 b2 a1 hW2,
    bnK_eq_bnR d50k eps hd heps g2 be2 _ r2,
    zK_eq_zR srcRow dstRow hit hdst (dinv hit one) hdv _ W3 b3 a2 hW3,
    bnK_eq_bnR d50k eps hd heps g3 be3 _ r3]

end

end Cert.Gcn
-- ==== Proof.IndexFacts.lean ====
import proofs.«420888_j18519898980762_3_alg».proof.Proof.Index
import Idealize.ShloMosaic.Lib.StableHlo.Predicate

namespace Cert.Gcn

open Idealize.ShloMosaic Idealize.ShloMosaic.ValueIdx

theorem wrapI_of_nonneg (v : BitVec 32) (h : 0 ≤ v.toInt) : wrapI v = v := by
  have hs : v.slt 0#32 = false := by
    have h0 : (0#32 : BitVec 32).toInt = 0 := by decide
    simp only [BitVec.slt, h0, decide_eq_false_iff_not]
    omega
  unfold wrapI Scalar.select IntOp.cmpi
  simp only [hs]
  exact if_neg (by decide)

theorem rowOf_of_toInt (v : BitVec 32) (n : Fin 50000) (h : v.toInt = (n.val : ℤ)) : rowOf v = n := by
  have hw : wrapI v = v := wrapI_of_nonneg v (by omega)
  apply Fin.ext
  show min (wrapI v).toInt.toNat (50000 - 1) = n.val
  rw [hw, h]
  have := n.isLt
  omega

def selfMsg (n : Fin 50000) : Fin 850000 := ⟨800000 + n.val, by have := n.isLt; omega⟩

theorem selfMsg_val (n : Fin 50000) : (selfMsg n).val = 800000 + n.val := rfl

theorem dstI_selfMsg (ei : EdgeIx) (n : Fin 50000) : dstI ei (selfMsg n) = BitVec.ofNat 32 n.val := by
  have hv := selfMsg_val n
  have hn : ¬ ((selfMsg n).val < 800000) := by omega
  have hk : (selfMsg n).val - 800000 = n.val := by omega
  unfold dstI
  rw [dif_neg hn, hk]

theorem hit_dstRow (ei : EdgeIx) : ∀ (e : Fin 850000) (n : Fin 50000), hit ei e n → dstRow ei e = n := by
  intro e n h
  exact rowOf_of_toInt (dstI ei e) n h

theorem hit_self (ei : EdgeIx) : ∀ n : Fin 50000, ∃ e : Fin 850000, hit ei e n := by
  intro n
  refine ⟨selfMsg n, ?_⟩
  show (dstI ei (selfMsg n)).toInt = (n.val : ℤ)
  rw [dstI_selfMsg]
  exact StableHlo.Predicate.toInt_ofNat_small n.val (by have := n.isLt; omega)

theorem srcInRange_of (ei : EdgeIx)
    (h : ∀ e' : Fin 800000, 0 ≤ (ei (Idealize.ShloMosaic.ValueIdx.ix2 (0 : Fin 2) e')).toInt ∧
      (ei (Idealize.ShloMosaic.ValueIdx.ix2 (0 : Fin 2) e')).toInt < 50000) : SrcInRange ei := by
  intro e
  by_cases he : e.val < 800000
  · have hs : srcI ei e = ei (ix2 (0 : Fin 2) (⟨e.val, he⟩ : Fin 800000)) := by
      unfold srcI; rw [dif_pos he]
    obtain ⟨h0, h1⟩ := h ⟨e.val, he⟩
    rw [hs, wrapI_of_nonneg _ h0]
    exact ⟨h0, by omega⟩
  · have hs : srcI ei e = BitVec.ofNat 32 (e.val - 800000) := by
      unfold srcI; rw [dif_neg he]
    have hlt := e.isLt
    have ht : (BitVec.ofNat 32 (e.val - 800000)).toInt = ((e.val - 800000 : ℕ) : ℤ) :=
      StableHlo.Predicate.toInt_ofNat_small (e.val - 800000) (by omega)
    rw [hs, wrapI_of_nonneg _ (by rw [ht]; omega), ht]
    omega

end Cert.Gcn
-- ==== Proof.PreFacts.lean ====
import proofs.«420888_j18519898980762_3_alg».proof.Defs
import proofs.«420888_j18519898980762_3_alg».proof.Proof.Gen.Pre_finite_inputs
import proofs.«420888_j18519898980762_3_alg».proof.Proof.Views
import Idealize.ShloMosaic.Lib.ReduceAll
import Idealize.ShloMosaic.Lib.StableHlo.Predicate
import Idealize.ShloMosaic.Lib.ValueLayout

noncomputable section

namespace Cert.PreFacts

open Idealize.ShloMosaic Idealize.ShloMosaic.ValueIdx
open Cert.Pre_finite_inputs (S_ S64 S64x64 S50000x64 S2x800000 S1x800000 S800000 S50000)

instance : Subsingleton S_.Idx := ⟨fun a b => funext fun d => d.elim0⟩

theorem oneLit_eq : Cert.Gcn.oneLit = 1 := by
  unfold Cert.Gcn.oneLit
  simp [Ideal.ofBits, Ideal.ieee, -EReal.coe_mul]; norm_num

theorem d50kLit_eq : Cert.Gcn.d50kLit = ((50000 : ℝ) : EReal) := by
  unfold Cert.Gcn.d50kLit
  simp [Ideal.ofBits, Ideal.ieee, -EReal.coe_mul]; norm_num

theorem epsLit_pos : ∃ r : ℝ, 0 < r ∧ Cert.Gcn.epsLit = (r : EReal) := by
  unfold Cert.Gcn.epsLit
  simp [Ideal.ofBits, Ideal.ieee, -EReal.coe_mul]

theorem inf_eq : Ideal.ofBits .f32 0x7F800000#32 = (⊤ : EReal) := by
  simp [Ideal.ofBits, Ideal.ieee]

theorem isR_of_abs_lt (x : EReal)
    (h : Ideal.cmp .olt (max x (-x)) (Ideal.ofBits .f32 0x7F800000#32) = 1#1) : Cert.Gcn.IsR x := by
  rw [inf_eq] at h
  induction x using EReal.rec with
  | bot => simp [Ideal.cmp] at h
  | coe r => exact ⟨r, rfl⟩
  | top => simp [Ideal.cmp] at h

theorem all_real {s : Shape} {axes : List (Fin s.rank)} (x : FVec Ideal s .f32)
    (hb : S_.BroadcastsInDim s (![] : Fin 0 → Fin s.rank)) (hr : s.ReducesTo axes S_) (h0 : 0 < S_.numel)
    (e : Host.reduce IntOp.andi
        (cmpf (F := Ideal) .olt (Host.absf (F := Ideal) x) (broadcastInDim s ![] hb (constant (F := Ideal) S_ .f32 0x7F800000#32)))
        (constantI S_ 1 1#1) hr h0 ix0 = 1#1)
    (i : s.Idx) : Cert.Gcn.IsR (x i) :=
  isR_of_abs_lt (x i) (Host.reduce_andi_all _ _ hr h0 ix0 e i)

theorem row0_read (a1 : IVec S2x800000 32) (hs : S2x800000.Slices ![0, 0] S1x800000) (hc : S1x800000.ShapeCasts S800000)
    (e' : Fin 800000) :
    shapeCast S800000 (extractStridedSlice S1x800000 ![0, 0] a1 hs) hc (ix1 e') = a1 (ix2 (0 : Fin 2) e') := by
  refine (shapeCast_1a_a_apply _ hc e').trans ?_
  refine extractStridedSlice_apply _ _ hs _ _ (fun a => ?_)
  match a with
  | ⟨0, _⟩ => rfl
  | ⟨1, _⟩ => exact (Nat.zero_add _).symm

theorem sge_zero (w : BitVec 32) (h : IntOp.cmpi .sge w 0#32 = 1#1) : 0 ≤ w.toInt := by
  unfold IntOp.cmpi at h
  rw [StableHlo.Predicate.ofBool_eq_one_iff] at h
  simpa [BitVec.sle] using h

theorem slt_50000 (w : BitVec 32) (h : IntOp.cmpi .slt w 50000#32 = 1#1) : w.toInt < 50000 := by
  unfold IntOp.cmpi at h
  rw [StableHlo.Predicate.ofBool_eq_one_iff] at h
  have e : (50000#32 : BitVec 32).toInt = 50000 := by decide
  simpa [BitVec.slt, e] using h

structure Decoded (a0 : (⟨2, ![50000, 64]⟩ : Shape).Idx → EReal) (a1 : Cert.Gcn.EdgeIx)
    (a3 a7 a11 : (⟨2, ![64, 64]⟩ : Shape).Idx → EReal)
    (a4 a5 a6 a8 a9 a10 a12 a13 a14 : (⟨1, ![64]⟩ : Shape).Idx → EReal) : Prop where
  x : ∀ n k, Cert.Gcn.IsR (Cert.Gcn.actOf a0 n k)
  w1 : ∀ k c, Cert.Gcn.IsR (Cert.Gcn.wtOf a3 k c)
  b1 : ∀ c, Cert.Gcn.IsR (Cert.Gcn.rowVec a4 c)
  g1 : ∀ c, Cert.Gcn.IsR (Cert.Gcn.rowVec a5 c)
  be1 : ∀ c, Cert.Gcn.IsR (Cert.Gcn.rowVec a6 c)
  w2 : ∀ k c, Cert.Gcn.IsR (Cert.Gcn.wtOf a7 k c)
  b2 : ∀ c, Cert.Gcn.IsR (Cert.Gcn.rowVec a8 c)
  g2 : ∀ c, Cert.Gcn.IsR (Cert.Gcn.rowVec a9 c)
  be2 : ∀ c, Cert.Gcn.IsR (Cert.Gcn.rowVec a10 c)
  w3 : ∀ k c, Cert.Gcn.IsR (Cert.Gcn.wtOf a11 k c)
  b3 : ∀ c, Cert.Gcn.IsR (Cert.Gcn.rowVec a12 c)
  g3 : ∀ c, Cert.Gcn.IsR (Cert.Gcn.rowVec a13 c)
  be3 : ∀ c, Cert.Gcn.IsR (Cert.Gcn.rowVec a14 c)
  src : ∀ e' : Fin 800000, 0 ≤ (a1 (Idealize.ShloMosaic.ValueIdx.ix2 (0 : Fin 2) e')).toInt
    ∧ (a1 (Idealize.ShloMosaic.ValueIdx.ix2 (0 : Fin 2) e')).toInt < 50000

variable [Cert.Pre_finite_inputs.Facts]

theorem decode (a0 : FVec Ideal S50000x64 .f32) (a1 : IVec S2x800000 32) (a2 : IVec S50000 32)
    (a3 : FVec Ideal S64x64 .f32) (a4 a5 a6 : FVec Ideal S64 .f32)
    (a7 : FVec Ideal S64x64 .f32) (a8 a9 a10 : FVec Ideal S64 .f32)
    (a11 : FVec Ideal S64x64 .f32) (a12 a13 a14 : FVec Ideal S64 .f32)
    (h : Cert.Pre_finite_inputs.fn (F := Ideal) a0 a1 a2 a3 a4 a5 a6 a7 a8 a9 a10 a11 a12 a13 a14 = (fun _ => 1#1)) :
    Decoded a0 a1 a3 a7 a11 a4 a5 a6 a8 a9 a10 a12 a13 a14 := by
  have e := congrFun h ix0
  dsimp only [Cert.Pre_finite_inputs.fn, Cert.Pre_finite_inputs.fn_part1, Cert.Pre_finite_inputs.fn_part2,
    Cert.Pre_finite_inputs.fn_part3, Cert.Pre_finite_inputs.fn_part4] at e
  simp only [andi, IntOp.andi_eq_one] at e
  obtain ⟨⟨⟨⟨⟨⟨⟨⟨⟨⟨⟨⟨⟨h0, h3⟩, h4⟩, h5⟩, h6⟩, h7⟩, h8⟩, h9⟩, h10⟩, h11⟩, h12⟩, h13⟩, h14⟩, hI⟩ := e
  refine ⟨fun n k => all_real a0 _ _ _ h0 (ix2 n k), fun k c => all_real a3 _ _ _ h3 (ix2 k c),
    fun c => all_real a4 _ _ _ h4 (ix1 c), fun c => all_real a5 _ _ _ h5 (ix1 c), fun c => all_real a6 _ _ _ h6 (ix1 c),
    fun k c => all_real a7 _ _ _ h7 (ix2 k c),
    fun c => all_real a8 _ _ _ h8 (ix1 c), fun c => all_real a9 _ _ _ h9 (ix1 c), fun c => all_real a10 _ _ _ h10 (ix1 c),
    fun k c => all_real a11 _ _ _ h11 (ix2 k c),
    fun c => all_real a12 _ _ _ h12 (ix1 c), fun c => all_real a13 _ _ _ h13 (ix1 c), fun c => all_real a14 _ _ _ h14 (ix1 c),
    fun e' => ?_⟩
  obtain ⟨hge, hlt⟩ := IntOp.andi_eq_one.1 (Host.reduce_andi_all _ _ _ _ ix0 hI (ix1 e'))
  have r := row0_read a1 Cert.Pre_finite_inputs.Facts.slices_S2x800000_S1x800000_0_0
    Cert.Pre_finite_inputs.Facts.shapeCasts_S1x800000_S800000 e'
  exact ⟨sge_zero _ (r ▸ hge), slt_50000 _ (r ▸ hlt)⟩

end Cert.PreFacts

end
-- ==== Proof.Assemble.lean ====
import proofs.«420888_j18519898980762_3_alg».proof.Defs
import proofs.«420888_j18519898980762_3_alg».proof.Proof.Gen.Kernel
import proofs.«420888_j18519898980762_3_alg».proof.Proof.Gen.Kernel.Frame
import proofs.«420888_j18519898980762_3_alg».proof.Proof.Gen.KernelIdeal
import proofs.«420888_j18519898980762_3_alg».proof.Proof.Gen.KernelIdeal.Frame
import proofs.«420888_j18519898980762_3_alg».proof.Proof.Gen.ReferenceIdeal
import proofs.«420888_j18519898980762_3_alg».proof.Proof.Gen.Pre_finite_inputs
import proofs.«420888_j18519898980762_3_alg».proof.Proof.RefStages
import proofs.«420888_j18519898980762_3_alg».proof.Proof.RefRead
import proofs.«420888_j18519898980762_3_alg».proof.Proof.KernelRun
import proofs.«420888_j18519898980762_3_alg».proof.Proof.KArgs
import proofs.«420888_j18519898980762_3_alg».proof.Proof.KWalk
import proofs.«420888_j18519898980762_3_alg».proof.Proof.KBn3
import proofs.«420888_j18519898980762_3_alg».proof.Proof.KFinal
import proofs.«420888_j18519898980762_3_alg».proof.Proof.RLayer3
import proofs.«420888_j18519898980762_3_alg».proof.Proof.RFinal
import proofs.«420888_j18519898980762_3_alg».proof.Proof.MathLayer
import proofs.«420888_j18519898980762_3_alg».proof.Proof.IndexFacts
import proofs.«420888_j18519898980762_3_alg».proof.Proof.PreFacts

noncomputable section

namespace Cert.Assemble

open Idealize.ShloMosaic Idealize.ShloMosaic.TcCoe Idealize.ShloMosaic.ValueIdx Idealize.SL.Sem
open Cert.KernelIdeal Cert.KernelIdeal.Gen

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Stages.run_stages (F := Ideal) m ρ)

theorem tails_eq (h : (⟨S50000x64, .f32⟩ : BufTy).Contents (Elt Ideal)) (b : (⟨S50000, .i32⟩ : BufTy).Contents (Elt Ideal)) :
    Cert.ReferenceIdeal.RLayer3.tailR h b = Cert.KernelIdeal.KBn3.tailK h b := rfl

section

variable (m : (ℓ : Loc nD τ sig) → Buf (Elt Ideal) ℓ) (ρ : Dev nD → PrngReg)

theorem kernel_post (c : Dev nD) :
    W18 (F := Ideal) m ρ c (Proc.devRef .tc main_v76)
      = Cert.KernelIdeal.KBn3.tailK (W17 (F := Ideal) m ρ c (Proc.devRef .tc main_v64)) (Cert.KernelIdeal.KArgs.batch m c) :=
  Cert.KernelIdeal.KBn3.W18_tail m ρ c (Cert.KernelIdeal.KWalk.arg2_W17 m ρ c)

theorem arrays_eq (hpre : Cert.Pre_KernelIdeal m) (c : Dev nD) :
    Cert.ReferenceIdeal.Read.val_main_v154 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14))
      = W17 (F := Ideal) m ρ c (Proc.devRef .tc main_v64) := by
  have D := Cert.PreFacts.decode _ _ _ _ _ _ _ _ _ _ _ _ _ _ _ (hpre c)
  funext i
  obtain ⟨n, cc, rfl⟩ : ∃ n cc, i = ix2 n cc := ⟨i 0, i 1, eq_ix2 i⟩
  refine (Cert.ReferenceIdeal.RFinal.hfinR_apply _ _ _ _ _ _ _ _ _ _ _ _ _ _ n cc).trans ?_
  refine Eq.trans ?_ (Cert.KernelIdeal.KFinal.hfin_apply m ρ c (Cert.Gcn.srcInRange_of _ D.src) n cc).symm
  exact (congrFun (congrFun (Cert.Gcn.outK_eq_outR
    (Cert.Gcn.srcRow (Cert.KernelIdeal.KArgs.ei m c)) (Cert.Gcn.dstRow (Cert.KernelIdeal.KArgs.ei m c)) (Cert.Gcn.hit (Cert.KernelIdeal.KArgs.ei m c))
    Cert.Gcn.oneLit Cert.Gcn.d50kLit Cert.Gcn.epsLit Cert.PreFacts.oneLit_eq Cert.PreFacts.d50kLit_eq Cert.PreFacts.epsLit_pos
    (Cert.Gcn.hit_self _) (Cert.Gcn.hit_dstRow _)
    (Cert.KernelIdeal.KArgs.x m c) (Cert.KernelIdeal.KArgs.w1 m c) (Cert.KernelIdeal.KArgs.b1 m c) (Cert.KernelIdeal.KArgs.g1 m c) (Cert.KernelIdeal.KArgs.be1 m c)
    (Cert.KernelIdeal.KArgs.w2 m c) (Cert.KernelIdeal.KArgs.b2 m c) (Cert.KernelIdeal.KArgs.g2 m c) (Cert.KernelIdeal.KArgs.be2 m c)
    (Cert.KernelIdeal.KArgs.w3 m c) (Cert.KernelIdeal.KArgs.b3 m c) (Cert.KernelIdeal.KArgs.g3 m c) (Cert.KernelIdeal.KArgs.be3 m c)
    D.x D.w1 D.b1 D.g1 D.be1 D.w2 D.b2 D.g2 D.be2 D.w3 D.b3 D.g3 D.be3) n) cc).symm

theorem reference_value (hpre : Cert.Pre_KernelIdeal m) (c : Dev nD) :
    Cert.ReferenceIdeal.Read.val_main_v166 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14))
      = Cert.KernelIdeal.KBn3.tailK (W17 (F := Ideal) m ρ c (Proc.devRef .tc main_v64)) (Cert.KernelIdeal.KArgs.batch m c) :=
  (Cert.ReferenceIdeal.RLayer3.tail_eq _ _ _ _ _ _ _ _ _ _ _ _ _ _ _).trans
    ((congrArg (fun h => Cert.ReferenceIdeal.RLayer3.tailR h _) (arrays_eq m ρ hpre c)).trans (tails_eq _ _))

end

theorem algebraic : Cert.algebraic_KernelIdeal_ReferenceIdeal := by
  intro m ρ m' ρ' hpre hagree
  refine ⟨fun c => Cert.KernelIdeal.KBn3.tailK (W17 (F := Ideal) m ρ c (Proc.devRef .tc main_v64)) (Cert.KernelIdeal.KArgs.batch m c), ?_, ?_⟩
  · exact (θ_run Cert.KernelIdeal.defs _ _).mono (fun _ h c => ⟨(h c).1.trans (kernel_post m ρ c), (h c).2⟩)
      (Cert.KernelIdeal.KernelRun.run_value (F := Ideal) m ρ)
  · refine (θ_run Cert.ReferenceIdeal.defs _ _).mono (fun _ h c => ⟨(h c).1.trans ?_, (h c).2⟩)
      (Cert.ReferenceIdeal.Stages.run_stages (F := Ideal) m' ρ')
    obtain ⟨h0, h1, h2, h3, h4, h5, h6, h7, h8, h9, h10, h11, h12, h13, h14⟩ := hagree c
    rw [h0, h1, h2, h3, h4, h5, h6, h7, h8, h9, h10, h11, h12, h13, h14]
    exact reference_value m ρ hpre c

end Cert.Assemble

end
-- ==== Proof.lean ====
import proofs.«420888_j18519898980762_3_alg».proof.Defs
import proofs.«420888_j18519898980762_3_alg».proof.Proof.Gen.Kernel
import proofs.«420888_j18519898980762_3_alg».proof.Proof.Gen.Kernel.Skeleton
import proofs.«420888_j18519898980762_3_alg».proof.Proof.Gen.Kernel.Launch
import proofs.«420888_j18519898980762_3_alg».proof.Proof.Gen.Kernel.Points
import proofs.«420888_j18519898980762_3_alg».proof.Proof.Gen.Kernel.Frame
import proofs.«420888_j18519898980762_3_alg».proof.Proof.Gen.KernelIdeal
import proofs.«420888_j18519898980762_3_alg».proof.Proof.Gen.KernelIdeal.Skeleton
import proofs.«420888_j18519898980762_3_alg».proof.Proof.Gen.KernelIdeal.Launch
import proofs.«420888_j18519898980762_3_alg».proof.Proof.Gen.KernelIdeal.Points
import proofs.«420888_j18519898980762_3_alg».proof.Proof.Gen.KernelIdeal.Frame
import proofs.«420888_j18519898980762_3_alg».proof.Proof.Gen.ReferenceIdeal
import proofs.«420888_j18519898980762_3_alg».proof.Proof.Gen.Pre_finite_inputs
import proofs.«420888_j18519898980762_3_alg».proof.Proof.Assemble
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  Cert.Assemble.frame_k, Cert.Assemble.frame_ki, Cert.Assemble.frame_ri, trivial, Cert.Assemble.algebraic⟩

end Cert.Proof

end
